-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S4096x8192 : Shape := ⟨2, ![4096, 8192]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel

variable [Facts]

def fn {F : FTy → Type} [FloatOps F] (main_arg0 : FVec F S12288x64 .f32) (main_arg1 : IVec S4096x8192 32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  main_v3
-- ==== Kernel.lean ====
abbrev S12288x64 : Shape := ⟨2, ![12288, 64]⟩
abbrev S4096x8192 : Shape := ⟨2, ![4096, 8192]⟩
abbrev S4096x1 : Shape := ⟨2, ![4096, 1]⟩
abbrev S1x8192 : Shape := ⟨2, ![1, 8192]⟩
abbrev S4096x512 : Shape := ⟨2, ![4096, 512]⟩
abbrev S1x512 : Shape := ⟨2, ![1, 512]⟩
abbrev S4096 : Shape := ⟨1, ![4096]⟩
abbrev S512 : Shape := ⟨1, ![512]⟩
abbrev S1024x2048 : Shape := ⟨2, ![1024, 2048]⟩
abbrev S1024x1 : Shape := ⟨2, ![1024, 1]⟩
abbrev S1x2048 : Shape := ⟨2, ![1, 2048]⟩
abbrev S_ : Shape := ⟨0, ![]⟩
abbrev S4096x64 : Shape := ⟨2, ![4096, 64]⟩
abbrev S8192x64 : Shape := ⟨2, ![8192, 64]⟩
abbrev S1024x4096 : Shape := ⟨2, ![1024, 4096]⟩
abbrev S1024x64 : Shape := ⟨2, ![1024, 64]⟩
abbrev S2048x2048 : Shape := ⟨2, ![2048, 2048]⟩
abbrev S2048x64 : Shape := ⟨2, ![2048, 64]⟩

abbrev nBuf : Space → Nat
  | .hbm => 28
  | .vmem => 55
  | .smem => 0
  | _ => 0

abbrev bufTy : (tb : Table) → Fin (tcTables nBuf tb) → BufTy
  | .hbm, ⟨0, _⟩ => ⟨S12288x64, .f32⟩
  | .hbm, ⟨1, _⟩ => ⟨S4096x8192, .i32⟩
  | .hbm, ⟨2, _⟩ => ⟨S4096x1, .f32⟩
  | .hbm, ⟨3, _⟩ => ⟨S1x8192, .f32⟩
  | .hbm, ⟨4, _⟩ => ⟨S4096x8192, .bf16⟩
  | .hbm, ⟨5, _⟩ => ⟨S_, .f32⟩
  | .hbm, ⟨6, _⟩ => ⟨S12288x64, .f32⟩
  | .hbm, ⟨7, _⟩ => ⟨S4096x64, .f32⟩
  | .hbm, ⟨8, _⟩ => ⟨S8192x64, .f32⟩
  | .hbm, ⟨9, _⟩ => ⟨S4096x64, .f32⟩
  | .hbm, ⟨10, _⟩ => ⟨S8192x64, .f32⟩
  | .hbm, ⟨11, _⟩ => ⟨S12288x64, .f32⟩
  | .hbm, ⟨12, _⟩ => ⟨S12288x64, .f32⟩
  | .hbm, ⟨13, _⟩ => ⟨S4096x64, .f32⟩
  | .hbm, ⟨14, _⟩ => ⟨S8192x64, .f32⟩
  | .hbm, ⟨15, _⟩ => ⟨S4096x64, .f32⟩
  | .hbm, ⟨16, _⟩ => ⟨S8192x64, .f32⟩
  | .hbm, ⟨17, _⟩ => ⟨S12288x64, .f32⟩
  | .hbm, ⟨18, _⟩ => ⟨S12288x64, .f32⟩
  | .hbm, ⟨19, _⟩ => ⟨S4096x64, .f32⟩
  | .hbm, ⟨20, _⟩ => ⟨S8192x64, .f32⟩
  | .hbm, ⟨21, _⟩ => ⟨S4096x64, .f32⟩
  | .hbm, ⟨22, _⟩ => ⟨S8192x64, .f32⟩
  | .hbm, ⟨23, _⟩ => ⟨S12288x64, .f32⟩
  | .hbm, ⟨24, _⟩ => ⟨S12288x64, .f32⟩
  | .hbm, ⟨25, _⟩ => ⟨S_, .f32⟩
  | .hbm, ⟨26, _⟩ => ⟨S12288x64, .f32⟩
  | .hbm, ⟨27, _⟩ => ⟨S12288x64, .f32⟩
  | .local _ .vmem, ⟨0, _⟩ => ⟨S4096x512, .i32⟩
  | .local _ .vmem, ⟨1, _⟩ => ⟨S4096x512, .i32⟩
  | .local _ .vmem, ⟨2, _⟩ => ⟨S4096x1, .f32⟩
  | .local _ .vmem, ⟨3, _⟩ => ⟨S1x512, .f32⟩
  | .local _ .vmem, ⟨4, _⟩ => ⟨S1x512, .f32⟩
  | .local _ .vmem, ⟨5, _⟩ => ⟨S1024x2048, .i32⟩
  | .local _ .vmem, ⟨6, _⟩ => ⟨S1024x2048, .i32⟩
  | .local _ .vmem, ⟨7, _⟩ => ⟨S1024x1, .f32⟩
  | .local _ .vmem, ⟨8, _⟩ => ⟨S1024x1, .f32⟩
  | .local _ .vmem, ⟨9, _⟩ => ⟨S1x2048, .f32⟩
  | .local _ .vmem, ⟨10, _⟩ => ⟨S1x2048, .f32⟩
  | .local _ .vmem, ⟨11, _⟩ => ⟨S1024x2048, .bf16⟩
  | .local _ .vmem, ⟨12, _⟩ => ⟨S1024x2048, .bf16⟩
  | .local _ .vmem, ⟨13, _⟩ => ⟨S1024x4096, .bf16⟩
  | .local _ .vmem, ⟨14, _⟩ => ⟨S1024x4096, .bf16⟩
  | .local _ .vmem, ⟨15, _⟩ => ⟨S4096x64, .f32⟩
  | .local _ .vmem, ⟨16, _⟩ => ⟨S4096x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S2048x2048, .bf16⟩
  | .local _ .vmem, ⟨21, _⟩ => ⟨S2048x2048, .bf16⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S1024x4096, .bf16⟩
  | .local _ .vmem, ⟨28, _⟩ => ⟨S1024x4096, .bf16⟩
  | .local _ .vmem, ⟨29, _⟩ => ⟨S4096x64, .f32⟩
  | .local _ .vmem, ⟨30, _⟩ => ⟨S4096x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S2048x2048, .bf16⟩
  | .local _ .vmem, ⟨35, _⟩ => ⟨S2048x2048, .bf16⟩
  | .local _ .vmem, ⟨36, _⟩ => ⟨S2048x64, .f32⟩
  | .local _ .vmem, ⟨37, _⟩ => ⟨S2048x64, .f32⟩
  | .local _ .vmem, ⟨38, _⟩ => ⟨S2048x64, .f32⟩
  | .local _ .vmem, ⟨39, _⟩ => ⟨S2048x64, .f32⟩
  | .local _ .vmem, ⟨40, _⟩ => ⟨S2048x64, .f32⟩
  | .local _ .vmem, ⟨41, _⟩ => ⟨S1024x4096, .bf16⟩
  | .local _ .vmem, ⟨42, _⟩ => ⟨S1024x4096, .bf16⟩
  | .local _ .vmem, ⟨43, _⟩ => ⟨S4096x64, .f32⟩
  | .local _ .vmem, ⟨44, _⟩ => ⟨S4096x64, .f32⟩
  | .local _ .vmem, ⟨45, _⟩ => ⟨S1024x64, .f32⟩
  | .local _ .vmem, ⟨46, _⟩ => ⟨S1024x64, .f32⟩
  | .local _ .vmem, ⟨47, _⟩ => ⟨S1024x64, .f32⟩
  | .local _ .vmem, ⟨48, _⟩ => ⟨S2048x2048, .bf16⟩
  | .local _ .vmem, ⟨49, _⟩ => ⟨S2048x2048, .bf16⟩
  | .local _ .vmem, ⟨50, _⟩ => ⟨S2048x64, .f32⟩
  | .local _ .vmem, ⟨51, _⟩ => ⟨S2048x64, .f32⟩
  | .local _ .vmem, ⟨52, _⟩ => ⟨S2048x64, .f32⟩
  | .local _ .vmem, ⟨53, _⟩ => ⟨S2048x64, .f32⟩
  | .local _ .vmem, ⟨54, _⟩ => ⟨S2048x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_scratch0 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_scratch0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 2], ![false, false]⟩

def k3_cond2 (i : grid3.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 2], ![false, false]⟩

def k4_cond2 (i : grid4.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 2], ![false, false]⟩

def k5_cond2 (i : grid5.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 2], ![false, false]⟩

def k6_cond2 (i : grid6.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S4096x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![4, 2], ![false, false]⟩

def k7_cond2 (i : grid7.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S2048x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

class Facts₀ : Prop where
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  reduces_S4096x512_S512 : S4096x512.Reduces [0] S512
  shapeCasts_S512_S1x512 : S512.ShapeCasts S1x512
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x512_S1x512_0_0 : ∀ a, (![0, 0] : Fin 2 → Nat) a + S1x512.size a ≤ S1x512.size a
  h_S1x512 : 0 < S1x512.numel
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  bcast_S_S12288x64 : S_.BroadcastsInDim S12288x64 (![] : Fin 0 → Fin S12288x64.rank)
  slices_S12288x64_S4096x64_0_0 : S12288x64.Slices ![0, 0] S4096x64
  slices_S12288x64_S8192x64_4096_0 : S12288x64.Slices ![4096, 0] S8192x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  concatenates_S8192x64_S4096x64_S12288x64_d0 : Shape.Concatenates [S8192x64, S4096x64] S12288x64 0
  dot_S1024x4096_S4096x64_S1024x64_1_0_0_1_n_n_wf : DotDims.WF S1024x4096 S4096x64 S1024x64 [1] [0] [0] [1] [] []
  dot_S2048x2048_S2048x64_S2048x64_0_0_1_1_n_n_wf : DotDims.WF S2048x2048 S2048x64 S2048x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x8192.size a
  hwx0_0 : ∀ i : grid0.Coords, EltTy.bits .i32 = 32 ∨ (Rect.block (s := S4096x8192) S4096x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x8192.size a
  hwx1_0 : ∀ i : grid1.Coords, EltTy.bits .i32 = 32 ∨ (Rect.block (s := S4096x8192) S1024x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x8192.size a
  hwx1_3 : ∀ i : grid1.Coords, EltTy.bits .bf16 = 32 ∨ (Rect.block (s := S4096x8192) S1024x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x8192.size a
  hwx2_0 : ∀ i : grid2.Coords, EltTy.bits .bf16 = 32 ∨ (Rect.block (s := S4096x8192) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S8192x64.size a
  hwx2_1 : ∀ i : grid2.Coords, EltTy.bits .f32 = 32 ∨ (Rect.block (s := S8192x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S4096x64.size a
  hwx2_2 : ∀ i : grid2.Coords, EltTy.bits .f32 = 32 ∨ (Rect.block (s := S4096x64) S1024x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S4096x8192.size a
  hwx3_0 : ∀ i : grid3.Coords, EltTy.bits .bf16 = 32 ∨ (Rect.block (s := S4096x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S4096x64.size a
  hwx3_1 : ∀ i : grid3.Coords, EltTy.bits .f32 = 32 ∨ (Rect.block (s := S4096x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .f32 = 32 ∨ (Rect.block (s := S8192x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x4096.size a ≤ S4096x8192.size a
  hwx4_0 : ∀ i : grid4.Coords, EltTy.bits .bf16 = 32 ∨ (Rect.block (s := S4096x8192) S1024x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S8192x64.size a
  hwx4_1 : ∀ i : grid4.Coords, EltTy.bits .f32 = 32 ∨ (Rect.block (s := S8192x64) S4096x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S4096x64.size a
  hwx4_2 : ∀ i : grid4.Coords, EltTy.bits .f32 = 32 ∨ (Rect.block (s := S4096x64) S1024x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S4096x8192.size a
  hwx5_0 : ∀ i : grid5.Coords, EltTy.bits .bf16 = 32 ∨ (Rect.block (s := S4096x8192) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S4096x64.size a
  hwx5_1 : ∀ i : grid5.Coords, EltTy.bits .f32 = 32 ∨ (Rect.block (s := S4096x64) S2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x64.size a ≤ S8192x64.size a
  hwx5_2 : ∀ i : grid5.Coords, EltTy.bits .f32 = 32 ∨ (Rect.block (s := S8192x64) S2048x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x4096.size a ≤ S4096x8192.size a
  hwx6_0 : ∀ i : grid6.Coords, EltTy.bits .bf16 = 32 ∨ (Rect.block (s := S4096x8192) S1024x4096.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x64.size a ≤ S8192x64.size a
  hwx6_1 : ∀ i : grid6.Coords, EltTy.bits .f32 = 32 ∨ (Rect.block (s := S8192x64) S4096x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x64.size a ≤ S4096x64.size a
  hwx6_2 : ∀ i : grid6.Coords, EltTy.bits .f32 = 32 ∨ (Rect.block (s := S4096x64) S1024x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x2048.size a ≤ S4096x8192.size a
  hwx7_0 : ∀ i : grid7.Coords, EltTy.bits .bf16 = 32 ∨ (Rect.block (s := S4096x8192) S2048x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x64.size a ≤ S4096x64.size a
  hwx7_1 : ∀ i : grid7.Coords, EltTy.bits .f32 = 32 ∨ (Rect.block (s := S4096x64) S2048x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x64.size a ≤ S8192x64.size a
  hwx7_2 : ∀ i : grid7.Coords, EltTy.bits .f32 = 32 ∨ (Rect.block (s := S8192x64) S2048x64.size (cc7_transform_2 i) (hinb7_2 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf

abbrev win0_0 : Pipeline.Window sig grid0 :=
  Pipeline.Window.ofSpec (Memref.whole main_arg1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v1) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v1) S1024x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S4096x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1024x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v1) S2048x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2048x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v1) S1024x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S4096x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v17) S1024x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v1) S2048x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S2048x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v18) S2048x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where

variable [Facts]
-- ==== ReferenceIdeal.lean ====
abbrev S12288x64 : Shape := ⟨2, ![12288, 64]⟩
abbrev S4096x8192 : Shape := ⟨2, ![4096, 8192]⟩
abbrev S_ : Shape := ⟨0, ![]⟩
abbrev S4096 : Shape := ⟨1, ![4096]⟩
abbrev S8192 : Shape := ⟨1, ![8192]⟩
abbrev S4096x1 : Shape := ⟨2, ![4096, 1]⟩
abbrev S1x8192 : Shape := ⟨2, ![1, 8192]⟩
abbrev S8192x4096 : Shape := ⟨2, ![8192, 4096]⟩
abbrev S4096x64 : Shape := ⟨2, ![4096, 64]⟩
abbrev S8192x64 : Shape := ⟨2, ![8192, 64]⟩

abbrev nBuf : Space → Nat
  | .hbm => 54
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S4096x8192, .i32⟩
  | .hbm, ⟨2, _⟩ => ⟨S4096x8192, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S8192, .f32⟩
  | .hbm, ⟨7, _⟩ => ⟨S4096x1, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .i1⟩
  | .hbm, ⟨16, _⟩ => ⟨S_, .f32⟩
  | .hbm, ⟨17, _⟩ => ⟨S4096x8192, .f32⟩
  | .hbm, ⟨18, _⟩ => ⟨S4096x8192, .i1⟩
  | .hbm, ⟨19, _⟩ => ⟨S_, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S12288x64, .f32⟩
  | .hbm, ⟨30, _⟩ => ⟨S8192x4096, .f32⟩
  | .hbm, ⟨31, _⟩ => ⟨S4096x64, .f32⟩
  | .hbm, ⟨32, _⟩ => ⟨S8192x64, .f32⟩
  | .hbm, ⟨33, _⟩ => ⟨S8192x64, .f32⟩
  | .hbm, ⟨34, _⟩ => ⟨S4096x64, .f32⟩
  | .hbm, ⟨35, _⟩ => ⟨S12288x64, .f32⟩
  | .hbm, ⟨36, _⟩ => ⟨S12288x64, .f32⟩
  | .hbm, ⟨37, _⟩ => ⟨S8192x4096, .f32⟩
  | .hbm, ⟨38, _⟩ => ⟨S4096x64, .f32⟩
  | .hbm, ⟨39, _⟩ => ⟨S8192x64, .f32⟩
  | .hbm, ⟨40, _⟩ => ⟨S8192x64, .f32⟩
  | .hbm, ⟨41, _⟩ => ⟨S4096x64, .f32⟩
  | .hbm, ⟨42, _⟩ => ⟨S12288x64, .f32⟩
  | .hbm, ⟨43, _⟩ => ⟨S12288x64, .f32⟩
  | .hbm, ⟨44, _⟩ => ⟨S8192x4096, .f32⟩
  | .hbm, ⟨45, _⟩ => ⟨S4096x64, .f32⟩
  | .hbm, ⟨46, _⟩ => ⟨S8192x64, .f32⟩
  | .hbm, ⟨47, _⟩ => ⟨S8192x64, .f32⟩
  | .hbm, ⟨48, _⟩ => ⟨S4096x64, .f32⟩
  | .hbm, ⟨49, _⟩ => ⟨S12288x64, .f32⟩
  | .hbm, ⟨50, _⟩ => ⟨S12288x64, .f32⟩
  | .hbm, ⟨51, _⟩ => ⟨S_, .f32⟩
  | .hbm, ⟨52, _⟩ => ⟨S12288x64, .f32⟩
  | .hbm, ⟨53, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  reducesTo_S4096x8192_S8192_d0 : S4096x8192.ReducesTo [0] S8192
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S_S12288x64 : S_.BroadcastsInDim S12288x64 (![] : Fin 0 → Fin S12288x64.rank)
  transposes_S4096x8192_S8192x4096_1_0 : S4096x8192.Transposes [1, 0] S8192x4096
  slices_S12288x64_S4096x64_0_0 : S12288x64.Slices ![0, 0] S4096x64
  slices_S12288x64_S8192x64_4096_0 : S12288x64.Slices ![4096, 0] S8192x64
  concatenates_S8192x64_S4096x64_S12288x64_d0 : Shape.Concatenates [S8192x64, S4096x64] S12288x64 0
  dot_S8192x4096_S4096x64_S8192x64_1_0_0_1_n_n_wf : DotDims.WF S8192x4096 S4096x64 S8192x64 [1] [0] [0] [1] [] []
  dot_S4096x8192_S8192x64_S4096x64_1_0_0_1_n_n_wf : DotDims.WF S4096x8192 S8192x64 S4096x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf

class Facts : Prop extends Facts₀ where

variable [Facts]
-- ==== Proof.KB.Common.lean ====
import proofs.«161291_j15487652069895_1_alg».proof.Proof.Gen.Kernel.Skeleton
import proofs.«161291_j15487652069895_1_alg».proof.Proof.Gen.Kernel.Launch
import proofs.«161291_j15487652069895_1_alg».proof.Proof.Gen.Kernel.Points
import Idealize.ShloMosaic.Lib.Pipeline.FrameSuffix
import Idealize.ShloMosaic.Lib.Ring
import Idealize.ShloMosaic.Lib.Tactic
import Idealize.ShloMosaic.Lib.Pipeline.FrameBody
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Vals (F : FTy → Type) [FloatOps F] : Type :=
  (c : Dev nD) → (b : Ref sig .tc) → Buf (Elt F) ((c : Thread nD τ).loc b)

theorem offZero : (![0, 0] : Fin 2 → ℕ) = fun _ => 0 := by
  funext a; fin_cases a <;> rfl

/-- A whole buffer held at the contents that read `X`, loaded through the rectangle of its own extents at offset zero, reads `X`. -/
theorem readAt_zero {κ : Kind} {sp : Space} {S : Shape} {e : EltTy} {m : Memref sig κ sp S e} (h : m.IsWhole)
    {off : Fin S.rank → ℕ} (ho : off = fun _ => 0) (inb : ∀ a, off a + S.size a ≤ S.size a) (X : S.Idx → Elt F e) :
    View.readAt (Elt F) m.view (Rect.unit off S.size inb).toLoadRect (h.unread X) = X :=
  (View.ld_unit_zero ho inb (m.view.read (Elt F) (h.unread X))).trans (h.read_unread X)

/-- After a store through that rectangle the buffer reads the stored value, whatever was stored before. -/
theorem read_store_zero {κ : Kind} {sp : Space} {S : Shape} {e : EltTy} (v : View sig κ sp S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero ho inb y⟩)).trans
    (View.canon_cons_unit_zero ho inb w L)

/-- An accumulator along a grid whose reduction axis has two steps: restarted from `z` at every even position, continued from the position before at every odd one. -/
def accOf {α : Type} {N : ℕ} (step : Fin N → α → α) (z : α) : (n : ℕ) → n < N → α
  | 0, h => step ⟨0, h⟩ z
  | n + 1, h => if (n + 1) % 2 = 0 then step ⟨n + 1, h⟩ z else step ⟨n + 1, h⟩ (accOf step z n (Nat.lt_of_succ_lt h))

theorem accOf_even {α : Type} {N : ℕ} (step : Fin N → α → α) (z : α) (t : Fin N) (h : t.val % 2 = 0) :
    accOf step z t.val t.isLt = step t z := by
  obtain ⟨n, hn⟩ := t
  cases n with
  | zero => rfl
  | succ n => exact if_pos h

theorem accOf_odd {α : Type} {N : ℕ} (step : Fin N → α → α) (z : α) (t : Fin N) (h : t.val % 2 = 1) :
    accOf step z t.val t.isLt = step t (accOf step z (t.val - 1) (Nat.lt_of_le_of_lt (Nat.sub_le _ _) t.isLt)) := by
  obtain ⟨n, hn⟩ := t
  cases n with
  | zero => exact absurd (show (0 : ℕ) % 2 = 1 from h) (by decide)
  | succ n => exact if_neg (fun h0 => by have h1 : (n + 1) % 2 = 1 := h; omega)

/-- At an odd position the accumulator is the two steps of its pair applied to `z`. -/
theorem accOf_flush {α : Type} {N : ℕ} (step : Fin N → α → α) (z : α) (t s : Fin N) (ht : t.val % 2 = 1)
    (hs : s.val + 1 = t.val) : accOf step z t.val t.isLt = step t (step s z) := by
  have e : (⟨t.val - 1, Nat.lt_of_le_of_lt (Nat.sub_le _ _) t.isLt⟩ : Fin N) = s := Fin.ext (by simp only; omega)
  rw [accOf_odd step z t ht]
  exact congrArg (step t) ((accOf_even step z ⟨t.val - 1, _⟩ (by simp only; omega)).trans (congrArg (fun u => step u z) e))

theorem ne_of_notMem {gr W : ℕ} {spec : Fin W → Pipeline.WinSpec sig gr} {b : Ref sig .tc}
    (hb : b ∉ Finset.univ.image (Pipeline.arrRef spec)) (w : Fin W) : Pipeline.arrRef spec w ≠ b :=
  fun e => hb (Finset.mem_image.mpr ⟨w, Finset.mem_univ _, e⟩)

section Invariant

variable {gr W : ℕ} (spec : Fin W → Pipeline.WinSpec sig gr) (s : Ref sig .tc) {S : Shape}
  (sc : Memref sig .tc .vmem S .f32) {N : ℕ} (acc : (n : ℕ) → n < N → Vec F S .f32) (c : Dev nD)

abbrev restOf : sProp 𝕄 :=
  iprop(Pipeline.scopedRestBut (Ix := Unit) (Name := ℕ) (U := UR sig nD τ) (Lvl := ℕ) (Val := Elt F) spec c [s] ∗ (∃ r, prngReg c r))

/-- A reduction region's invariant: before the first point what the region is handed; after a point the accumulator's buffer at the accumulator's value, beside the rest untouched. -/
def PhiOf : (n : ℕ) → n ≤ N → sProp 𝕄
  | 0, _ => Pipeline.ΦA spec c
  | n + 1, hn => iprop(owns (c : Thread nD τ) sc fullShare (acc n hn) ∗ restOf (F := F) spec s c)

theorem PhiOf_pos (n : ℕ) (h : n ≤ N) (hz : n ≠ 0) :
    PhiOf spec s sc acc c n h
      = iprop(owns (c : Thread nD τ) sc fullShare (acc (n - 1) (by omega)) ∗ restOf (F := F) spec s c) := by
  cases n with
  | zero => exact absurd rfl hz
  | succ n => rfl

/-- At every position the invariant holds the accumulator's buffer at some contents. -/
theorem PhiOf_some (hA : (Pipeline.ΦA spec c : sProp 𝕄) = iprop(iprop((∃ d, owns (c : Thread nD τ) sc fullShare d)
      ∗ Pipeline.scopedRestBut (Ix := Unit) (Name := ℕ) (U := UR sig nD τ) (Lvl := ℕ) (Val := Elt F) spec c [s]) ∗ (∃ r, prngReg c r)))
    (n : ℕ) (h : n ≤ N) :
    PhiOf spec s sc acc c n h ⊢ iprop((∃ d, owns (c : Thread nD τ) sc fullShare d) ∗ restOf (F := F) spec s c) := by
  cases n with
  | zero =>
    rw [show PhiOf spec s sc acc c 0 h = Pipeline.ΦA spec c from rfl, hA]
    iintro ⟨⟨HS, HR⟩, Hg⟩
    unfold restOf
    iframe
  | succ n =>
    rw [show PhiOf spec s sc acc c (n + 1) h = iprop(owns (c : Thread nD τ) sc fullShare (acc n h) ∗ restOf (F := F) spec s c) from rfl]
    iintro ⟨HS, HR⟩
    iframe HR
    iexists _; iexact HS

/-- After the last point the invariant gives back what the region was handed. -/
theorem PhiOf_out (hA : (Pipeline.ΦA spec c : sProp 𝕄) = iprop(iprop((∃ d, owns (c : Thread nD τ) sc fullShare d)
      ∗ Pipeline.scopedRestBut (Ix := Unit) (Name := ℕ) (U := UR sig nD τ) (Lvl := ℕ) (Val := Elt F) spec c [s]) ∗ (∃ r, prngReg c r))) :
    PhiOf spec s sc acc c N (Nat.le_refl _) ⊢ (Pipeline.ΦA spec c : sProp 𝕄) := by
  rw [hA]
  refine BIBase.Entails.trans (PhiOf_some spec s sc acc c hA N (Nat.le_refl _)) ?_
  unfold restOf
  iintro ⟨HS, HR, Hg⟩
  iframe

end Invariant

end Cert.Kernel.Hand

end
-- ==== Proof.KB.Dat0.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev eblk0 (c : Dev nD) (t : Fin cfg0.N) : Vec F S4096x512 .i32 := iblk0 V c 0 t

def rows0 (c : Dev nD) : (n : ℕ) → n < cfg0.N → Vec F S4096x1 .f32
  | 0, h => k0_pay4 (eblk0 V c ⟨0, h⟩) (k0_pay3 (F := F))
  | n + 1, h => k0_pay4 (eblk0 V c ⟨n + 1, h⟩) (rows0 c n (Nat.lt_of_succ_lt h))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => rows0 V c t.val t.isLt
    | ⟨2, _⟩ => k0_pay2 (eblk0 V c t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = iblk0 V c 0 t := by dsimp only [dat0]
theorem dat0_after1 (c : Dev nD) (t : Fin cfg0.N) : (dat0 V c).after 1 t = rows0 V c t.val t.isLt := by dsimp only [dat0]
theorem dat0_after2 (c : Dev nD) (t : Fin cfg0.N) : (dat0 V c).after 2 t = k0_pay2 (eblk0 V c t) := by dsimp only [dat0]

end Cert.Kernel.Hand

end
-- ==== Proof.KB.Dat1.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev eblk1 (c : Dev nD) (t : Fin cfg1.N) : Vec F S1024x2048 .i32 := iblk1 V c 0 t
abbrev rblk1 (c : Dev nD) (t : Fin cfg1.N) : Vec F S1024x1 .f32 := iblk1 V c 1 t
abbrev cblk1 (c : Dev nD) (t : Fin cfg1.N) : Vec F S1x2048 .f32 := iblk1 V c 2 t

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (eblk1 V c t) (rblk1 V c t) (cblk1 V c t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = iblk1 V c 0 t := by dsimp only [dat1]
theorem dat1_after1 (c : Dev nD) (t : Fin cfg1.N) : (dat1 V c).after 1 t = iblk1 V c 1 t := by dsimp only [dat1]
theorem dat1_after2 (c : Dev nD) (t : Fin cfg1.N) : (dat1 V c).after 2 t = iblk1 V c 2 t := by dsimp only [dat1]
theorem dat1_after3 (c : Dev nD) (t : Fin cfg1.N) : (dat1 V c).after 3 t = k1_pay1 (eblk1 V c t) (rblk1 V c t) (cblk1 V c t) := by dsimp only [dat1]

end Cert.Kernel.Hand

end
-- ==== Proof.KB.Dat2.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev wblk2 (c : Dev nD) (t : Fin cfg2.N) : Vec F S1024x4096 .bf16 := iblk2 V c 0 t
abbrev xblk2 (c : Dev nD) (t : Fin cfg2.N) : Vec F S4096x64 .f32 := iblk2 V c 1 t

def acc2 (c : Dev nD) : (n : ℕ) → n < cfg2.N → Vec F S1024x64 .f32 :=
  accOf (fun t a => k2_pay2 (xblk2 V c t) a (wblk2 V c t)) (k2_pay1 (F := F))

abbrev scM2 : Memref sig .tc .vmem S1024x64 .f32 := Memref.whole cc2_scratch0

abbrev Phi2 (c : Dev nD) : (n : ℕ) → n ≤ cfg2.N → sProp 𝕄 := PhiOf spec2 cc2_scratch0 scM2 (acc2 V c) c

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = iblk2 V c 0 t := by dsimp only [dat2]
theorem dat2_after1 (c : Dev nD) (t : Fin cfg2.N) : (dat2 V c).after 1 t = iblk2 V c 1 t := by dsimp only [dat2]
theorem dat2_after2 (c : Dev nD) (t : Fin cfg2.N) : (dat2 V c).after 2 t = acc2 V c t.val t.isLt := by dsimp only [dat2]

end Cert.Kernel.Hand

end
-- ==== Proof.KB.Dat3.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev wblk3 (c : Dev nD) (t : Fin cfg3.N) : Vec F S2048x2048 .bf16 := iblk3 V c 0 t
abbrev xblk3 (c : Dev nD) (t : Fin cfg3.N) : Vec F S2048x64 .f32 := iblk3 V c 1 t

def acc3 (c : Dev nD) : (n : ℕ) → n < cfg3.N → Vec F S2048x64 .f32 :=
  accOf (fun t a => k3_pay2 (xblk3 V c t) (wblk3 V c t) a) (k3_pay1 (F := F))

abbrev scM3 : Memref sig .tc .vmem S2048x64 .f32 := Memref.whole cc3_scratch0

abbrev Phi3 (c : Dev nD) : (n : ℕ) → n ≤ cfg3.N → sProp 𝕄 := PhiOf spec3 cc3_scratch0 scM3 (acc3 V c) c

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = iblk3 V c 0 t := by dsimp only [dat3]
theorem dat3_after1 (c : Dev nD) (t : Fin cfg3.N) : (dat3 V c).after 1 t = iblk3 V c 1 t := by dsimp only [dat3]
theorem dat3_after2 (c : Dev nD) (t : Fin cfg3.N) : (dat3 V c).after 2 t = acc3 V c t.val t.isLt := by dsimp only [dat3]

end Cert.Kernel.Hand

end
-- ==== Proof.KB.Dat4.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev wblk4 (c : Dev nD) (t : Fin cfg4.N) : Vec F S1024x4096 .bf16 := iblk4 V c 0 t
abbrev xblk4 (c : Dev nD) (t : Fin cfg4.N) : Vec F S4096x64 .f32 := iblk4 V c 1 t

def acc4 (c : Dev nD) : (n : ℕ) → n < cfg4.N → Vec F S1024x64 .f32 :=
  accOf (fun t a => k2_pay2 (xblk4 V c t) a (wblk4 V c t)) (k2_pay1 (F := F))

abbrev scM4 : Memref sig .tc .vmem S1024x64 .f32 := Memref.whole cc4_scratch0

abbrev Phi4 (c : Dev nD) : (n : ℕ) → n ≤ cfg4.N → sProp 𝕄 := PhiOf spec4 cc4_scratch0 scM4 (acc4 V c) c

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = iblk4 V c 0 t := by dsimp only [dat4]
theorem dat4_after1 (c : Dev nD) (t : Fin cfg4.N) : (dat4 V c).after 1 t = iblk4 V c 1 t := by dsimp only [dat4]
theorem dat4_after2 (c : Dev nD) (t : Fin cfg4.N) : (dat4 V c).after 2 t = acc4 V c t.val t.isLt := by dsimp only [dat4]

end Cert.Kernel.Hand

end
-- ==== Proof.KB.Dat5.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev wblk5 (c : Dev nD) (t : Fin cfg5.N) : Vec F S2048x2048 .bf16 := iblk5 V c 0 t
abbrev xblk5 (c : Dev nD) (t : Fin cfg5.N) : Vec F S2048x64 .f32 := iblk5 V c 1 t

def acc5 (c : Dev nD) : (n : ℕ) → n < cfg5.N → Vec F S2048x64 .f32 :=
  accOf (fun t a => k3_pay2 (xblk5 V c t) (wblk5 V c t) a) (k3_pay1 (F := F))

abbrev scM5 : Memref sig .tc .vmem S2048x64 .f32 := Memref.whole cc5_scratch0

abbrev Phi5 (c : Dev nD) : (n : ℕ) → n ≤ cfg5.N → sProp 𝕄 := PhiOf spec5 cc5_scratch0 scM5 (acc5 V c) c

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := Phi5 V c t.val (Nat.le_of_lt_succ t.isLt)
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = iblk5 V c 0 t := by dsimp only [dat5]
theorem dat5_after1 (c : Dev nD) (t : Fin cfg5.N) : (dat5 V c).after 1 t = iblk5 V c 1 t := by dsimp only [dat5]
theorem dat5_after2 (c : Dev nD) (t : Fin cfg5.N) : (dat5 V c).after 2 t = acc5 V c t.val t.isLt := by dsimp only [dat5]

end Cert.Kernel.Hand

end
-- ==== Proof.KB.Dat6.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev wblk6 (c : Dev nD) (t : Fin cfg6.N) : Vec F S1024x4096 .bf16 := iblk6 V c 0 t
abbrev xblk6 (c : Dev nD) (t : Fin cfg6.N) : Vec F S4096x64 .f32 := iblk6 V c 1 t

def acc6 (c : Dev nD) : (n : ℕ) → n < cfg6.N → Vec F S1024x64 .f32 :=
  accOf (fun t a => k2_pay2 (xblk6 V c t) a (wblk6 V c t)) (k2_pay1 (F := F))

abbrev scM6 : Memref sig .tc .vmem S1024x64 .f32 := Memref.whole cc6_scratch0

abbrev Phi6 (c : Dev nD) : (n : ℕ) → n ≤ cfg6.N → sProp 𝕄 := PhiOf spec6 cc6_scratch0 scM6 (acc6 V c) c

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem dat6_A (c : Dev nD) (w : Fin cfg6.W) : (dat6 V c).A w = V c (Pipeline.arrRef spec6 w) := by
  dsimp only [dat6]
theorem dat6_after0 (c : Dev nD) (t : Fin cfg6.N) : (dat6 V c).after 0 t = iblk6 V c 0 t := by dsimp only [dat6]
theorem dat6_after1 (c : Dev nD) (t : Fin cfg6.N) : (dat6 V c).after 1 t = iblk6 V c 1 t := by dsimp only [dat6]
theorem dat6_after2 (c : Dev nD) (t : Fin cfg6.N) : (dat6 V c).after 2 t = acc6 V c t.val t.isLt := by dsimp only [dat6]

end Cert.Kernel.Hand

end
-- ==== Proof.KB.Dat7.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev wblk7 (c : Dev nD) (t : Fin cfg7.N) : Vec F S2048x2048 .bf16 := iblk7 V c 0 t
abbrev xblk7 (c : Dev nD) (t : Fin cfg7.N) : Vec F S2048x64 .f32 := iblk7 V c 1 t

def acc7 (c : Dev nD) : (n : ℕ) → n < cfg7.N → Vec F S2048x64 .f32 :=
  accOf (fun t a => k3_pay2 (xblk7 V c t) (wblk7 V c t) a) (k3_pay1 (F := F))

abbrev scM7 : Memref sig .tc .vmem S2048x64 .f32 := Memref.whole cc7_scratch0

abbrev Phi7 (c : Dev nD) : (n : ℕ) → n ≤ cfg7.N → sProp 𝕄 := PhiOf spec7 cc7_scratch0 scM7 (acc7 V c) c

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := Phi7 V c t.val (Nat.le_of_lt_succ t.isLt)
  q _ := fullShare
  owed _ := 0

theorem dat7_A (c : Dev nD) (w : Fin cfg7.W) : (dat7 V c).A w = V c (Pipeline.arrRef spec7 w) := by
  dsimp only [dat7]
theorem dat7_after0 (c : Dev nD) (t : Fin cfg7.N) : (dat7 V c).after 0 t = iblk7 V c 0 t := by dsimp only [dat7]
theorem dat7_after1 (c : Dev nD) (t : Fin cfg7.N) : (dat7 V c).after 1 t = iblk7 V c 1 t := by dsimp only [dat7]
theorem dat7_after2 (c : Dev nD) (t : Fin cfg7.N) : (dat7 V c).after 2 t = acc7 V c t.val t.isLt := by dsimp only [dat7]

end Cert.Kernel.Hand

end
-- ==== Proof.KB.Vals.lean ====
import proofs.«161291_j15487652069895_1_alg».proof.Proof.KB.Dat0
import proofs.«161291_j15487652069895_1_alg».proof.Proof.KB.Dat1
import proofs.«161291_j15487652069895_1_alg».proof.Proof.KB.Dat2
import proofs.«161291_j15487652069895_1_alg».proof.Proof.KB.Dat3
import proofs.«161291_j15487652069895_1_alg».proof.Proof.KB.Dat4
import proofs.«161291_j15487652069895_1_alg».proof.Proof.KB.Dat5
import proofs.«161291_j15487652069895_1_alg».proof.Proof.KB.Dat6
import proofs.«161291_j15487652069895_1_alg».proof.Proof.KB.Dat7

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : Vals F := fun c b => W0 m c b

/-- The buffers' contents after each item of the program: a region leaves its arrays at what its blocks write back and every other buffer as entered; host operations are folded in between. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : Vals F := fun c b => W1 m c b

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : Vals F := fun c b => W2 m c b

abbrev W3 : Dev nD → Valuation τ sig (Elt F) := fun c => StableHlo.after hostOps2 (W2 m c)
abbrev V3 : Vals F := fun c b => W3 m c b

def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : Vals F := fun c b => W4 m c b

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : Vals F := fun c b => W5 m c b

abbrev W6 : Dev nD → Valuation τ sig (Elt F) := fun c => StableHlo.after hostOps4 (W5 m c)
abbrev V6 : Vals F := fun c b => W6 m c b

def W7 (c : Dev nD) : Valuation τ sig (Elt F) :=
  Pipeline.withArrays spec4 c (W6 m c) fun w => (dat4 (V6 m) c).arrAt w cfg4.N
theorem W7_arr (c : Dev nD) (w : Fin cfg4.W) :
    W7 m c (Proc.devRef .tc (Pipeline.arrRef spec4 w)) = (dat4 (V6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
abbrev V7 : Vals F := fun c b => W7 m c b

def W8 (c : Dev nD) : Valuation τ sig (Elt F) :=
  Pipeline.withArrays spec5 c (W7 m c) fun w => (dat5 (V7 m) c).arrAt w cfg5.N
theorem W8_arr (c : Dev nD) (w : Fin cfg5.W) :
    W8 m c (Proc.devRef .tc (Pipeline.arrRef spec5 w)) = (dat5 (V7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
abbrev V8 : Vals F := fun c b => W8 m c b

abbrev W9 : Dev nD → Valuation τ sig (Elt F) := fun c => StableHlo.after hostOps6 (W8 m c)
abbrev V9 : Vals F := fun c b => W9 m c b

def W10 (c : Dev nD) : Valuation τ sig (Elt F) :=
  Pipeline.withArrays spec6 c (W9 m c) fun w => (dat6 (V9 m) c).arrAt w cfg6.N
theorem W10_arr (c : Dev nD) (w : Fin cfg6.W) :
    W10 m c (Proc.devRef .tc (Pipeline.arrRef spec6 w)) = (dat6 (V9 m) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) := by
  unfold W10; exact Pipeline.withArrays_of_ne spec6 c _ _ b hb
abbrev V10 : Vals F := fun c b => W10 m c b

def W11 (c : Dev nD) : Valuation τ sig (Elt F) :=
  Pipeline.withArrays spec7 c (W10 m c) fun w => (dat7 (V10 m) c).arrAt w cfg7.N
theorem W11_arr (c : Dev nD) (w : Fin cfg7.W) :
    W11 m c (Proc.devRef .tc (Pipeline.arrRef spec7 w)) = (dat7 (V10 m) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m c (Proc.devRef .tc b) = W10 m c (Proc.devRef .tc b) := by
  unfold W11; exact Pipeline.withArrays_of_ne spec7 c _ _ b hb
abbrev V11 : Vals F := fun c b => W11 m c b

abbrev W12 : Dev nD → Valuation τ sig (Elt F) := fun c => StableHlo.after hostOps8 (W11 m c)
abbrev V12 : Vals F := fun c b => W12 m c b

end Cert.Kernel.Hand

end
-- ==== Proof.KB.Body0.lean ====
import proofs.«161291_j15487652069895_1_alg».proof.Proof.KB.Dat0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

abbrev first_r0 (i : grid0.Coords) : Prop :=
  Scalar.cmpi .ne (Scalar.extui (Scalar.cmpi .eq (BitVec.ofNat 32 (i 0).val) 0#32)) 0#32 = 1#1

theorem first_iff_r0 : ∀ t : Fin cfg0.N, first_r0 (grid0.coords t) ↔ t.val = 0 :=
  (by decide +kernel : ∀ t : Fin grid0.N, first_r0 (grid0.coords t) ↔ t.val = 0)

theorem before_e_r0 (c : Dev nD) (t : Fin cfg0.N) (d) : (dat0 V c).before 0 t d = eblk0 V c t := by
  rw [Dat.before_fetched _ 0 t (fetch0_0 t)]
  unfold Dat.fetched Dat.blockOf eblk0 iblk0
  rw [dat0_A]
  rfl

theorem before_rows_r0 (c : Dev nD) (t : Fin cfg0.N) (ht : t.val ≠ 0) (d) :
    (dat0 V c).before 1 t d = rows0 V c (t.val - 1) (Nat.lt_of_le_of_lt (Nat.sub_le _ _) t.isLt) := by
  have hN : t.val < 16 := lt_of_lt_of_eq t.isLt (show cfg0.N = 16 from N_0)
  rw [Dat.before_out_kept _ 1 rfl t ht
    (Bool.eq_false_iff.mpr fun h => by have := (flush0_1 _).mp h; dsimp only at this; omega)
    (fun _ => rfl) (fun _ _ => rfl)]
  rw [dat0_after1]

theorem rows0_first_r0 (c : Dev nD) (t : Fin cfg0.N) (ht : t.val = 0) :
    rows0 V c t.val t.isLt = k0_pay4 (eblk0 V c t) (k0_pay3 (F := F)) := by
  obtain ⟨n, hn⟩ := t
  cases n with
  | zero => rfl
  | succ n => exact absurd ht (Nat.succ_ne_zero n)

theorem rows0_later_r0 (c : Dev nD) (t : Fin cfg0.N) (ht : t.val ≠ 0) :
    rows0 V c t.val t.isLt
      = k0_pay4 (eblk0 V c t) (rows0 V c (t.val - 1) (Nat.lt_of_le_of_lt (Nat.sub_le _ _) t.isLt)) := by
  obtain ⟨n, hn⟩ := t
  cases n with
  | zero => exact absurd rfl ht
  | succ n => rfl

theorem whole_emb_r0 {s : Shape} {off : Fin s.rank → ℕ} (h0 : ∀ a, off a = 0)
    (inb : ∀ a, off a + s.size a ≤ s.size a) (x : s.Idx) : (Rect.unit off s.size inb).emb x = x := by
  funext a
  apply Fin.ext
  rw [Rect.emb_apply]
  show off a + 1 * (x a).val = (x a).val
  rw [h0 a]; omega

theorem readAt_whole_r0 {s : Shape} {e : EltTy} (v : View sig .tc .vmem s e) (f : v.ty.Contents (Elt F))
    {off : Fin s.rank → ℕ} (h0 : ∀ a, off a = 0) (inb : ∀ a, off a + s.size a ≤ s.size a) :
    v.readAt (Elt F) (Rect.unit off s.size inb).toLoadRect f = v.read (Elt F) f := by
  funext x
  rw [View.readAt_apply]
  exact congrArg _ (whole_emb_r0 h0 inb x)

theorem read_whole_store_r0 {s : Shape} {e : EltTy} (v : View sig .tc .vmem s e) (f : v.ty.Contents (Elt F))
    {off : Fin s.rank → ℕ} (h0 : ∀ a, off a = 0) (inb : ∀ a, off a + s.size a ≤ s.size a)
    (w : s.Idx → Elt F e) (L : List (View.Piece (Elt F) s e)) :
    v.read (Elt F) (v.writes (Elt F) f (⟨Rect.unit off s.size inb, w⟩ :: L)) = w := by
  funext x
  have h := View.read_writes_cons_emb v f (Rect.unit off s.size inb) w L x
  rwa [whole_emb_r0 h0 inb x] at h

theorem zero_off_r0 : ∀ a : Fin 2, (![0, 0] : Fin 2 → ℕ) a = 0 := by decide

theorem kernel_first_r0 (c : Dev nD) (E : Set ℕ) (i : grid0.Coords)
    (arg1 : Memref sig .tc .vmem S4096x512 .i32) (harg1 : arg1.IsWhole)
    (arg2 : Memref sig .tc .vmem S4096x1 .f32) (harg2 : arg2.IsWhole)
    (arg3 : Memref sig .tc .vmem S1x512 .f32) (harg3 : arg3.IsWhole)
    (hi : first_r0 i) (e : Vec F S4096x512 .i32) (K : PUnit → sProp 𝕄) :
    iprop(owns (c : Thread nD τ) arg1 fullShare e ∗ (∃ d, owns (c : Thread nD τ) arg2 fullShare d)
        ∗ (∃ d, owns (c : Thread nD τ) arg3 fullShare d)
        ∗ (iprop(owns (c : Thread nD τ) arg1 fullShare e
              ∗ owns (c : Thread nD τ) arg2 fullShare (k0_pay4 e (k0_pay3 (F := F)))
              ∗ owns (c : Thread nD τ) arg3 fullShare (k0_pay2 e)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f1, %hf1, H1⟩, ⟨%d2, %f2, -, H2⟩, ⟨%d3, %f3, -, H3⟩, Hk⟩
  subst hf1
  sl_exec (disch := first | exact hi)
  sl_step
  iapply Hk
  isplitl [H1]
  · iexists f1; isplitr; · ipureintro; rfl
    iexact H1
  isplitl [H2]
  · iexists _; isplitr
    swap; · iexact H2
    ipureintro

    rw [read_whole_store_r0 _ _ zero_off_r0, readAt_whole_r0 _ _ zero_off_r0]
    unfold kernel_first_r0.sl.v9 kernel_first_r0.sl.H2_1
    unfold View.readCov
    rw [readAt_whole_r0 _ _ zero_off_r0, read_whole_store_r0 _ _ zero_off_r0]
  · iexists _; isplitr
    swap; · iexact H3
    ipureintro
    rw [read_whole_store_r0 _ _ zero_off_r0, readAt_whole_r0 _ _ zero_off_r0]

theorem kernel_later_r0 (c : Dev nD) (E : Set ℕ) (i : grid0.Coords)
    (arg1 : Memref sig .tc .vmem S4096x512 .i32) (harg1 : arg1.IsWhole)
    (arg2 : Memref sig .tc .vmem S4096x1 .f32) (harg2 : arg2.IsWhole)
    (arg3 : Memref sig .tc .vmem S1x512 .f32) (harg3 : arg3.IsWhole)
    (hi : ¬first_r0 i) (e : Vec F S4096x512 .i32) (acc : Vec F S4096x1 .f32) (K : PUnit → sProp 𝕄) :
    iprop(owns (c : Thread nD τ) arg1 fullShare e ∗ owns (c : Thread nD τ) arg2 fullShare acc
        ∗ (∃ d, owns (c : Thread nD τ) arg3 fullShare d)
        ∗ (iprop(owns (c : Thread nD τ) arg1 fullShare e
              ∗ owns (c : Thread nD τ) arg2 fullShare (k0_pay4 e acc)
              ∗ owns (c : Thread nD τ) arg3 fullShare (k0_pay2 e)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f1, %hf1, H1⟩, ⟨%f2, %hf2, H2⟩, ⟨%d3, %f3, -, H3⟩, Hk⟩
  subst hf1; subst hf2
  sl_exec (disch := first | exact hi)
  sl_step
  iapply Hk
  isplitl [H1]
  · iexists f1; isplitr; · ipureintro; rfl
    iexact H1
  isplitl [H2]
  · iexists _; isplitr
    swap; · iexact H2
    ipureintro
    rw [read_whole_store_r0 _ _ zero_off_r0, readAt_whole_r0 _ _ zero_off_r0, readAt_whole_r0 _ _ zero_off_r0]
  · iexists _; isplitr
    swap; · iexact H3
    ipureintro
    rw [read_whole_store_r0 _ _ zero_off_r0, readAt_whole_r0 _ _ zero_off_r0]

def bodyPre_r0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost_r0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body_r0 (c : Dev nD) (t : Fin cfg0.N) :
    bodyPre_r0 V c t ⊢ wp frame (wpE (defs₀ (F := F)) Variants.none c none) Set.univ (bodyAt0 t) (fun _ => bodyPost_r0 V c t) := by
  unfold bodyPre_r0 bodyPost_r0 bodyAt0
  simp only [before_e_r0]
  rw [show (dat0 V c).Φ t.succ = (dat0 V c).Φ t.castSucc from rfl,
    show (dat0 V c).owesAt () t.succ = (dat0 V c).owesAt () t.castSucc from rfl,
    dat0_after0, dat0_after1, dat0_after2]
  by_cases h0 : t.val = 0
  · rw [rows0_first_r0 V c t h0]
    iintro ⟨HΦ, Ho, ⟨%d0, H0⟩, ⟨%d1, H1⟩, ⟨%d2, H2⟩⟩
    iapply (kernel_first_r0 c Set.univ (grid0.coords t) _ _ _ _ _ _ ((first_iff_r0 t).mpr h0) (eblk0 V c t) _)
    iframe H0
    isplitl [H1]; · iexists _; iexact H1
    isplitl [H2]; · iexists _; iexact H2
    iintro ⟨H0, H1, H2⟩
    iframe
  · rw [rows0_later_r0 V c t h0]
    simp only [before_rows_r0 V c t h0]
    iintro ⟨HΦ, Ho, ⟨%d0, H0⟩, ⟨%d1, H1⟩, ⟨%d2, H2⟩⟩
    iapply (kernel_later_r0 c Set.univ (grid0.coords t) _ _ _ _ _ _ (fun h => h0 ((first_iff_r0 t).mp h)) (eblk0 V c t) _ _)
    iframe H0 H1
    isplitl [H2]; · iexists _; iexact H2
    iintro ⟨H0, H1, H2⟩
    iframe

theorem body_obligation0 (c : Dev nD) :
    BodyObligation (dat0 (F := F) V c) (defs₀ (F := F)) Variants.none () Set.univ := fun t => by
  rw [bigSep_W0, bigSep_W0]
  exact sound_body_r0 V c t

theorem hin0 (c : Dev nD) : (Pipeline.ΦA spec0 c : sProp 𝕄) ⊢ (dat0 V c).Φ 0 := by
  dsimp only [dat0]
  exact Entails.refl _

theorem hout0 (c : Dev nD) : (dat0 V c).Φ (Fin.last cfg0.N) ⊢ (Pipeline.ΦA spec0 c : sProp 𝕄) := by
  dsimp only [dat0]
  exact Entails.refl _

end Cert.Kernel.Hand

end
-- ==== Proof.KB.Body1.lean ====
import proofs.«161291_j15487652069895_1_alg».proof.Proof.KB.Dat1
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

theorem emb_whole_r1 {s : Shape} (off : Fin s.rank → ℕ) (h0 : ∀ a, off a = 0) (inb : ∀ a, off a + s.size a ≤ s.size a)
    (x : s.Idx) : (Rect.unit (s := s) off s.size inb).emb x = x := by
  funext a
  apply Fin.ext
  rw [Rect.emb_apply, Rect.off_unit, Rect.stride_unit, h0 a, Nat.zero_add, Nat.one_mul]

theorem ld_whole_r1 {s : Shape} {e : EltTy} (off : Fin s.rank → ℕ) (h0 : ∀ a, off a = 0) (inb : ∀ a, off a + s.size a ≤ s.size a)
    (X : s.Idx → Elt F e) : View.ld X (Rect.unit (s := s) off s.size inb) = X := by
  funext x
  exact congrArg X (emb_whole_r1 off h0 inb x)

theorem read_write_whole_r1 {κ : Kind} {sp : Space} {s : Shape} {e : EltTy} (v : View sig κ sp s e) (f : v.ty.Contents (Elt F))
    (off : Fin s.rank → ℕ) (h0 : ∀ a, off a = 0) (inb : ∀ a, off a + s.size a ≤ s.size a) (p : s.Idx → Elt F e) :
    v.read (Elt F) (v.writes (Elt F) f [⟨Rect.unit (s := s) off s.size inb, p⟩]) = p := by
  funext y
  have h := View.read_writes_cons_emb (v := v) (f := f) (Rect.unit (s := s) off s.size inb) p [] y
  rwa [emb_whole_r1 off h0 inb y] at h

theorem zeros_r1 : ∀ a : Fin 2, (![0, 0] : Fin 2 → ℕ) a = 0 := by decide

theorem before0_r1 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [dat1_after0]; unfold Dat.blockOf iblk1; rw [dat1_A]; try rfl
  rw [(dat1 V c).before_in_eq_fetched 0 rfl (fun _ => rfl) (fun _ _ _ => rfl) hkeep t d]
  unfold Dat.fetched Dat.blockOf iblk1; rw [dat1_A]; try rfl

theorem before1_r1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [dat1_after1]; unfold Dat.blockOf iblk1; rw [dat1_A]; try rfl
  rw [(dat1 V c).before_in_eq_fetched 1 rfl (fun _ => rfl) (fun _ _ _ => rfl) hkeep t d]
  unfold Dat.fetched Dat.blockOf iblk1; rw [dat1_A]; try rfl

theorem before2_r1 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [dat1_after2]; unfold Dat.blockOf iblk1; rw [dat1_A]; try rfl
  rw [(dat1 V c).before_in_eq_fetched 2 rfl (fun _ => rfl) (fun _ _ _ => rfl) hkeep t d]
  unfold Dat.fetched Dat.blockOf iblk1; rw [dat1_A]; try rfl

theorem sound_kernel_r1 (c : Dev nD) (E : Set ℕ) (i : grid1.Coords)
    (arg2 : Memref sig .tc .vmem S1024x2048 .i32) (harg2 : arg2.IsWhole)
    (arg3 : Memref sig .tc .vmem S1024x1 .f32) (harg3 : arg3.IsWhole)
    (arg4 : Memref sig .tc .vmem S1x2048 .f32) (harg4 : arg4.IsWhole)
    (arg5 : Memref sig .tc .vmem S1024x2048 .bf16) (harg5 : arg5.IsWhole)
    (x0 : Vec F S1024x2048 .i32) (x1 : Vec F S1024x1 .f32) (x2 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k1_pay1 x0 x1 x2)) -∗ K ⟨⟩))
      ⊢ wp frame (wpE (defs₀ (F := F)) Variants.none c none) E
          (cc1__weight_kernel i arg2 harg2 arg3 harg3 arg4 harg4 arg5 harg5) K := by
  simp only [cc1__weight_kernel_eq_skeleton]; unfold cc1__weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step

  have e0 : View.readAt (Elt F) arg2.view (Rect.unit (s := S1024x2048) ![0, 0] S1024x2048.size inb_S1024x2048_S1024x2048_0_0).toLoadRect f0
      = arg2.view.read (Elt F) f0 := ld_whole_r1 (s := S1024x2048) _ zeros_r1 _ _
  have e1 : View.readAt (Elt F) arg3.view (Rect.unit (s := S1024x1) ![0, 0] S1024x1.size inb_S1024x1_S1024x1_0_0).toLoadRect f1
      = arg3.view.read (Elt F) f1 := ld_whole_r1 (s := S1024x1) _ zeros_r1 _ _
  have e2 : View.readAt (Elt F) arg4.view (Rect.unit (s := S1x2048) ![0, 0] S1x2048.size inb_S1x2048_S1x2048_0_0).toLoadRect f2
      = arg4.view.read (Elt F) f2 := ld_whole_r1 (s := S1x2048) _ zeros_r1 _ _
  rw [e0, e1, e2]
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact read_write_whole_r1 (s := S1024x2048) _ _ _ zeros_r1 _ _

def bodyPre_r1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost_r1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body_r1 (c : Dev nD) (t : Fin cfg1.N) :
    bodyPre_r1 V c t ⊢ wp frame (wpE (defs₀ (F := F)) Variants.none c none) Set.univ (bodyAt1 t) (fun _ => bodyPost_r1 V c t) := by
  unfold bodyPre_r1 bodyPost_r1 bodyAt1
  simp only [before0_r1, before1_r1, before2_r1]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨Hinv, Hdebt, ⟨%d0, He⟩, ⟨%d1, Hr⟩, ⟨%d2, Hc⟩, ⟨%d3, Hw⟩⟩
  iapply (sound_kernel_r1 c Set.univ _ _ _ _ _ _ _ _ _ (iblk1 V c 0 t) (iblk1 V c 1 t) (iblk1 V c 2 t) _)
  iframe He Hr Hc
  isplitl [Hw]; · iexists _; iexact Hw
  iintro ⟨He, Hr, Hc, Hw⟩
  iframe

theorem body_obligation1 (c : Dev nD) :
    BodyObligation (dat1 (F := F) V c) (defs₀ (F := F)) Variants.none () Set.univ := fun t => by
  rw [bigSep_W1, bigSep_W1]
  exact sound_body_r1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.Kernel.Hand

end
-- ==== Proof.KB.Bottom.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA_bot (i : grid2.Coords) : Prop := (Scalar.cmpi .ne (Scalar.extui (Scalar.cmpi .eq (BitVec.ofNat 32 (i 1).val) 0#32)) 0#32) = 1#1

theorem hcondA_bot : ∀ t : Fin cfg2.N, condA_bot (grid2.coords t) ↔ t.val % 2 = 0 :=
  (by decide +kernel : ∀ t : Fin grid2.N, condA_bot (grid2.coords t) ↔ t.val % 2 = 0)

abbrev condB_bot (i : grid2.Coords) : Prop := k2_cond2 i = 1#1

theorem hcondB_bot : ∀ t : Fin cfg2.N, condB_bot (grid2.coords t) ↔ t.val % 2 = 1 :=
  (by decide +kernel : ∀ t : Fin grid2.N, condB_bot (grid2.coords t) ↔ t.val % 2 = 1)

/-- A first reduction step zeroes the accumulator and adds the product of the point's blocks to it. Stated for any function equal to this kernel, so that every region that runs it cites the one lemma. -/
theorem runA_bot (kern : type_of% (cc2__prop_bottom_kernel (F := F))) (hkern : kern = cc2__prop_bottom_kernel)
    (c : Dev nD) (i : grid2.Coords)
    (arg2 : Memref sig .tc .vmem S1024x4096 .bf16) (harg2 : arg2.IsWhole)
    (arg3 : Memref sig .tc .vmem S4096x64 .f32) (harg3 : arg3.IsWhole)
    (arg4 : Memref sig .tc .vmem S1024x64 .f32) (harg4 : arg4.IsWhole)
    (arg5 : Memref sig .tc .vmem S1024x64 .f32) (harg5 : arg5.IsWhole)
    (hcA : condA_bot i) (hcB : ¬condB_bot i)
    (xw : Vec F S1024x4096 .bf16) (xx : Vec F S4096x64 .f32) (xo : Vec F S1024x64 .f32)
    (E : Set ℕ) (K : PUnit → sProp 𝕄) :
    iprop(owns (c : Thread nD τ) arg2 fullShare xw ∗ owns (c : Thread nD τ) arg3 fullShare xx
        ∗ owns (c : Thread nD τ) arg4 fullShare xo ∗ (∃ d, owns (c : Thread nD τ) arg5 fullShare d)
        ∗ (iprop(owns (c : Thread nD τ) arg2 fullShare xw ∗ owns (c : Thread nD τ) arg3 fullShare xx
            ∗ owns (c : Thread nD τ) arg4 fullShare xo
            ∗ owns (c : Thread nD τ) arg5 fullShare (k2_pay2 xx (k2_pay1 (F := F)) xw)) -∗ K ⟨⟩))
      ⊢ wp frame (wpE (defs₀ (F := F)) Variants.none c none) E (kern i arg2 harg2 arg3 harg3 arg4 harg4 arg5 harg5) K := by
  subst hkern
  simp only [cc2__prop_bottom_kernel_eq_skeleton]; unfold cc2__prop_bottom_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hcA | exact hcB)
  sl_step
  iapply Hk
  unfold runA_bot.sl.v6 runA_bot.sl.HS_1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [readAt_zero harg3 offZero, readAt_zero harg2 offZero, View.readCov_cons_toLoadRect]
  exact read_store_zero _ _ offZero _ _ _

/-- A last reduction step adds the product of the point's blocks to the accumulator and stores the sum to the output block as well. -/
theorem runB_bot (kern : type_of% (cc2__prop_bottom_kernel (F := F))) (hkern : kern = cc2__prop_bottom_kernel)
    (c : Dev nD) (i : grid2.Coords)
    (arg2 : Memref sig .tc .vmem S1024x4096 .bf16) (harg2 : arg2.IsWhole)
    (arg3 : Memref sig .tc .vmem S4096x64 .f32) (harg3 : arg3.IsWhole)
    (arg4 : Memref sig .tc .vmem S1024x64 .f32) (harg4 : arg4.IsWhole)
    (arg5 : Memref sig .tc .vmem S1024x64 .f32) (harg5 : arg5.IsWhole)
    (hcA : ¬condA_bot i) (hcB : condB_bot i)
    (xw : Vec F S1024x4096 .bf16) (xx : Vec F S4096x64 .f32) (xs : Vec F S1024x64 .f32)
    (E : Set ℕ) (K : PUnit → sProp 𝕄) :
    iprop(owns (c : Thread nD τ) arg2 fullShare xw ∗ owns (c : Thread nD τ) arg3 fullShare xx
        ∗ (∃ d, owns (c : Thread nD τ) arg4 fullShare d) ∗ owns (c : Thread nD τ) arg5 fullShare xs
        ∗ (iprop(owns (c : Thread nD τ) arg2 fullShare xw ∗ owns (c : Thread nD τ) arg3 fullShare xx
            ∗ owns (c : Thread nD τ) arg4 fullShare (k2_pay2 xx xs xw)
            ∗ owns (c : Thread nD τ) arg5 fullShare (k2_pay2 xx xs xw)) -∗ K ⟨⟩))
      ⊢ wp frame (wpE (defs₀ (F := F)) Variants.none c none) E (kern i arg2 harg2 arg3 harg3 arg4 harg4 arg5 harg5) K := by
  subst hkern
  simp only [cc2__prop_bottom_kernel_eq_skeleton]; unfold cc2__prop_bottom_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hcA | exact hcB)
  sl_step
  iapply Hk
  unfold runB_bot.sl.v17 runB_bot.sl.HS_1
  rw [readAt_zero harg3 offZero, readAt_zero harg2 offZero, readAt_zero harg5 offZero,
    View.readCov_cons_toLoadRect]
  isplitl [H0]
  · iexists _; isplitr; · ipureintro; exact hf0
    iexact H0
  isplitl [H1]
  · iexists _; isplitr; · ipureintro; exact hf1
    iexact H1
  isplitl [H2]
  · iexists _; isplitr
    swap; · iexact H2
    ipureintro; exact read_store_zero _ _ offZero _ _ _
  iexists _; isplitr
  swap; · iexact HS
  ipureintro; exact read_store_zero _ _ offZero _ _ _

end Cert.Kernel.Hand

end
-- ==== Proof.KB.Body2.lean ====
import proofs.«161291_j15487652069895_1_alg».proof.Proof.KB.Dat2
import proofs.«161291_j15487652069895_1_alg».proof.Proof.KB.Bottom

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r2 : ∀ t : Fin cfg2.N, cfg2.idle 0 (grid2.coords t) = false ∧ cfg2.idle 1 (grid2.coords t) = false
    ∧ (t.val % 2 = 0 → cfg2.idle 2 (grid2.coords t) = true ∧ (cfg2.win 2).flush t = false)
    ∧ (t.val % 2 = 1 → cfg2.idle 2 (grid2.coords t) = false) := by decide +kernel

theorem PhiA_eq_r2 (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

theorem before_r2_0 (c : Dev nD) (t : Fin cfg2.N) (d) : (dat2 V c).before 0 t d = iblk2 V c 0 t := by
  rw [(dat2 V c).before_fetched 0 t (fetch2_0 t) d]
  unfold Dat.fetched Dat.blockOf iblk2
  rw [dat2_A]; try rfl

theorem before_r2_1 (c : Dev nD) (t : Fin cfg2.N) (d) : (dat2 V c).before 1 t d = iblk2 V c 1 t := by
  rw [(dat2 V c).before_fetched 1 t (fetch2_1 t) d]
  unfold Dat.fetched Dat.blockOf iblk2
  rw [dat2_A]; try rfl

def bodyPre_r2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost_r2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The body at any point: at an even point the accumulator restarts from zero and the output block is left as found; at an odd point the product is added to what the point before left and stored to the output block. -/
theorem sound_body_r2 (c : Dev nD) (t : Fin cfg2.N) :
    bodyPre_r2 V c t ⊢ wp frame (wpE (defs₀ (F := F)) Variants.none c none) Set.univ (bodyAt2 t) (fun _ => bodyPost_r2 V c t) := by
  obtain ⟨hl0, hl1, hev, hod⟩ := sched_r2 t
  unfold bodyPre_r2 bodyPost_r2 bodyAt2
  simp only [before_r2_0, before_r2_1]
  rw [show (dat2 V c).owesAt () t.succ = (dat2 V c).owesAt () t.castSucc from rfl,
    show (dat2 V c).Φ t.succ
      = iprop(owns (c : Thread nD τ) scM2 fullShare (acc2 V c t.val t.isLt) ∗ restOf (F := F) spec2 cc2_scratch0 c) from rfl,
    show (dat2 V c).Φ t.castSucc = Phi2 V c t.val (Nat.le_of_lt t.isLt) from rfl,
    show (dat2 V c).leavesExact 0 t = owns (c : Thread nD τ) (st2_0 t) fullShare (iblk2 V c 0 t) from by
      unfold Dat.leavesExact; rw [hl0, dat2_after0],
    show (dat2 V c).leavesExact 1 t = owns (c : Thread nD τ) (st2_1 t) fullShare (iblk2 V c 1 t) from by
      unfold Dat.leavesExact; rw [hl1, dat2_after1]]
  by_cases hk : t.val % 2 = 0
  · have hA : condA_bot (grid2.coords t) := (hcondA_bot t).mpr hk
    have hB : ¬condB_bot (grid2.coords t) := fun h => by have := (hcondB_bot t).mp h; omega
    rw [Dat.leavesExact_idle (dat2 V c) 2 t (hev hk).1 (hev hk).2,
      show acc2 V c t.val t.isLt = _ from accOf_even _ _ t hk]
    iintro ⟨HΦ, Ho, ⟨%d0, H0⟩, ⟨%d1, H1⟩, ⟨%d2, H2⟩⟩
    ihave HΦ' := (PhiOf_some _ _ _ _ c (PhiA_eq_r2 c) t.val (Nat.le_of_lt t.isLt)) $$ HΦ
    icases HΦ' with ⟨HS, HR⟩
    iapply (runA_bot cc2__prop_bottom_kernel rfl c (grid2.coords t) _ _ _ _ _ _ _ _ hA hB (wblk2 V c t) (xblk2 V c t) _ Set.univ _)
    iframe H0 H1 H2 HS
    iintro ⟨H0, H1, H2, HS⟩
    iframe HS HR Ho H0 H1
    iexists _; iexact H2
  · have hk1 : t.val % 2 = 1 := by omega
    have hz : t.val ≠ 0 := fun h => by rw [h] at hk1; omega
    have hA : ¬condA_bot (grid2.coords t) := fun h => hk ((hcondA_bot t).mp h)
    have hB : condB_bot (grid2.coords t) := (hcondB_bot t).mpr hk1
    rw [show (dat2 V c).leavesExact 2 t = owns (c : Thread nD τ) (st2_2 t) fullShare (acc2 V c t.val t.isLt) from by
          unfold Dat.leavesExact; rw [hod hk1, dat2_after2],
      show Phi2 V c t.val _ = _ from PhiOf_pos _ _ _ _ c _ _ hz,
      show acc2 V c t.val t.isLt = k2_pay2 (xblk2 V c t) (acc2 V c (t.val - 1) _) (wblk2 V c t) from accOf_odd _ _ t hk1]
    iintro ⟨⟨HS, HR⟩, Ho, ⟨%d0, H0⟩, ⟨%d1, H1⟩, ⟨%d2, H2⟩⟩
    iapply (runB_bot cc2__prop_bottom_kernel rfl c (grid2.coords t) _ _ _ _ _ _ _ _ hA hB (wblk2 V c t) (xblk2 V c t) _ Set.univ _)
    iframe H0 H1 HS
    isplitl [H2]; · iexists _; iexact H2
    iintro ⟨H0, H1, H2, HS⟩
    iframe

theorem body_obligation2 (c : Dev nD) :
    BodyObligation (dat2 (F := F) V c) (defs₀ (F := F)) Variants.none () Set.univ := fun t => by
  rw [bigSep_W2, bigSep_W2]
  exact sound_body_r2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) :=
  PhiOf_out spec2 cc2_scratch0 scM2 (acc2 V c) c (PhiA_eq_r2 c)

end Cert.Kernel.Hand

end
-- ==== Proof.KB.Top.lean ====
import proofs.«161291_j15487652069895_1_alg».proof.Proof.KB.Common

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condReset_top (i : grid3.Coords) : Prop :=
  (Scalar.cmpi .ne (Scalar.extui (Scalar.cmpi .eq (BitVec.ofNat 32 (i 1).val) 0#32)) 0#32) = 1#1

theorem hcondReset_top : ∀ t : Fin cfg3.N, condReset_top (grid3.coords t) ↔ t.val % 2 = 0 :=
  (by decide +kernel : ∀ t : Fin grid3.N, condReset_top (grid3.coords t) ↔ t.val % 2 = 0)

abbrev condStore_top (i : grid3.Coords) : Prop := k3_cond2 i = 1#1

theorem hcondStore_top : ∀ t : Fin cfg3.N, condStore_top (grid3.coords t) ↔ t.val % 2 = 1 :=
  (by decide +kernel : ∀ t : Fin grid3.N, condStore_top (grid3.coords t) ↔ t.val % 2 = 1)

/-- A first reduction step zeroes the accumulator and adds the product of the point's blocks (the weights' leading axis contracted) to it; for any function equal to this kernel. -/
theorem run_reset_top (kern : type_of% (cc3__prop_top_kernel (F := F))) (hkern : kern = cc3__prop_top_kernel)
    (c : Dev nD) (i : grid3.Coords)
    (aW : Memref sig .tc .vmem S2048x2048 .bf16) (haW : aW.IsWhole)
    (aX : Memref sig .tc .vmem S2048x64 .f32) (haX : aX.IsWhole)
    (aO : Memref sig .tc .vmem S2048x64 .f32) (haO : aO.IsWhole)
    (aS : Memref sig .tc .vmem S2048x64 .f32) (haS : aS.IsWhole)
    (hc1 : condReset_top i) (hc2 : ¬condStore_top i)
    (xw : Vec F S2048x2048 .bf16) (xx : Vec F S2048x64 .f32) (xo : Vec F S2048x64 .f32)
    (E : Set ℕ) (K : PUnit → sProp 𝕄) :
    iprop(owns (c : Thread nD τ) aW fullShare xw ∗ owns (c : Thread nD τ) aX fullShare xx
        ∗ owns (c : Thread nD τ) aO fullShare xo ∗ (∃ d, owns (c : Thread nD τ) aS fullShare d)
        ∗ (iprop(owns (c : Thread nD τ) aW fullShare xw ∗ owns (c : Thread nD τ) aX fullShare xx
            ∗ owns (c : Thread nD τ) aO fullShare xo
            ∗ owns (c : Thread nD τ) aS fullShare (k3_pay2 xx xw (k3_pay1 (F := F)))) -∗ K ⟨⟩))
      ⊢ wp frame (wpE (defs₀ (F := F)) Variants.none c none) E
          (kern i aW haW aX haX aO haO aS haS) K := by
  subst hkern
  simp only [cc3__prop_top_kernel_eq_skeleton]; unfold cc3__prop_top_kernel_skel
  unfold owns
  iintro ⟨⟨%fW, %hfW, HW⟩, ⟨%fX, %hfX, HX⟩, ⟨%fO, %hfO, HO⟩, ⟨%dS, %fS, -, HS⟩, Hk⟩
  obtain rfl := haW.eq_unread hfW; obtain rfl := haX.eq_unread hfX; obtain rfl := haO.eq_unread hfO
  sl_exec (disch := first | exact hc1 | exact hc2)
  sl_step
  iapply Hk
  isplitl [HW]
  · iexists _; isplitr; · ipureintro; exact haW.read_unread _
    iexact HW
  isplitl [HX]
  · iexists _; isplitr; · ipureintro; exact haX.read_unread _
    iexact HX
  isplitl [HO]
  · iexists _; isplitr; · ipureintro; exact haO.read_unread _
    iexact HO
  iexists _; isplitr
  swap; · iexact HS
  ipureintro
  sl_unfold_run_names
  rw [read_store_zero _ _ offZero]
  simp only [View.readAt_eq_ld, haW.read_unread, haX.read_unread, haS.read_unread,
    View.ld_unit_zero (S := S2048x64) offZero, View.ld_unit_zero (S := S2048x2048) offZero,
    View.readCov_unit_zero (S := S2048x64) _ offZero]

/-- A last reduction step adds the point's product to the accumulator and stores the sum to the output block as well. -/
theorem run_store_top (kern : type_of% (cc3__prop_top_kernel (F := F))) (hkern : kern = cc3__prop_top_kernel)
    (c : Dev nD) (i : grid3.Coords)
    (aW : Memref sig .tc .vmem S2048x2048 .bf16) (haW : aW.IsWhole)
    (aX : Memref sig .tc .vmem S2048x64 .f32) (haX : aX.IsWhole)
    (aO : Memref sig .tc .vmem S2048x64 .f32) (haO : aO.IsWhole)
    (aS : Memref sig .tc .vmem S2048x64 .f32) (haS : aS.IsWhole)
    (hc1 : ¬condReset_top i) (hc2 : condStore_top i)
    (xw : Vec F S2048x2048 .bf16) (xx : Vec F S2048x64 .f32) (xa : Vec F S2048x64 .f32)
    (E : Set ℕ) (K : PUnit → sProp 𝕄) :
    iprop(owns (c : Thread nD τ) aW fullShare xw ∗ owns (c : Thread nD τ) aX fullShare xx
        ∗ (∃ d, owns (c : Thread nD τ) aO fullShare d) ∗ owns (c : Thread nD τ) aS fullShare xa
        ∗ (iprop(owns (c : Thread nD τ) aW fullShare xw ∗ owns (c : Thread nD τ) aX fullShare xx
            ∗ owns (c : Thread nD τ) aO fullShare (k3_pay2 xx xw xa)
            ∗ owns (c : Thread nD τ) aS fullShare (k3_pay2 xx xw xa)) -∗ K ⟨⟩))
      ⊢ wp frame (wpE (defs₀ (F := F)) Variants.none c none) E
          (kern i aW haW aX haX aO haO aS haS) K := by
  subst hkern
  simp only [cc3__prop_top_kernel_eq_skeleton]; unfold cc3__prop_top_kernel_skel
  unfold owns
  iintro ⟨⟨%fW, %hfW, HW⟩, ⟨%fX, %hfX, HX⟩, ⟨%dO, %fO, -, HO⟩, ⟨%fS, %hfS, HS⟩, Hk⟩
  obtain rfl := haW.eq_unread hfW; obtain rfl := haX.eq_unread hfX; obtain rfl := haS.eq_unread hfS
  sl_exec (disch := first | exact hc1 | exact hc2)
  sl_step
  iapply Hk
  isplitl [HW]
  · iexists _; isplitr; · ipureintro; exact haW.read_unread _
    iexact HW
  isplitl [HX]
  · iexists _; isplitr; · ipureintro; exact haX.read_unread _
    iexact HX
  isplitl [HO]
  · iexists _; isplitr
    swap; · iexact HO
    ipureintro
    sl_unfold_run_names
    rw [read_store_zero _ _ offZero]
    simp only [View.readAt_eq_ld, haW.read_unread, haX.read_unread, haS.read_unread,
    View.ld_unit_zero (S := S2048x64) offZero, View.ld_unit_zero (S := S2048x2048) offZero,
    View.readCov_unit_zero (S := S2048x64) _ offZero]
  iexists _; isplitr
  swap; · iexact HS
  ipureintro
  sl_unfold_run_names
  rw [read_store_zero _ _ offZero]
  simp only [View.readAt_eq_ld, haW.read_unread, haX.read_unread, haS.read_unread,
    View.ld_unit_zero (S := S2048x64) offZero, View.ld_unit_zero (S := S2048x2048) offZero,
    View.readCov_unit_zero (S := S2048x64) _ offZero]

end Cert.Kernel.Hand

end
-- ==== Proof.KB.Body3.lean ====
import proofs.«161291_j15487652069895_1_alg».proof.Proof.KB.Dat3
import proofs.«161291_j15487652069895_1_alg».proof.Proof.KB.Top

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r3 : ∀ t : Fin cfg3.N, cfg3.idle 0 (grid3.coords t) = false ∧ cfg3.idle 1 (grid3.coords t) = false
    ∧ (t.val % 2 = 0 → cfg3.idle 2 (grid3.coords t) = true ∧ (cfg3.win 2).flush t = false)
    ∧ (t.val % 2 = 1 → cfg3.idle 2 (grid3.coords t) = false) := by decide +kernel

theorem beforeW_r3 (c : Dev nD) (t : Fin cfg3.N) (d) : (dat3 V c).before 0 t d = iblk3 V c 0 t :=
  ((dat3 V c).before_in_eq_fetched 0 rfl (fun _ => rfl) (fun _ _ _ => rfl)
    (fun t => by rw [dat3_after0]; unfold Dat.blockOf iblk3; rw [dat3_A]; try rfl) t d).trans
    (by unfold Dat.fetched Dat.blockOf iblk3; rw [dat3_A]; try rfl)

theorem beforeX_r3 (c : Dev nD) (t : Fin cfg3.N) (d) : (dat3 V c).before 1 t d = iblk3 V c 1 t :=
  ((dat3 V c).before_in_eq_fetched 1 rfl (fun _ => rfl) (fun _ _ _ => rfl)
    (fun t => by rw [dat3_after1]; unfold Dat.blockOf iblk3; rw [dat3_A]; try rfl) t d).trans
    (by unfold Dat.fetched Dat.blockOf iblk3; rw [dat3_A]; try rfl)

theorem PhiA_eq_r3 (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

abbrev mW_r3 (t : Fin cfg3.N) : Memref sig .tc .vmem S2048x2048 .bf16 := win3_0.stage (cfg3.slots t 0)
abbrev hW_r3 (t : Fin cfg3.N) : (mW_r3 t).IsWhole := hstage3_0 ((cfg3.slots t 0).cast nbuf3_0)
abbrev mX_r3 (t : Fin cfg3.N) : Memref sig .tc .vmem S2048x64 .f32 := win3_1.stage (cfg3.slots t 1)
abbrev hX_r3 (t : Fin cfg3.N) : (mX_r3 t).IsWhole := hstage3_1 ((cfg3.slots t 1).cast nbuf3_1)
abbrev mO_r3 (t : Fin cfg3.N) : Memref sig .tc .vmem S2048x64 .f32 := win3_2.stage (cfg3.slots t 2)
abbrev hO_r3 (t : Fin cfg3.N) : (mO_r3 t).IsWhole := hstage3_2 ((cfg3.slots t 2).cast nbuf3_2)

def bodyPre_r3 (c : Dev nD) (t : Fin cfg3.N) : sProp 𝕄 :=
  iprop((dat3 V c).Φ t.castSucc ∗ (dat3 V c).owesAt () t.castSucc
    ∗ (∃ d, owns (c : Thread nD τ) (mW_r3 t) fullShare ((dat3 V c).before 0 t d))
    ∗ (∃ d, owns (c : Thread nD τ) (mX_r3 t) fullShare ((dat3 V c).before 1 t d))
    ∗ (∃ d, owns (c : Thread nD τ) (mO_r3 t) fullShare ((dat3 V c).before 2 t d)))

def bodyPost_r3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

/-- The body at any point: at an even point the accumulator restarts from zero and the output block is left as found; at an odd point the product is added to what the point before left and stored to the output block. -/
theorem sound_body_r3 (c : Dev nD) (t : Fin cfg3.N) :
    bodyPre_r3 V c t ⊢ wp frame (wpE (defs₀ (F := F)) Variants.none c none) Set.univ (bodyAt3 t)
      (fun _ => bodyPost_r3 V c t) := by
  obtain ⟨hl0, hl1, hev, hod⟩ := sched_r3 t
  unfold bodyPre_r3 bodyPost_r3 bodyAt3
  simp only [beforeW_r3, beforeX_r3]
  rw [show (dat3 V c).owesAt () t.succ = (dat3 V c).owesAt () t.castSucc from rfl,
    show (dat3 V c).Φ t.succ
      = iprop(owns (c : Thread nD τ) scM3 fullShare (acc3 V c t.val t.isLt) ∗ restOf (F := F) spec3 cc3_scratch0 c) from rfl,
    show (dat3 V c).Φ t.castSucc = Phi3 V c t.val (Nat.le_of_lt t.isLt) from rfl,
    show (dat3 V c).leavesExact 0 t = owns (c : Thread nD τ) (mW_r3 t) fullShare (iblk3 V c 0 t) from by
      unfold Dat.leavesExact; rw [hl0, dat3_after0],
    show (dat3 V c).leavesExact 1 t = owns (c : Thread nD τ) (mX_r3 t) fullShare (iblk3 V c 1 t) from by
      unfold Dat.leavesExact; rw [hl1, dat3_after1]]
  by_cases h0 : t.val % 2 = 0
  · have hc1 : condReset_top (grid3.coords t) := (hcondReset_top t).mpr h0
    have hc2 : ¬condStore_top (grid3.coords t) := fun h => by have := (hcondStore_top t).mp h; omega
    rw [Dat.leavesExact_idle (dat3 V c) 2 t (hev h0).1 (hev h0).2,
      show acc3 V c t.val t.isLt = _ from accOf_even _ _ t h0]
    iintro ⟨HΦ, Ho, ⟨%dW, HW⟩, ⟨%dX, HX⟩, ⟨%dO, HO⟩⟩
    ihave HΦ' := (PhiOf_some _ _ _ _ c (PhiA_eq_r3 c) t.val (Nat.le_of_lt t.isLt)) $$ HΦ
    icases HΦ' with ⟨HS, HR⟩
    iapply (run_reset_top cc3__prop_top_kernel rfl c (grid3.coords t) _ _ _ _ _ _ _ _ hc1 hc2 (wblk3 V c t) (xblk3 V c t) _ Set.univ _)
    iframe HW HX HO HS
    iintro ⟨HW, HX, HO, HS⟩
    iframe HS HR Ho HW HX
    iexists _; iexact HO
  · have h1 : t.val % 2 = 1 := by omega
    have hz : t.val ≠ 0 := by omega
    have hc1 : ¬condReset_top (grid3.coords t) := fun h => h0 ((hcondReset_top t).mp h)
    have hc2 : condStore_top (grid3.coords t) := (hcondStore_top t).mpr h1
    rw [show (dat3 V c).leavesExact 2 t = owns (c : Thread nD τ) (mO_r3 t) fullShare (acc3 V c t.val t.isLt) from by
          unfold Dat.leavesExact; rw [hod h1, dat3_after2],
      show Phi3 V c t.val _ = _ from PhiOf_pos _ _ _ _ c _ _ hz,
      show acc3 V c t.val t.isLt = k3_pay2 (xblk3 V c t) (wblk3 V c t) (acc3 V c (t.val - 1) _) from accOf_odd _ _ t h1]
    iintro ⟨⟨HS, HR⟩, Ho, ⟨%dW, HW⟩, ⟨%dX, HX⟩, ⟨%dO, HO⟩⟩
    iapply (run_store_top cc3__prop_top_kernel rfl c (grid3.coords t) _ _ _ _ _ _ _ _ hc1 hc2 (wblk3 V c t) (xblk3 V c t) _ Set.univ _)
    iframe HW HX HS
    isplitl [HO]; · iexists _; iexact HO
    iintro ⟨HW, HX, HO, HS⟩
    iframe

theorem body_obligation3 (c : Dev nD) :
    BodyObligation (dat3 (F := F) V c) (defs₀ (F := F)) Variants.none () Set.univ := fun t => by
  rw [bigSep_W3, bigSep_W3]
  exact sound_body_r3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) :=
  PhiOf_out spec3 cc3_scratch0 scM3 (acc3 V c) c (PhiA_eq_r3 c)

end Cert.Kernel.Hand

end
-- ==== Proof.KB.Body4.lean ====
import proofs.«161291_j15487652069895_1_alg».proof.Proof.KB.Dat4
import proofs.«161291_j15487652069895_1_alg».proof.Proof.KB.Bottom

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r4 : ∀ t : Fin cfg4.N, cfg4.idle 0 (grid4.coords t) = false ∧ cfg4.idle 1 (grid4.coords t) = false
    ∧ (t.val % 2 = 0 → cfg4.idle 2 (grid4.coords t) = true ∧ (cfg4.win 2).flush t = false)
    ∧ (t.val % 2 = 1 → cfg4.idle 2 (grid4.coords t) = false) := by decide +kernel

theorem PhiA_eq_r4 (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; rfl

theorem before_r4_0 (c : Dev nD) (t : Fin cfg4.N) (d) : (dat4 V c).before 0 t d = iblk4 V c 0 t := by
  rw [(dat4 V c).before_fetched 0 t (fetch4_0 t) d]
  unfold Dat.fetched Dat.blockOf iblk4
  rw [dat4_A]; try rfl

theorem before_r4_1 (c : Dev nD) (t : Fin cfg4.N) (d) : (dat4 V c).before 1 t d = iblk4 V c 1 t := by
  rw [(dat4 V c).before_fetched 1 t (fetch4_1 t) d]
  unfold Dat.fetched Dat.blockOf iblk4
  rw [dat4_A]; try rfl

def bodyPre_r4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost_r4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The body at any point: at an even point the accumulator restarts from zero and the output block is left as found; at an odd point the product is added to what the point before left and stored to the output block. -/
theorem sound_body_r4 (c : Dev nD) (t : Fin cfg4.N) :
    bodyPre_r4 V c t ⊢ wp frame (wpE (defs₀ (F := F)) Variants.none c none) Set.univ (bodyAt4 t) (fun _ => bodyPost_r4 V c t) := by
  obtain ⟨hl0, hl1, hev, hod⟩ := sched_r4 t
  unfold bodyPre_r4 bodyPost_r4 bodyAt4
  simp only [before_r4_0, before_r4_1]
  rw [show (dat4 V c).owesAt () t.succ = (dat4 V c).owesAt () t.castSucc from rfl,
    show (dat4 V c).Φ t.succ
      = iprop(owns (c : Thread nD τ) scM4 fullShare (acc4 V c t.val t.isLt) ∗ restOf (F := F) spec4 cc4_scratch0 c) from rfl,
    show (dat4 V c).Φ t.castSucc = Phi4 V c t.val (Nat.le_of_lt t.isLt) from rfl,
    show (dat4 V c).leavesExact 0 t = owns (c : Thread nD τ) (st4_0 t) fullShare (iblk4 V c 0 t) from by
      unfold Dat.leavesExact; rw [hl0, dat4_after0],
    show (dat4 V c).leavesExact 1 t = owns (c : Thread nD τ) (st4_1 t) fullShare (iblk4 V c 1 t) from by
      unfold Dat.leavesExact; rw [hl1, dat4_after1]]
  by_cases hk : t.val % 2 = 0
  · have hA : condA_bot (grid4.coords t) := (hcondA_bot t).mpr hk
    have hB : ¬condB_bot (grid4.coords t) := fun h => by have := (hcondB_bot t).mp h; omega
    rw [Dat.leavesExact_idle (dat4 V c) 2 t (hev hk).1 (hev hk).2,
      show acc4 V c t.val t.isLt = _ from accOf_even _ _ t hk]
    iintro ⟨HΦ, Ho, ⟨%d0, H0⟩, ⟨%d1, H1⟩, ⟨%d2, H2⟩⟩
    ihave HΦ' := (PhiOf_some _ _ _ _ c (PhiA_eq_r4 c) t.val (Nat.le_of_lt t.isLt)) $$ HΦ
    icases HΦ' with ⟨HS, HR⟩
    iapply (runA_bot cc4__prop_bottom_kernel rfl c (grid4.coords t) _ _ _ _ _ _ _ _ hA hB (wblk4 V c t) (xblk4 V c t) _ Set.univ _)
    iframe H0 H1 H2 HS
    iintro ⟨H0, H1, H2, HS⟩
    iframe HS HR Ho H0 H1
    iexists _; iexact H2
  · have hk1 : t.val % 2 = 1 := by omega
    have hz : t.val ≠ 0 := fun h => by rw [h] at hk1; omega
    have hA : ¬condA_bot (grid4.coords t) := fun h => hk ((hcondA_bot t).mp h)
    have hB : condB_bot (grid4.coords t) := (hcondB_bot t).mpr hk1
    rw [show (dat4 V c).leavesExact 2 t = owns (c : Thread nD τ) (st4_2 t) fullShare (acc4 V c t.val t.isLt) from by
          unfold Dat.leavesExact; rw [hod hk1, dat4_after2],
      show Phi4 V c t.val _ = _ from PhiOf_pos _ _ _ _ c _ _ hz,
      show acc4 V c t.val t.isLt = k2_pay2 (xblk4 V c t) (acc4 V c (t.val - 1) _) (wblk4 V c t) from accOf_odd _ _ t hk1]
    iintro ⟨⟨HS, HR⟩, Ho, ⟨%d0, H0⟩, ⟨%d1, H1⟩, ⟨%d2, H2⟩⟩
    iapply (runB_bot cc4__prop_bottom_kernel rfl c (grid4.coords t) _ _ _ _ _ _ _ _ hA hB (wblk4 V c t) (xblk4 V c t) _ Set.univ _)
    iframe H0 H1 HS
    isplitl [H2]; · iexists _; iexact H2
    iintro ⟨H0, H1, H2, HS⟩
    iframe

theorem body_obligation4 (c : Dev nD) :
    BodyObligation (dat4 (F := F) V c) (defs₀ (F := F)) Variants.none () Set.univ := fun t => by
  rw [bigSep_W4, bigSep_W4]
  exact sound_body_r4 V c t

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) :=
  PhiOf_out spec4 cc4_scratch0 scM4 (acc4 V c) c (PhiA_eq_r4 c)

end Cert.Kernel.Hand

end
-- ==== Proof.KB.Body5.lean ====
import proofs.«161291_j15487652069895_1_alg».proof.Proof.KB.Dat5
import proofs.«161291_j15487652069895_1_alg».proof.Proof.KB.Top

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r5 : ∀ t : Fin cfg5.N, cfg5.idle 0 (grid5.coords t) = false ∧ cfg5.idle 1 (grid5.coords t) = false
    ∧ (t.val % 2 = 0 → cfg5.idle 2 (grid5.coords t) = true ∧ (cfg5.win 2).flush t = false)
    ∧ (t.val % 2 = 1 → cfg5.idle 2 (grid5.coords t) = false) := by decide +kernel

theorem beforeW_r5 (c : Dev nD) (t : Fin cfg5.N) (d) : (dat5 V c).before 0 t d = iblk5 V c 0 t :=
  ((dat5 V c).before_in_eq_fetched 0 rfl (fun _ => rfl) (fun _ _ _ => rfl)
    (fun t => by rw [dat5_after0]; unfold Dat.blockOf iblk5; rw [dat5_A]; try rfl) t d).trans
    (by unfold Dat.fetched Dat.blockOf iblk5; rw [dat5_A]; try rfl)

theorem beforeX_r5 (c : Dev nD) (t : Fin cfg5.N) (d) : (dat5 V c).before 1 t d = iblk5 V c 1 t :=
  ((dat5 V c).before_in_eq_fetched 1 rfl (fun _ => rfl) (fun _ _ _ => rfl)
    (fun t => by rw [dat5_after1]; unfold Dat.blockOf iblk5; rw [dat5_A]; try rfl) t d).trans
    (by unfold Dat.fetched Dat.blockOf iblk5; rw [dat5_A]; try rfl)

theorem PhiA_eq_r5 (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

abbrev mW_r5 (t : Fin cfg5.N) : Memref sig .tc .vmem S2048x2048 .bf16 := win5_0.stage (cfg5.slots t 0)
abbrev hW_r5 (t : Fin cfg5.N) : (mW_r5 t).IsWhole := hstage5_0 ((cfg5.slots t 0).cast nbuf5_0)
abbrev mX_r5 (t : Fin cfg5.N) : Memref sig .tc .vmem S2048x64 .f32 := win5_1.stage (cfg5.slots t 1)
abbrev hX_r5 (t : Fin cfg5.N) : (mX_r5 t).IsWhole := hstage5_1 ((cfg5.slots t 1).cast nbuf5_1)
abbrev mO_r5 (t : Fin cfg5.N) : Memref sig .tc .vmem S2048x64 .f32 := win5_2.stage (cfg5.slots t 2)
abbrev hO_r5 (t : Fin cfg5.N) : (mO_r5 t).IsWhole := hstage5_2 ((cfg5.slots t 2).cast nbuf5_2)

def bodyPre_r5 (c : Dev nD) (t : Fin cfg5.N) : sProp 𝕄 :=
  iprop((dat5 V c).Φ t.castSucc ∗ (dat5 V c).owesAt () t.castSucc
    ∗ (∃ d, owns (c : Thread nD τ) (mW_r5 t) fullShare ((dat5 V c).before 0 t d))
    ∗ (∃ d, owns (c : Thread nD τ) (mX_r5 t) fullShare ((dat5 V c).before 1 t d))
    ∗ (∃ d, owns (c : Thread nD τ) (mO_r5 t) fullShare ((dat5 V c).before 2 t d)))

def bodyPost_r5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

/-- The body at any point: at an even point the accumulator restarts from zero and the output block is left as found; at an odd point the product is added to what the point before left and stored to the output block. -/
theorem sound_body_r5 (c : Dev nD) (t : Fin cfg5.N) :
    bodyPre_r5 V c t ⊢ wp frame (wpE (defs₀ (F := F)) Variants.none c none) Set.univ (bodyAt5 t)
      (fun _ => bodyPost_r5 V c t) := by
  obtain ⟨hl0, hl1, hev, hod⟩ := sched_r5 t
  unfold bodyPre_r5 bodyPost_r5 bodyAt5
  simp only [beforeW_r5, beforeX_r5]
  rw [show (dat5 V c).owesAt () t.succ = (dat5 V c).owesAt () t.castSucc from rfl,
    show (dat5 V c).Φ t.succ
      = iprop(owns (c : Thread nD τ) scM5 fullShare (acc5 V c t.val t.isLt) ∗ restOf (F := F) spec5 cc5_scratch0 c) from rfl,
    show (dat5 V c).Φ t.castSucc = Phi5 V c t.val (Nat.le_of_lt t.isLt) from rfl,
    show (dat5 V c).leavesExact 0 t = owns (c : Thread nD τ) (mW_r5 t) fullShare (iblk5 V c 0 t) from by
      unfold Dat.leavesExact; rw [hl0, dat5_after0],
    show (dat5 V c).leavesExact 1 t = owns (c : Thread nD τ) (mX_r5 t) fullShare (iblk5 V c 1 t) from by
      unfold Dat.leavesExact; rw [hl1, dat5_after1]]
  by_cases h0 : t.val % 2 = 0
  · have hc1 : condReset_top (grid5.coords t) := (hcondReset_top t).mpr h0
    have hc2 : ¬condStore_top (grid5.coords t) := fun h => by have := (hcondStore_top t).mp h; omega
    rw [Dat.leavesExact_idle (dat5 V c) 2 t (hev h0).1 (hev h0).2,
      show acc5 V c t.val t.isLt = _ from accOf_even _ _ t h0]
    iintro ⟨HΦ, Ho, ⟨%dW, HW⟩, ⟨%dX, HX⟩, ⟨%dO, HO⟩⟩
    ihave HΦ' := (PhiOf_some _ _ _ _ c (PhiA_eq_r5 c) t.val (Nat.le_of_lt t.isLt)) $$ HΦ
    icases HΦ' with ⟨HS, HR⟩
    iapply (run_reset_top cc5__prop_top_kernel rfl c (grid5.coords t) _ _ _ _ _ _ _ _ hc1 hc2 (wblk5 V c t) (xblk5 V c t) _ Set.univ _)
    iframe HW HX HO HS
    iintro ⟨HW, HX, HO, HS⟩
    iframe HS HR Ho HW HX
    iexists _; iexact HO
  · have h1 : t.val % 2 = 1 := by omega
    have hz : t.val ≠ 0 := by omega
    have hc1 : ¬condReset_top (grid5.coords t) := fun h => h0 ((hcondReset_top t).mp h)
    have hc2 : condStore_top (grid5.coords t) := (hcondStore_top t).mpr h1
    rw [show (dat5 V c).leavesExact 2 t = owns (c : Thread nD τ) (mO_r5 t) fullShare (acc5 V c t.val t.isLt) from by
          unfold Dat.leavesExact; rw [hod h1, dat5_after2],
      show Phi5 V c t.val _ = _ from PhiOf_pos _ _ _ _ c _ _ hz,
      show acc5 V c t.val t.isLt = k3_pay2 (xblk5 V c t) (wblk5 V c t) (acc5 V c (t.val - 1) _) from accOf_odd _ _ t h1]
    iintro ⟨⟨HS, HR⟩, Ho, ⟨%dW, HW⟩, ⟨%dX, HX⟩, ⟨%dO, HO⟩⟩
    iapply (run_store_top cc5__prop_top_kernel rfl c (grid5.coords t) _ _ _ _ _ _ _ _ hc1 hc2 (wblk5 V c t) (xblk5 V c t) _ Set.univ _)
    iframe HW HX HS
    isplitl [HO]; · iexists _; iexact HO
    iintro ⟨HW, HX, HO, HS⟩
    iframe

theorem body_obligation5 (c : Dev nD) :
    BodyObligation (dat5 (F := F) V c) (defs₀ (F := F)) Variants.none () Set.univ := fun t => by
  rw [bigSep_W5, bigSep_W5]
  exact sound_body_r5 V c t

theorem hin5 (c : Dev nD) : (Pipeline.ΦA spec5 c : sProp 𝕄) ⊢ (dat5 V c).Φ 0 := .rfl

theorem hout5 (c : Dev nD) : (dat5 V c).Φ (Fin.last cfg5.N) ⊢ (Pipeline.ΦA spec5 c : sProp 𝕄) :=
  PhiOf_out spec5 cc5_scratch0 scM5 (acc5 V c) c (PhiA_eq_r5 c)

end Cert.Kernel.Hand

end
-- ==== Proof.KB.Body6.lean ====
import proofs.«161291_j15487652069895_1_alg».proof.Proof.KB.Dat6
import proofs.«161291_j15487652069895_1_alg».proof.Proof.KB.Bottom

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r6 : ∀ t : Fin cfg6.N, cfg6.idle 0 (grid6.coords t) = false ∧ cfg6.idle 1 (grid6.coords t) = false
    ∧ (t.val % 2 = 0 → cfg6.idle 2 (grid6.coords t) = true ∧ (cfg6.win 2).flush t = false)
    ∧ (t.val % 2 = 1 → cfg6.idle 2 (grid6.coords t) = false) := by decide +kernel

theorem PhiA_eq_r6 (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; rfl

theorem before_r6_0 (c : Dev nD) (t : Fin cfg6.N) (d) : (dat6 V c).before 0 t d = iblk6 V c 0 t := by
  rw [(dat6 V c).before_fetched 0 t (fetch6_0 t) d]
  unfold Dat.fetched Dat.blockOf iblk6
  rw [dat6_A]; try rfl

theorem before_r6_1 (c : Dev nD) (t : Fin cfg6.N) (d) : (dat6 V c).before 1 t d = iblk6 V c 1 t := by
  rw [(dat6 V c).before_fetched 1 t (fetch6_1 t) d]
  unfold Dat.fetched Dat.blockOf iblk6
  rw [dat6_A]; try rfl

def bodyPre_r6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost_r6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

/-- The body at any point: at an even point the accumulator restarts from zero and the output block is left as found; at an odd point the product is added to what the point before left and stored to the output block. -/
theorem sound_body_r6 (c : Dev nD) (t : Fin cfg6.N) :
    bodyPre_r6 V c t ⊢ wp frame (wpE (defs₀ (F := F)) Variants.none c none) Set.univ (bodyAt6 t) (fun _ => bodyPost_r6 V c t) := by
  obtain ⟨hl0, hl1, hev, hod⟩ := sched_r6 t
  unfold bodyPre_r6 bodyPost_r6 bodyAt6
  simp only [before_r6_0, before_r6_1]
  rw [show (dat6 V c).owesAt () t.succ = (dat6 V c).owesAt () t.castSucc from rfl,
    show (dat6 V c).Φ t.succ
      = iprop(owns (c : Thread nD τ) scM6 fullShare (acc6 V c t.val t.isLt) ∗ restOf (F := F) spec6 cc6_scratch0 c) from rfl,
    show (dat6 V c).Φ t.castSucc = Phi6 V c t.val (Nat.le_of_lt t.isLt) from rfl,
    show (dat6 V c).leavesExact 0 t = owns (c : Thread nD τ) (st6_0 t) fullShare (iblk6 V c 0 t) from by
      unfold Dat.leavesExact; rw [hl0, dat6_after0],
    show (dat6 V c).leavesExact 1 t = owns (c : Thread nD τ) (st6_1 t) fullShare (iblk6 V c 1 t) from by
      unfold Dat.leavesExact; rw [hl1, dat6_after1]]
  by_cases hk : t.val % 2 = 0
  · have hA : condA_bot (grid6.coords t) := (hcondA_bot t).mpr hk
    have hB : ¬condB_bot (grid6.coords t) := fun h => by have := (hcondB_bot t).mp h; omega
    rw [Dat.leavesExact_idle (dat6 V c) 2 t (hev hk).1 (hev hk).2,
      show acc6 V c t.val t.isLt = _ from accOf_even _ _ t hk]
    iintro ⟨HΦ, Ho, ⟨%d0, H0⟩, ⟨%d1, H1⟩, ⟨%d2, H2⟩⟩
    ihave HΦ' := (PhiOf_some _ _ _ _ c (PhiA_eq_r6 c) t.val (Nat.le_of_lt t.isLt)) $$ HΦ
    icases HΦ' with ⟨HS, HR⟩
    iapply (runA_bot cc6__prop_bottom_kernel rfl c (grid6.coords t) _ _ _ _ _ _ _ _ hA hB (wblk6 V c t) (xblk6 V c t) _ Set.univ _)
    iframe H0 H1 H2 HS
    iintro ⟨H0, H1, H2, HS⟩
    iframe HS HR Ho H0 H1
    iexists _; iexact H2
  · have hk1 : t.val % 2 = 1 := by omega
    have hz : t.val ≠ 0 := fun h => by rw [h] at hk1; omega
    have hA : ¬condA_bot (grid6.coords t) := fun h => hk ((hcondA_bot t).mp h)
    have hB : condB_bot (grid6.coords t) := (hcondB_bot t).mpr hk1
    rw [show (dat6 V c).leavesExact 2 t = owns (c : Thread nD τ) (st6_2 t) fullShare (acc6 V c t.val t.isLt) from by
          unfold Dat.leavesExact; rw [hod hk1, dat6_after2],
      show Phi6 V c t.val _ = _ from PhiOf_pos _ _ _ _ c _ _ hz,
      show acc6 V c t.val t.isLt = k2_pay2 (xblk6 V c t) (acc6 V c (t.val - 1) _) (wblk6 V c t) from accOf_odd _ _ t hk1]
    iintro ⟨⟨HS, HR⟩, Ho, ⟨%d0, H0⟩, ⟨%d1, H1⟩, ⟨%d2, H2⟩⟩
    iapply (runB_bot cc6__prop_bottom_kernel rfl c (grid6.coords t) _ _ _ _ _ _ _ _ hA hB (wblk6 V c t) (xblk6 V c t) _ Set.univ _)
    iframe H0 H1 HS
    isplitl [H2]; · iexists _; iexact H2
    iintro ⟨H0, H1, H2, HS⟩
    iframe

theorem body_obligation6 (c : Dev nD) :
    BodyObligation (dat6 (F := F) V c) (defs₀ (F := F)) Variants.none () Set.univ := fun t => by
  rw [bigSep_W6, bigSep_W6]
  exact sound_body_r6 V c t

theorem hin6 (c : Dev nD) : (Pipeline.ΦA spec6 c : sProp 𝕄) ⊢ (dat6 V c).Φ 0 := .rfl

theorem hout6 (c : Dev nD) : (dat6 V c).Φ (Fin.last cfg6.N) ⊢ (Pipeline.ΦA spec6 c : sProp 𝕄) :=
  PhiOf_out spec6 cc6_scratch0 scM6 (acc6 V c) c (PhiA_eq_r6 c)

end Cert.Kernel.Hand

end
-- ==== Proof.KB.Body7.lean ====
import proofs.«161291_j15487652069895_1_alg».proof.Proof.KB.Dat7
import proofs.«161291_j15487652069895_1_alg».proof.Proof.KB.Top

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r7 : ∀ t : Fin cfg7.N, cfg7.idle 0 (grid7.coords t) = false ∧ cfg7.idle 1 (grid7.coords t) = false
    ∧ (t.val % 2 = 0 → cfg7.idle 2 (grid7.coords t) = true ∧ (cfg7.win 2).flush t = false)
    ∧ (t.val % 2 = 1 → cfg7.idle 2 (grid7.coords t) = false) := by decide +kernel

theorem beforeW_r7 (c : Dev nD) (t : Fin cfg7.N) (d) : (dat7 V c).before 0 t d = iblk7 V c 0 t :=
  ((dat7 V c).before_in_eq_fetched 0 rfl (fun _ => rfl) (fun _ _ _ => rfl)
    (fun t => by rw [dat7_after0]; unfold Dat.blockOf iblk7; rw [dat7_A]; try rfl) t d).trans
    (by unfold Dat.fetched Dat.blockOf iblk7; rw [dat7_A]; try rfl)

theorem beforeX_r7 (c : Dev nD) (t : Fin cfg7.N) (d) : (dat7 V c).before 1 t d = iblk7 V c 1 t :=
  ((dat7 V c).before_in_eq_fetched 1 rfl (fun _ => rfl) (fun _ _ _ => rfl)
    (fun t => by rw [dat7_after1]; unfold Dat.blockOf iblk7; rw [dat7_A]; try rfl) t d).trans
    (by unfold Dat.fetched Dat.blockOf iblk7; rw [dat7_A]; try rfl)

theorem PhiA_eq_r7 (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

abbrev mW_r7 (t : Fin cfg7.N) : Memref sig .tc .vmem S2048x2048 .bf16 := win7_0.stage (cfg7.slots t 0)
abbrev hW_r7 (t : Fin cfg7.N) : (mW_r7 t).IsWhole := hstage7_0 ((cfg7.slots t 0).cast nbuf7_0)
abbrev mX_r7 (t : Fin cfg7.N) : Memref sig .tc .vmem S2048x64 .f32 := win7_1.stage (cfg7.slots t 1)
abbrev hX_r7 (t : Fin cfg7.N) : (mX_r7 t).IsWhole := hstage7_1 ((cfg7.slots t 1).cast nbuf7_1)
abbrev mO_r7 (t : Fin cfg7.N) : Memref sig .tc .vmem S2048x64 .f32 := win7_2.stage (cfg7.slots t 2)
abbrev hO_r7 (t : Fin cfg7.N) : (mO_r7 t).IsWhole := hstage7_2 ((cfg7.slots t 2).cast nbuf7_2)

def bodyPre_r7 (c : Dev nD) (t : Fin cfg7.N) : sProp 𝕄 :=
  iprop((dat7 V c).Φ t.castSucc ∗ (dat7 V c).owesAt () t.castSucc
    ∗ (∃ d, owns (c : Thread nD τ) (mW_r7 t) fullShare ((dat7 V c).before 0 t d))
    ∗ (∃ d, owns (c : Thread nD τ) (mX_r7 t) fullShare ((dat7 V c).before 1 t d))
    ∗ (∃ d, owns (c : Thread nD τ) (mO_r7 t) fullShare ((dat7 V c).before 2 t d)))

def bodyPost_r7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

/-- The body at any point: at an even point the accumulator restarts from zero and the output block is left as found; at an odd point the product is added to what the point before left and stored to the output block. -/
theorem sound_body_r7 (c : Dev nD) (t : Fin cfg7.N) :
    bodyPre_r7 V c t ⊢ wp frame (wpE (defs₀ (F := F)) Variants.none c none) Set.univ (bodyAt7 t)
      (fun _ => bodyPost_r7 V c t) := by
  obtain ⟨hl0, hl1, hev, hod⟩ := sched_r7 t
  unfold bodyPre_r7 bodyPost_r7 bodyAt7
  simp only [beforeW_r7, beforeX_r7]
  rw [show (dat7 V c).owesAt () t.succ = (dat7 V c).owesAt () t.castSucc from rfl,
    show (dat7 V c).Φ t.succ
      = iprop(owns (c : Thread nD τ) scM7 fullShare (acc7 V c t.val t.isLt) ∗ restOf (F := F) spec7 cc7_scratch0 c) from rfl,
    show (dat7 V c).Φ t.castSucc = Phi7 V c t.val (Nat.le_of_lt t.isLt) from rfl,
    show (dat7 V c).leavesExact 0 t = owns (c : Thread nD τ) (mW_r7 t) fullShare (iblk7 V c 0 t) from by
      unfold Dat.leavesExact; rw [hl0, dat7_after0],
    show (dat7 V c).leavesExact 1 t = owns (c : Thread nD τ) (mX_r7 t) fullShare (iblk7 V c 1 t) from by
      unfold Dat.leavesExact; rw [hl1, dat7_after1]]
  by_cases h0 : t.val % 2 = 0
  · have hc1 : condReset_top (grid7.coords t) := (hcondReset_top t).mpr h0
    have hc2 : ¬condStore_top (grid7.coords t) := fun h => by have := (hcondStore_top t).mp h; omega
    rw [Dat.leavesExact_idle (dat7 V c) 2 t (hev h0).1 (hev h0).2,
      show acc7 V c t.val t.isLt = _ from accOf_even _ _ t h0]
    iintro ⟨HΦ, Ho, ⟨%dW, HW⟩, ⟨%dX, HX⟩, ⟨%dO, HO⟩⟩
    ihave HΦ' := (PhiOf_some _ _ _ _ c (PhiA_eq_r7 c) t.val (Nat.le_of_lt t.isLt)) $$ HΦ
    icases HΦ' with ⟨HS, HR⟩
    iapply (run_reset_top cc7__prop_top_kernel rfl c (grid7.coords t) _ _ _ _ _ _ _ _ hc1 hc2 (wblk7 V c t) (xblk7 V c t) _ Set.univ _)
    iframe HW HX HO HS
    iintro ⟨HW, HX, HO, HS⟩
    iframe HS HR Ho HW HX
    iexists _; iexact HO
  · have h1 : t.val % 2 = 1 := by omega
    have hz : t.val ≠ 0 := by omega
    have hc1 : ¬condReset_top (grid7.coords t) := fun h => h0 ((hcondReset_top t).mp h)
    have hc2 : condStore_top (grid7.coords t) := (hcondStore_top t).mpr h1
    rw [show (dat7 V c).leavesExact 2 t = owns (c : Thread nD τ) (mO_r7 t) fullShare (acc7 V c t.val t.isLt) from by
          unfold Dat.leavesExact; rw [hod h1, dat7_after2],
      show Phi7 V c t.val _ = _ from PhiOf_pos _ _ _ _ c _ _ hz,
      show acc7 V c t.val t.isLt = k3_pay2 (xblk7 V c t) (wblk7 V c t) (acc7 V c (t.val - 1) _) from accOf_odd _ _ t h1]
    iintro ⟨⟨HS, HR⟩, Ho, ⟨%dW, HW⟩, ⟨%dX, HX⟩, ⟨%dO, HO⟩⟩
    iapply (run_store_top cc7__prop_top_kernel rfl c (grid7.coords t) _ _ _ _ _ _ _ _ hc1 hc2 (wblk7 V c t) (xblk7 V c t) _ Set.univ _)
    iframe HW HX HS
    isplitl [HO]; · iexists _; iexact HO
    iintro ⟨HW, HX, HO, HS⟩
    iframe

theorem body_obligation7 (c : Dev nD) :
    BodyObligation (dat7 (F := F) V c) (defs₀ (F := F)) Variants.none () Set.univ := fun t => by
  rw [bigSep_W7, bigSep_W7]
  exact sound_body_r7 V c t

theorem hin7 (c : Dev nD) : (Pipeline.ΦA spec7 c : sProp 𝕄) ⊢ (dat7 V c).Φ 0 := .rfl

theorem hout7 (c : Dev nD) : (dat7 V c).Φ (Fin.last cfg7.N) ⊢ (Pipeline.ΦA spec7 c : sProp 𝕄) :=
  PhiOf_out spec7 cc7_scratch0 scM7 (acc7 V c) c (PhiA_eq_r7 c)

end Cert.Kernel.Hand

end
-- ==== Proof.KB.Run.lean ====
import proofs.«161291_j15487652069895_1_alg».proof.Proof.KB.Vals
import proofs.«161291_j15487652069895_1_alg».proof.Proof.KB.Body0
import proofs.«161291_j15487652069895_1_alg».proof.Proof.KB.Body1
import proofs.«161291_j15487652069895_1_alg».proof.Proof.KB.Body2
import proofs.«161291_j15487652069895_1_alg».proof.Proof.KB.Body3
import proofs.«161291_j15487652069895_1_alg».proof.Proof.KB.Body4
import proofs.«161291_j15487652069895_1_alg».proof.Proof.KB.Body5
import proofs.«161291_j15487652069895_1_alg».proof.Proof.KB.Body6
import proofs.«161291_j15487652069895_1_alg».proof.Proof.KB.Body7
import proofs.«161291_j15487652069895_1_alg».proof.Proof.Gen.Kernel.Regions
import Idealize.ShloMosaic.Lib.Pipeline.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def pdats : (p : Fin 8) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
  | ⟨3, _⟩ => fun c => dat3 (V4 m) c
  | ⟨4, _⟩ => fun c => dat4 (V6 m) c
  | ⟨5, _⟩ => fun c => dat5 (V7 m) c
  | ⟨6, _⟩ => fun c => dat6 (V9 m) c
  | ⟨7, _⟩ => fun c => dat7 (V10 m) c

abbrev 𝒱₀ : Variants := Variants.none

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 :=
  iprop(StableHlo.held (c : Thread nD τ) (Pipeline.ucRefs τ sig) (W12 m c) ∗ ∃ r, prngReg c r)

set_option backward.isDefEq.respectTransparency.types false in

/-- A region as a segment of the program's run, from its body obligation and the contents before and after it. -/
def regOf (p : Fin 8) (lf : Pipeline.LaunchFacts (nD := nD) (τ := τ) cfgs p)
    (Wi Wo : Dev nD → Valuation τ sig (Elt F))
    (hq : ∀ c w, (pdats m p c).q w = fullShare) (howed : ∀ c t, (pdats m p c).owed t = 0)
    (hrec : ∀ c, (pdats m p c).recorded 0 = Set.univ)
    (hA : ∀ c w, (pdats m p c).A w = Wi c (Proc.devRef .tc (Pipeline.arrRef (Pipeline.pin (pcfgs (F := F)) adm p).spec w)))
    (hbody : ∀ c, BodyObligation (pdats m p c) (defs₀ (F := F)) 𝒱₀ () Set.univ)
    (hin : ∀ c, (Pipeline.ΦA (Pipeline.pin (pcfgs (F := F)) adm p).spec c : sProp 𝕄) ⊢ (pdats m p c).Φ 0)
    (hout : ∀ c, (pdats m p c).Φ (Fin.last (Pipeline.pin (pcfgs (F := F)) adm p).N)
      ⊢ (Pipeline.ΦA (Pipeline.pin (pcfgs (F := F)) adm p).spec c : sProp 𝕄))
    (hF : ∀ c w, (pdats m p c).arrAt w (Pipeline.pin (pcfgs (F := F)) adm p).N
      = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Wi c (Proc.devRef .tc b))
  hentry c := by

    rw [Pipeline.ownSems0_none]
    unfold Pipeline.Dat.owesAt Pipeline.owesWithin
    rw [howed c 0]
    have hsplit := Pipeline.arrays_of_unscopedBufs (p := p) (pcfgs (F := F)) adm (pdats m) lf.win lf.arr_whole c
      ((pdats m p c).share_full (hq c)) (fun b => Wi c (Proc.devRef .tc b)) (hA c)
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdebt]
    · icases Hdebt with ⟨%W, Hdebt⟩
      iexists W
      isplitr; · ipureintro; exact fun _ _ => Or.inl (by rw [hrec c]; exact Set.mem_univ _)
      iexact Hdebt
    isplitl [Hreg]; · iexact Hreg
    iexact Hrest
  hin c := by

    refine BIBase.Entails.trans ?_ (hin c)
    unfold Pipeline.ΦA
    iintro ⟨Hreg, -, Hsc⟩
    isplitl [Hsc]; · iexact Hsc
    iexact Hreg
  hout c := by

    rw [Pipeline.ownSems0_none]
    refine BIBase.Entails.trans (hout c) ?_
    unfold Pipeline.ΦA
    iintro ⟨Hsc, Hreg⟩
    isplitl [Hreg]; · iexact Hreg
    isplitr; · iempintro
    iexact Hsc
  hexit c := by

    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c (Proc.devRef .tc b)) (fun b => Wo c (Proc.devRef .tc b))
      ((pdats m p c).arrAt · (Pipeline.pin (pcfgs (F := F)) adm p).N) (hF c) (hrest c)
    rw [Pipeline.unscopedBufs_held] at hjoin
    unfold Pipeline.Dat.owesAt Pipeline.owesWithin
    rw [howed c (Fin.last _)]
    iintro ⟨Harr, Hdebt, Hreg, Hrest⟩
    imodintro
    isplitl [Harr Hrest]
    · iapply hjoin; isplitl [Harr] <;> iassumption
    isplitl [Hreg]; · iexact Hreg
    icases Hdebt with ⟨%W, -, Hdebt⟩
    iexists W; iexact Hdebt

set_option backward.isDefEq.respectTransparency.types false in

def reg0 : Pipeline.RegionSeg (pcfgs (F := F)) adm (pdats m) () defs₀ 𝒱₀ L lv 0 :=
  regOf m 0 launch0 (W0 m) (W1 m) (fun _ _ => rfl) (fun _ _ => rfl) (fun _ => rfl) (fun _ _ => rfl)
    (body_obligation0 (V0 m)) (hin0 (V0 m)) (hout0 (V0 m)) (fun c w => (W1_arr m c w).symm) (fun c b hb => W1_of_ne m c b (ne_of_notMem hb))

set_option backward.isDefEq.respectTransparency.types false in

def reg1 : Pipeline.RegionSeg (pcfgs (F := F)) adm (pdats m) () defs₀ 𝒱₀ L lv 1 :=
  regOf m 1 launch1 (W1 m) (W2 m) (fun _ _ => rfl) (fun _ _ => rfl) (fun _ => rfl) (fun _ _ => rfl)
    (body_obligation1 (V1 m)) (hin1 (V1 m)) (hout1 (V1 m)) (fun c w => (W2_arr m c w).symm) (fun c b hb => W2_of_ne m c b (ne_of_notMem hb))

set_option backward.isDefEq.respectTransparency.types false in

def reg2 : Pipeline.RegionSeg (pcfgs (F := F)) adm (pdats m) () defs₀ 𝒱₀ L lv 2 :=
  regOf m 2 launch2 (W3 m) (W4 m) (fun _ _ => rfl) (fun _ _ => rfl) (fun _ => rfl) (fun _ _ => rfl)
    (body_obligation2 (V3 m)) (hin2 (V3 m)) (hout2 (V3 m)) (fun c w => (W4_arr m c w).symm) (fun c b hb => W4_of_ne m c b (ne_of_notMem hb))

set_option backward.isDefEq.respectTransparency.types false in

def reg3 : Pipeline.RegionSeg (pcfgs (F := F)) adm (pdats m) () defs₀ 𝒱₀ L lv 3 :=
  regOf m 3 launch3 (W4 m) (W5 m) (fun _ _ => rfl) (fun _ _ => rfl) (fun _ => rfl) (fun _ _ => rfl)
    (body_obligation3 (V4 m)) (hin3 (V4 m)) (hout3 (V4 m)) (fun c w => (W5_arr m c w).symm) (fun c b hb => W5_of_ne m c b (ne_of_notMem hb))

set_option backward.isDefEq.respectTransparency.types false in

def reg4 : Pipeline.RegionSeg (pcfgs (F := F)) adm (pdats m) () defs₀ 𝒱₀ L lv 4 :=
  regOf m 4 launch4 (W6 m) (W7 m) (fun _ _ => rfl) (fun _ _ => rfl) (fun _ => rfl) (fun _ _ => rfl)
    (body_obligation4 (V6 m)) (hin4 (V6 m)) (hout4 (V6 m)) (fun c w => (W7_arr m c w).symm) (fun c b hb => W7_of_ne m c b (ne_of_notMem hb))

set_option backward.isDefEq.respectTransparency.types false in

def reg5 : Pipeline.RegionSeg (pcfgs (F := F)) adm (pdats m) () defs₀ 𝒱₀ L lv 5 :=
  regOf m 5 launch5 (W7 m) (W8 m) (fun _ _ => rfl) (fun _ _ => rfl) (fun _ => rfl) (fun _ _ => rfl)
    (body_obligation5 (V7 m)) (hin5 (V7 m)) (hout5 (V7 m)) (fun c w => (W8_arr m c w).symm) (fun c b hb => W8_of_ne m c b (ne_of_notMem hb))

set_option backward.isDefEq.respectTransparency.types false in

def reg6 : Pipeline.RegionSeg (pcfgs (F := F)) adm (pdats m) () defs₀ 𝒱₀ L lv 6 :=
  regOf m 6 launch6 (W9 m) (W10 m) (fun _ _ => rfl) (fun _ _ => rfl) (fun _ => rfl) (fun _ _ => rfl)
    (body_obligation6 (V9 m)) (hin6 (V9 m)) (hout6 (V9 m)) (fun c w => (W10_arr m c w).symm) (fun c b hb => W10_of_ne m c b (ne_of_notMem hb))

set_option backward.isDefEq.respectTransparency.types false in

def reg7 : Pipeline.RegionSeg (pcfgs (F := F)) adm (pdats m) () defs₀ 𝒱₀ L lv 7 :=
  regOf m 7 launch7 (W10 m) (W11 m) (fun _ _ => rfl) (fun _ _ => rfl) (fun _ => rfl) (fun _ _ => rfl)
    (body_obligation7 (V10 m)) (hin7 (V10 m)) (hout7 (V10 m)) (fun c w => (W11_arr m c w).symm) (fun c b hb => W11_of_ne m c b (ne_of_notMem hb))

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .region (reg3 m),
    .host (hseg hostOps4 hostOps4_sub hostOps4_fresh (W5 m)),
    .region (reg4 m),
    .region (reg5 m),
    .host (hseg hostOps6 hostOps6_sub hostOps6_fresh (W8 m)),
    .region (reg6 m),
    .region (reg7 m),
    .host (hseg hostOps8 hostOps8_sub hostOps8_fresh (W11 m)) ]

theorem main_run (c : Dev nD) : main (F := F) c = Pipeline.Seg.run (segs m) :=
  (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by

      rw [ownU_emb₁, BI.bigSep_emp_const]
      iintro Hu
      imodintro
      isplitl [Hu]; · iexact Hu
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl,

      fun c => by
        show iprop(StableHlo.held (c : Thread nD τ) (Pipeline.ucRefs τ sig) (W12 m c) ∗ R c) ⊢ _
        iintro ⟨Hbufs, Hreg, Hdebt⟩
        isplitl [Hbufs Hreg]
        · isplitl [Hbufs] <;> iassumption
        iexact Hdebt⟩)
    (hinit := by

      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W12 m c b)
    (hfin := fun c s' => by

      iintro ⟨⟨Hbufs, -⟩, Hst⟩
      unfold StableHlo.held
      imodintro
      iapply (pointsTo_read_all (Pipeline.ucRefs τ sig) (fun b => (((c : Thread nD τ)).1, b)) (W12 m c) s')
      isplitl [Hbufs] <;> iassumption)
    (hQ := fun s h => h)

theorem W12_main_arg0 (c : Dev nD) : W12 m c (Proc.devRef .tc main_arg0) = m ((c : Thread nD τ).loc main_arg0) :=
  (StableHlo.after_of_writes_sub hostOps8 _ hostOps8_writes (by decide)).trans <|
  (W11_of_ne m c main_arg0 (by decide)).trans <|
  (W10_of_ne m c main_arg0 (by decide)).trans <|
  (StableHlo.after_of_writes_sub hostOps6 _ hostOps6_writes (by decide)).trans <|
  (W8_of_ne m c main_arg0 (by decide)).trans <|
  (W7_of_ne m c main_arg0 (by decide)).trans <|
  (StableHlo.after_of_writes_sub hostOps4 _ hostOps4_writes (by decide)).trans <|
  (W5_of_ne m c main_arg0 (by decide)).trans <|
  (W4_of_ne m c main_arg0 (by decide)).trans <|
  (StableHlo.after_of_writes_sub hostOps2 _ hostOps2_writes (by decide)).trans <|
  (W2_of_ne m c main_arg0 (by decide)).trans <|
  (W1_of_ne m c main_arg0 (by decide)).trans rfl

theorem W12_main_arg1 (c : Dev nD) : W12 m c (Proc.devRef .tc main_arg1) = m ((c : Thread nD τ).loc main_arg1) :=
  (StableHlo.after_of_writes_sub hostOps8 _ hostOps8_writes (by decide)).trans <|
  (W11_of_ne m c main_arg1 (by decide)).trans <|
  (W10_of_ne m c main_arg1 (by decide)).trans <|
  (StableHlo.after_of_writes_sub hostOps6 _ hostOps6_writes (by decide)).trans <|
  (W8_of_ne m c main_arg1 (by decide)).trans <|
  (W7_of_ne m c main_arg1 (by decide)).trans <|
  (StableHlo.after_of_writes_sub hostOps4 _ hostOps4_writes (by decide)).trans <|
  (W5_of_ne m c main_arg1 (by decide)).trans <|
  (W4_of_ne m c main_arg1 (by decide)).trans <|
  (StableHlo.after_of_writes_sub hostOps2 _ hostOps2_writes (by decide)).trans <|
  ((W2_arr m c 0).trans (((dat1 (V1 m) c).arrAt_in 0 rfl cfg1.N).trans (dat1_A (V1 m) c 0))).trans <|
  ((W1_arr m c 0).trans (((dat0 (V0 m) c).arrAt_in 0 rfl cfg0.N).trans (dat0_A (V0 m) c 0))).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W12_main_arg0 m c),
     (h c _ (mem_uc main_arg1 (by decide))).trans (W12_main_arg1 m c)⟩) (run_all m ρ)

end Cert.Kernel.Hand

end
-- ==== Proof.KI.Common.lean ====
import proofs.«161291_j15487652069895_1_alg».proof.Proof.Gen.KernelIdeal.Skeleton
import proofs.«161291_j15487652069895_1_alg».proof.Proof.Gen.KernelIdeal.Launch
import proofs.«161291_j15487652069895_1_alg».proof.Proof.Gen.KernelIdeal.Points
import Idealize.ShloMosaic.Lib.Pipeline.FrameSuffix
import Idealize.ShloMosaic.Lib.Ring
import Idealize.ShloMosaic.Lib.Tactic
import Idealize.ShloMosaic.Lib.Pipeline.FrameBody
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Vals (F : FTy → Type) [FloatOps F] : Type :=
  (c : Dev nD) → (b : Ref sig .tc) → Buf (Elt F) ((c : Thread nD τ).loc b)

theorem offZero : (![0, 0] : Fin 2 → ℕ) = fun _ => 0 := by
  funext a; fin_cases a <;> rfl

/-- A whole buffer held at the contents that read `X`, loaded through the rectangle of its own extents at offset zero, reads `X`. -/
theorem readAt_zero {κ : Kind} {sp : Space} {S : Shape} {e : EltTy} {m : Memref sig κ sp S e} (h : m.IsWhole)
    {off : Fin S.rank → ℕ} (ho : off = fun _ => 0) (inb : ∀ a, off a + S.size a ≤ S.size a) (X : S.Idx → Elt F e) :
    View.readAt (Elt F) m.view (Rect.unit off S.size inb).toLoadRect (h.unread X) = X :=
  (View.ld_unit_zero ho inb (m.view.read (Elt F) (h.unread X))).trans (h.read_unread X)

/-- After a store through that rectangle the buffer reads the stored value, whatever was stored before. -/
theorem read_store_zero {κ : Kind} {sp : Space} {S : Shape} {e : EltTy} (v : View sig κ sp S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero ho inb y⟩)).trans
    (View.canon_cons_unit_zero ho inb w L)

/-- An accumulator along a grid whose reduction axis has two steps: restarted from `z` at every even position, continued from the position before at every odd one. -/
def accOf {α : Type} {N : ℕ} (step : Fin N → α → α) (z : α) : (n : ℕ) → n < N → α
  | 0, h => step ⟨0, h⟩ z
  | n + 1, h => if (n + 1) % 2 = 0 then step ⟨n + 1, h⟩ z else step ⟨n + 1, h⟩ (accOf step z n (Nat.lt_of_succ_lt h))

theorem accOf_even {α : Type} {N : ℕ} (step : Fin N → α → α) (z : α) (t : Fin N) (h : t.val % 2 = 0) :
    accOf step z t.val t.isLt = step t z := by
  obtain ⟨n, hn⟩ := t
  cases n with
  | zero => rfl
  | succ n => exact if_pos h

theorem accOf_odd {α : Type} {N : ℕ} (step : Fin N → α → α) (z : α) (t : Fin N) (h : t.val % 2 = 1) :
    accOf step z t.val t.isLt = step t (accOf step z (t.val - 1) (Nat.lt_of_le_of_lt (Nat.sub_le _ _) t.isLt)) := by
  obtain ⟨n, hn⟩ := t
  cases n with
  | zero => exact absurd (show (0 : ℕ) % 2 = 1 from h) (by decide)
  | succ n => exact if_neg (fun h0 => by have h1 : (n + 1) % 2 = 1 := h; omega)

/-- At an odd position the accumulator is the two steps of its pair applied to `z`. -/
theorem accOf_flush {α : Type} {N : ℕ} (step : Fin N → α → α) (z : α) (t s : Fin N) (ht : t.val % 2 = 1)
    (hs : s.val + 1 = t.val) : accOf step z t.val t.isLt = step t (step s z) := by
  have e : (⟨t.val - 1, Nat.lt_of_le_of_lt (Nat.sub_le _ _) t.isLt⟩ : Fin N) = s := Fin.ext (by simp only; omega)
  rw [accOf_odd step z t ht]
  exact congrArg (step t) ((accOf_even step z ⟨t.val - 1, _⟩ (by simp only; omega)).trans (congrArg (fun u => step u z) e))

theorem ne_of_notMem {gr W : ℕ} {spec : Fin W → Pipeline.WinSpec sig gr} {b : Ref sig .tc}
    (hb : b ∉ Finset.univ.image (Pipeline.arrRef spec)) (w : Fin W) : Pipeline.arrRef spec w ≠ b :=
  fun e => hb (Finset.mem_image.mpr ⟨w, Finset.mem_univ _, e⟩)

section Invariant

variable {gr W : ℕ} (spec : Fin W → Pipeline.WinSpec sig gr) (s : Ref sig .tc) {S : Shape}
  (sc : Memref sig .tc .vmem S .f32) {N : ℕ} (acc : (n : ℕ) → n < N → Vec F S .f32) (c : Dev nD)

abbrev restOf : sProp 𝕄 :=
  iprop(Pipeline.scopedRestBut (Ix := Unit) (Name := ℕ) (U := UR sig nD τ) (Lvl := ℕ) (Val := Elt F) spec c [s] ∗ (∃ r, prngReg c r))

/-- A reduction region's invariant: before the first point what the region is handed; after a point the accumulator's buffer at the accumulator's value, beside the rest untouched. -/
def PhiOf : (n : ℕ) → n ≤ N → sProp 𝕄
  | 0, _ => Pipeline.ΦA spec c
  | n + 1, hn => iprop(owns (c : Thread nD τ) sc fullShare (acc n hn) ∗ restOf (F := F) spec s c)

theorem PhiOf_pos (n : ℕ) (h : n ≤ N) (hz : n ≠ 0) :
    PhiOf spec s sc acc c n h
      = iprop(owns (c : Thread nD τ) sc fullShare (acc (n - 1) (by omega)) ∗ restOf (F := F) spec s c) := by
  cases n with
  | zero => exact absurd rfl hz
  | succ n => rfl

/-- At every position the invariant holds the accumulator's buffer at some contents. -/
theorem PhiOf_some (hA : (Pipeline.ΦA spec c : sProp 𝕄) = iprop(iprop((∃ d, owns (c : Thread nD τ) sc fullShare d)
      ∗ Pipeline.scopedRestBut (Ix := Unit) (Name := ℕ) (U := UR sig nD τ) (Lvl := ℕ) (Val := Elt F) spec c [s]) ∗ (∃ r, prngReg c r)))
    (n : ℕ) (h : n ≤ N) :
    PhiOf spec s sc acc c n h ⊢ iprop((∃ d, owns (c : Thread nD τ) sc fullShare d) ∗ restOf (F := F) spec s c) := by
  cases n with
  | zero =>
    rw [show PhiOf spec s sc acc c 0 h = Pipeline.ΦA spec c from rfl, hA]
    iintro ⟨⟨HS, HR⟩, Hg⟩
    unfold restOf
    iframe
  | succ n =>
    rw [show PhiOf spec s sc acc c (n + 1) h = iprop(owns (c : Thread nD τ) sc fullShare (acc n h) ∗ restOf (F := F) spec s c) from rfl]
    iintro ⟨HS, HR⟩
    iframe HR
    iexists _; iexact HS

/-- After the last point the invariant gives back what the region was handed. -/
theorem PhiOf_out (hA : (Pipeline.ΦA spec c : sProp 𝕄) = iprop(iprop((∃ d, owns (c : Thread nD τ) sc fullShare d)
      ∗ Pipeline.scopedRestBut (Ix := Unit) (Name := ℕ) (U := UR sig nD τ) (Lvl := ℕ) (Val := Elt F) spec c [s]) ∗ (∃ r, prngReg c r))) :
    PhiOf spec s sc acc c N (Nat.le_refl _) ⊢ (Pipeline.ΦA spec c : sProp 𝕄) := by
  rw [hA]
  refine BIBase.Entails.trans (PhiOf_some spec s sc acc c hA N (Nat.le_refl _)) ?_
  unfold restOf
  iintro ⟨HS, HR, Hg⟩
  iframe

end Invariant

end Cert.KernelIdeal.Hand

end
-- ==== Proof.KI.Dat0.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev eblk0 (c : Dev nD) (t : Fin cfg0.N) : Vec F S4096x512 .i32 := iblk0 V c 0 t

def rows0 (c : Dev nD) : (n : ℕ) → n < cfg0.N → Vec F S4096x1 .f32
  | 0, h => k0_pay4 (eblk0 V c ⟨0, h⟩) (k0_pay3 (F := F))
  | n + 1, h => k0_pay4 (eblk0 V c ⟨n + 1, h⟩) (rows0 c n (Nat.lt_of_succ_lt h))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => rows0 V c t.val t.isLt
    | ⟨2, _⟩ => k0_pay2 (eblk0 V c t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = iblk0 V c 0 t := by dsimp only [dat0]
theorem dat0_after1 (c : Dev nD) (t : Fin cfg0.N) : (dat0 V c).after 1 t = rows0 V c t.val t.isLt := by dsimp only [dat0]
theorem dat0_after2 (c : Dev nD) (t : Fin cfg0.N) : (dat0 V c).after 2 t = k0_pay2 (eblk0 V c t) := by dsimp only [dat0]

end Cert.KernelIdeal.Hand

end
-- ==== Proof.KI.Dat1.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev eblk1 (c : Dev nD) (t : Fin cfg1.N) : Vec F S1024x2048 .i32 := iblk1 V c 0 t
abbrev rblk1 (c : Dev nD) (t : Fin cfg1.N) : Vec F S1024x1 .f32 := iblk1 V c 1 t
abbrev cblk1 (c : Dev nD) (t : Fin cfg1.N) : Vec F S1x2048 .f32 := iblk1 V c 2 t

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (eblk1 V c t) (rblk1 V c t) (cblk1 V c t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = iblk1 V c 0 t := by dsimp only [dat1]
theorem dat1_after1 (c : Dev nD) (t : Fin cfg1.N) : (dat1 V c).after 1 t = iblk1 V c 1 t := by dsimp only [dat1]
theorem dat1_after2 (c : Dev nD) (t : Fin cfg1.N) : (dat1 V c).after 2 t = iblk1 V c 2 t := by dsimp only [dat1]
theorem dat1_after3 (c : Dev nD) (t : Fin cfg1.N) : (dat1 V c).after 3 t = k1_pay1 (eblk1 V c t) (rblk1 V c t) (cblk1 V c t) := by dsimp only [dat1]

end Cert.KernelIdeal.Hand

end
-- ==== Proof.KI.Dat2.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev wblk2 (c : Dev nD) (t : Fin cfg2.N) : Vec F S1024x4096 .bf16 := iblk2 V c 0 t
abbrev xblk2 (c : Dev nD) (t : Fin cfg2.N) : Vec F S4096x64 .f32 := iblk2 V c 1 t

def acc2 (c : Dev nD) : (n : ℕ) → n < cfg2.N → Vec F S1024x64 .f32 :=
  accOf (fun t a => k2_pay2 (xblk2 V c t) a (wblk2 V c t)) (k2_pay1 (F := F))

abbrev scM2 : Memref sig .tc .vmem S1024x64 .f32 := Memref.whole cc2_scratch0

abbrev Phi2 (c : Dev nD) : (n : ℕ) → n ≤ cfg2.N → sProp 𝕄 := PhiOf spec2 cc2_scratch0 scM2 (acc2 V c) c

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = iblk2 V c 0 t := by dsimp only [dat2]
theorem dat2_after1 (c : Dev nD) (t : Fin cfg2.N) : (dat2 V c).after 1 t = iblk2 V c 1 t := by dsimp only [dat2]
theorem dat2_after2 (c : Dev nD) (t : Fin cfg2.N) : (dat2 V c).after 2 t = acc2 V c t.val t.isLt := by dsimp only [dat2]

end Cert.KernelIdeal.Hand

end
-- ==== Proof.KI.Dat3.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev wblk3 (c : Dev nD) (t : Fin cfg3.N) : Vec F S2048x2048 .bf16 := iblk3 V c 0 t
abbrev xblk3 (c : Dev nD) (t : Fin cfg3.N) : Vec F S2048x64 .f32 := iblk3 V c 1 t

def acc3 (c : Dev nD) : (n : ℕ) → n < cfg3.N → Vec F S2048x64 .f32 :=
  accOf (fun t a => k3_pay2 (xblk3 V c t) (wblk3 V c t) a) (k3_pay1 (F := F))

abbrev scM3 : Memref sig .tc .vmem S2048x64 .f32 := Memref.whole cc3_scratch0

abbrev Phi3 (c : Dev nD) : (n : ℕ) → n ≤ cfg3.N → sProp 𝕄 := PhiOf spec3 cc3_scratch0 scM3 (acc3 V c) c

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = iblk3 V c 0 t := by dsimp only [dat3]
theorem dat3_after1 (c : Dev nD) (t : Fin cfg3.N) : (dat3 V c).after 1 t = iblk3 V c 1 t := by dsimp only [dat3]
theorem dat3_after2 (c : Dev nD) (t : Fin cfg3.N) : (dat3 V c).after 2 t = acc3 V c t.val t.isLt := by dsimp only [dat3]

end Cert.KernelIdeal.Hand

end
-- ==== Proof.KI.Dat4.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev wblk4 (c : Dev nD) (t : Fin cfg4.N) : Vec F S1024x4096 .bf16 := iblk4 V c 0 t
abbrev xblk4 (c : Dev nD) (t : Fin cfg4.N) : Vec F S4096x64 .f32 := iblk4 V c 1 t

def acc4 (c : Dev nD) : (n : ℕ) → n < cfg4.N → Vec F S1024x64 .f32 :=
  accOf (fun t a => k2_pay2 (xblk4 V c t) a (wblk4 V c t)) (k2_pay1 (F := F))

abbrev scM4 : Memref sig .tc .vmem S1024x64 .f32 := Memref.whole cc4_scratch0

abbrev Phi4 (c : Dev nD) : (n : ℕ) → n ≤ cfg4.N → sProp 𝕄 := PhiOf spec4 cc4_scratch0 scM4 (acc4 V c) c

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = iblk4 V c 0 t := by dsimp only [dat4]
theorem dat4_after1 (c : Dev nD) (t : Fin cfg4.N) : (dat4 V c).after 1 t = iblk4 V c 1 t := by dsimp only [dat4]
theorem dat4_after2 (c : Dev nD) (t : Fin cfg4.N) : (dat4 V c).after 2 t = acc4 V c t.val t.isLt := by dsimp only [dat4]

end Cert.KernelIdeal.Hand

end
-- ==== Proof.KI.Dat5.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev wblk5 (c : Dev nD) (t : Fin cfg5.N) : Vec F S2048x2048 .bf16 := iblk5 V c 0 t
abbrev xblk5 (c : Dev nD) (t : Fin cfg5.N) : Vec F S2048x64 .f32 := iblk5 V c 1 t

def acc5 (c : Dev nD) : (n : ℕ) → n < cfg5.N → Vec F S2048x64 .f32 :=
  accOf (fun t a => k3_pay2 (xblk5 V c t) (wblk5 V c t) a) (k3_pay1 (F := F))

abbrev scM5 : Memref sig .tc .vmem S2048x64 .f32 := Memref.whole cc5_scratch0

abbrev Phi5 (c : Dev nD) : (n : ℕ) → n ≤ cfg5.N → sProp 𝕄 := PhiOf spec5 cc5_scratch0 scM5 (acc5 V c) c

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := Phi5 V c t.val (Nat.le_of_lt_succ t.isLt)
  q _ := fullShare
  owed _ := 0

theorem dat5_A (c : Dev nD) (w : Fin cfg5.W) : (dat5 V c).A w = V c (Pipeline.arrRef spec5 w) := by
  dsimp only [dat5]
theorem dat5_after0 (c : Dev nD) (t : Fin cfg5.N) : (dat5 V c).after 0 t = iblk5 V c 0 t := by dsimp only [dat5]
theorem dat5_after1 (c : Dev nD) (t : Fin cfg5.N) : (dat5 V c).after 1 t = iblk5 V c 1 t := by dsimp only [dat5]
theorem dat5_after2 (c : Dev nD) (t : Fin cfg5.N) : (dat5 V c).after 2 t = acc5 V c t.val t.isLt := by dsimp only [dat5]

end Cert.KernelIdeal.Hand

end
-- ==== Proof.KI.Dat6.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev wblk6 (c : Dev nD) (t : Fin cfg6.N) : Vec F S1024x4096 .bf16 := iblk6 V c 0 t
abbrev xblk6 (c : Dev nD) (t : Fin cfg6.N) : Vec F S4096x64 .f32 := iblk6 V c 1 t

def acc6 (c : Dev nD) : (n : ℕ) → n < cfg6.N → Vec F S1024x64 .f32 :=
  accOf (fun t a => k2_pay2 (xblk6 V c t) a (wblk6 V c t)) (k2_pay1 (F := F))

abbrev scM6 : Memref sig .tc .vmem S1024x64 .f32 := Memref.whole cc6_scratch0

abbrev Phi6 (c : Dev nD) : (n : ℕ) → n ≤ cfg6.N → sProp 𝕄 := PhiOf spec6 cc6_scratch0 scM6 (acc6 V c) c

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => acc6 V c t.val t.isLt
  Φ t := Phi6 V c t.val (Nat.le_of_lt_succ t.isLt)
  q _ := fullShare
  owed _ := 0

theorem dat6_A (c : Dev nD) (w : Fin cfg6.W) : (dat6 V c).A w = V c (Pipeline.arrRef spec6 w) := by
  dsimp only [dat6]
theorem dat6_after0 (c : Dev nD) (t : Fin cfg6.N) : (dat6 V c).after 0 t = iblk6 V c 0 t := by dsimp only [dat6]
theorem dat6_after1 (c : Dev nD) (t : Fin cfg6.N) : (dat6 V c).after 1 t = iblk6 V c 1 t := by dsimp only [dat6]
theorem dat6_after2 (c : Dev nD) (t : Fin cfg6.N) : (dat6 V c).after 2 t = acc6 V c t.val t.isLt := by dsimp only [dat6]

end Cert.KernelIdeal.Hand

end
-- ==== Proof.KI.Dat7.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

variable {F : FTy → Type} [FloatOps F]

local notation "𝕄" => MT nD τ sig Unit (Elt F) ℕ (UR sig nD τ) ℕ

variable (V : Vals F)

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev wblk7 (c : Dev nD) (t : Fin cfg7.N) : Vec F S2048x2048 .bf16 := iblk7 V c 0 t
abbrev xblk7 (c : Dev nD) (t : Fin cfg7.N) : Vec F S2048x64 .f32 := iblk7 V c 1 t

def acc7 (c : Dev nD) : (n : ℕ) → n < cfg7.N → Vec F S2048x64 .f32 :=
  accOf (fun t a => k3_pay2 (xblk7 V c t) (wblk7 V c t) a) (k3_pay1 (F := F))

abbrev scM7 : Memref sig .tc .vmem S2048x64 .f32 := Memref.whole cc7_scratch0

abbrev Phi7 (c : Dev nD) : (n : ℕ) → n ≤ cfg7.N → sProp 𝕄 := PhiOf spec7 cc7_scratch0 scM7 (acc7 V c) c

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := Phi7 V c t.val (Nat.le_of_lt_succ t.isLt)
  q _ := fullShare
  owed _ := 0

theorem dat7_A (c : Dev nD) (w : Fin cfg7.W) : (dat7 V c).A w = V c (Pipeline.arrRef spec7 w) := by
  dsimp only [dat7]
theorem dat7_after0 (c : Dev nD) (t : Fin cfg7.N) : (dat7 V c).after 0 t = iblk7 V c 0 t := by dsimp only [dat7]
theorem dat7_after1 (c : Dev nD) (t : Fin cfg7.N) : (dat7 V c).after 1 t = iblk7 V c 1 t := by dsimp only [dat7]
theorem dat7_after2 (c : Dev nD) (t : Fin cfg7.N) : (dat7 V c).after 2 t = acc7 V c t.val t.isLt := by dsimp only [dat7]

end Cert.KernelIdeal.Hand

end
-- ==== Proof.KI.Vals.lean ====
import proofs.«161291_j15487652069895_1_alg».proof.Proof.KI.Dat0
import proofs.«161291_j15487652069895_1_alg».proof.Proof.KI.Dat1
import proofs.«161291_j15487652069895_1_alg».proof.Proof.KI.Dat2
import proofs.«161291_j15487652069895_1_alg».proof.Proof.KI.Dat3
import proofs.«161291_j15487652069895_1_alg».proof.Proof.KI.Dat4
import proofs.«161291_j15487652069895_1_alg».proof.Proof.KI.Dat5
import proofs.«161291_j15487652069895_1_alg».proof.Proof.KI.Dat6
import proofs.«161291_j15487652069895_1_alg».proof.Proof.KI.Dat7

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : Vals F := fun c b => W0 m c b

/-- The buffers' contents after each item of the program: a region leaves its arrays at what its blocks write back and every other buffer as entered; host operations are folded in between. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : Vals F := fun c b => W1 m c b

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : Vals F := fun c b => W2 m c b

abbrev W3 : Dev nD → Valuation τ sig (Elt F) := fun c => StableHlo.after hostOps2 (W2 m c)
abbrev V3 : Vals F := fun c b => W3 m c b

def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : Vals F := fun c b => W4 m c b

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : Vals F := fun c b => W5 m c b

abbrev W6 : Dev nD → Valuation τ sig (Elt F) := fun c => StableHlo.after hostOps4 (W5 m c)
abbrev V6 : Vals F := fun c b => W6 m c b

def W7 (c : Dev nD) : Valuation τ sig (Elt F) :=
  Pipeline.withArrays spec4 c (W6 m c) fun w => (dat4 (V6 m) c).arrAt w cfg4.N
theorem W7_arr (c : Dev nD) (w : Fin cfg4.W) :
    W7 m c (Proc.devRef .tc (Pipeline.arrRef spec4 w)) = (dat4 (V6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
abbrev V7 : Vals F := fun c b => W7 m c b

def W8 (c : Dev nD) : Valuation τ sig (Elt F) :=
  Pipeline.withArrays spec5 c (W7 m c) fun w => (dat5 (V7 m) c).arrAt w cfg5.N
theorem W8_arr (c : Dev nD) (w : Fin cfg5.W) :
    W8 m c (Proc.devRef .tc (Pipeline.arrRef spec5 w)) = (dat5 (V7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
abbrev V8 : Vals F := fun c b => W8 m c b

abbrev W9 : Dev nD → Valuation τ sig (Elt F) := fun c => StableHlo.after hostOps6 (W8 m c)
abbrev V9 : Vals F := fun c b => W9 m c b

def W10 (c : Dev nD) : Valuation τ sig (Elt F) :=
  Pipeline.withArrays spec6 c (W9 m c) fun w => (dat6 (V9 m) c).arrAt w cfg6.N
theorem W10_arr (c : Dev nD) (w : Fin cfg6.W) :
    W10 m c (Proc.devRef .tc (Pipeline.arrRef spec6 w)) = (dat6 (V9 m) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) := by
  unfold W10; exact Pipeline.withArrays_of_ne spec6 c _ _ b hb
abbrev V10 : Vals F := fun c b => W10 m c b

def W11 (c : Dev nD) : Valuation τ sig (Elt F) :=
  Pipeline.withArrays spec7 c (W10 m c) fun w => (dat7 (V10 m) c).arrAt w cfg7.N
theorem W11_arr (c : Dev nD) (w : Fin cfg7.W) :
    W11 m c (Proc.devRef .tc (Pipeline.arrRef spec7 w)) = (dat7 (V10 m) c).arrAt w cfg7.N := by
  unfold W11; exact Pipeline.withArrays_arr spec7 launch7.win.arr_inj c _ _ w
theorem W11_of_ne (c : Dev nD) (b : Ref sig .tc) (hb : ∀ w, Pipeline.arrRef spec7 w ≠ b) :
    W11 m c (Proc.devRef .tc b) = W10 m c (Proc.devRef .tc b) := by
  unfold W11; exact Pipeline.withArrays_of_ne spec7 c _ _ b hb
abbrev V11 : Vals F := fun c b => W11 m c b

abbrev W12 : Dev nD → Valuation τ sig (Elt F) := fun c => StableHlo.after hostOps8 (W11 m c)
abbrev V12 : Vals F := fun c b => W12 m c b

end Cert.KernelIdeal.Hand

end
-- ==== Proof.KI.Body0.lean ====
import proofs.«161291_j15487652069895_1_alg».proof.Proof.KI.Dat0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

abbrev first_r0 (i : grid0.Coords) : Prop :=
  Scalar.cmpi .ne (Scalar.extui (Scalar.cmpi .eq (BitVec.ofNat 32 (i 0).val) 0#32)) 0#32 = 1#1

theorem first_iff_r0 : ∀ t : Fin cfg0.N, first_r0 (grid0.coords t) ↔ t.val = 0 :=
  (by decide +kernel : ∀ t : Fin grid0.N, first_r0 (grid0.coords t) ↔ t.val = 0)

theorem before_e_r0 (c : Dev nD) (t : Fin cfg0.N) (d) : (dat0 V c).before 0 t d = eblk0 V c t := by
  rw [Dat.before_fetched _ 0 t (fetch0_0 t)]
  unfold Dat.fetched Dat.blockOf eblk0 iblk0
  rw [dat0_A]
  rfl

theorem before_rows_r0 (c : Dev nD) (t : Fin cfg0.N) (ht : t.val ≠ 0) (d) :
    (dat0 V c).before 1 t d = rows0 V c (t.val - 1) (Nat.lt_of_le_of_lt (Nat.sub_le _ _) t.isLt) := by
  have hN : t.val < 16 := lt_of_lt_of_eq t.isLt (show cfg0.N = 16 from N_0)
  rw [Dat.before_out_kept _ 1 rfl t ht
    (Bool.eq_false_iff.mpr fun h => by have := (flush0_1 _).mp h; dsimp only at this; omega)
    (fun _ => rfl) (fun _ _ => rfl)]
  rw [dat0_after1]

theorem rows0_first_r0 (c : Dev nD) (t : Fin cfg0.N) (ht : t.val = 0) :
    rows0 V c t.val t.isLt = k0_pay4 (eblk0 V c t) (k0_pay3 (F := F)) := by
  obtain ⟨n, hn⟩ := t
  cases n with
  | zero => rfl
  | succ n => exact absurd ht (Nat.succ_ne_zero n)

theorem rows0_later_r0 (c : Dev nD) (t : Fin cfg0.N) (ht : t.val ≠ 0) :
    rows0 V c t.val t.isLt
      = k0_pay4 (eblk0 V c t) (rows0 V c (t.val - 1) (Nat.lt_of_le_of_lt (Nat.sub_le _ _) t.isLt)) := by
  obtain ⟨n, hn⟩ := t
  cases n with
  | zero => exact absurd rfl ht
  | succ n => rfl

theorem whole_emb_r0 {s : Shape} {off : Fin s.rank → ℕ} (h0 : ∀ a, off a = 0)
    (inb : ∀ a, off a + s.size a ≤ s.size a) (x : s.Idx) : (Rect.unit off s.size inb).emb x = x := by
  funext a
  apply Fin.ext
  rw [Rect.emb_apply]
  show off a + 1 * (x a).val = (x a).val
  rw [h0 a]; omega

theorem readAt_whole_r0 {s : Shape} {e : EltTy} (v : View sig .tc .vmem s e) (f : v.ty.Contents (Elt F))
    {off : Fin s.rank → ℕ} (h0 : ∀ a, off a = 0) (inb : ∀ a, off a + s.size a ≤ s.size a) :
    v.readAt (Elt F) (Rect.unit off s.size inb).toLoadRect f = v.read (Elt F) f := by
  funext x
  rw [View.readAt_apply]
  exact congrArg _ (whole_emb_r0 h0 inb x)

theorem read_whole_store_r0 {s : Shape} {e : EltTy} (v : View sig .tc .vmem s e) (f : v.ty.Contents (Elt F))
    {off : Fin s.rank → ℕ} (h0 : ∀ a, off a = 0) (inb : ∀ a, off a + s.size a ≤ s.size a)
    (w : s.Idx → Elt F e) (L : List (View.Piece (Elt F) s e)) :
    v.read (Elt F) (v.writes (Elt F) f (⟨Rect.unit off s.size inb, w⟩ :: L)) = w := by
  funext x
  have h := View.read_writes_cons_emb v f (Rect.unit off s.size inb) w L x
  rwa [whole_emb_r0 h0 inb x] at h

theorem zero_off_r0 : ∀ a : Fin 2, (![0, 0] : Fin 2 → ℕ) a = 0 := by decide

theorem kernel_first_r0 (c : Dev nD) (E : Set ℕ) (i : grid0.Coords)
    (arg1 : Memref sig .tc .vmem S4096x512 .i32) (harg1 : arg1.IsWhole)
    (arg2 : Memref sig .tc .vmem S4096x1 .f32) (harg2 : arg2.IsWhole)
    (arg3 : Memref sig .tc .vmem S1x512 .f32) (harg3 : arg3.IsWhole)
    (hi : first_r0 i) (e : Vec F S4096x512 .i32) (K : PUnit → sProp 𝕄) :
    iprop(owns (c : Thread nD τ) arg1 fullShare e ∗ (∃ d, owns (c : Thread nD τ) arg2 fullShare d)
        ∗ (∃ d, owns (c : Thread nD τ) arg3 fullShare d)
        ∗ (iprop(owns (c : Thread nD τ) arg1 fullShare e
              ∗ owns (c : Thread nD τ) arg2 fullShare (k0_pay4 e (k0_pay3 (F := F)))
              ∗ owns (c : Thread nD τ) arg3 fullShare (k0_pay2 e)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f1, %hf1, H1⟩, ⟨%d2, %f2, -, H2⟩, ⟨%d3, %f3, -, H3⟩, Hk⟩
  subst hf1
  sl_exec (disch := first | exact hi)
  sl_step
  iapply Hk
  isplitl [H1]
  · iexists f1; isplitr; · ipureintro; rfl
    iexact H1
  isplitl [H2]
  · iexists _; isplitr
    swap; · iexact H2
    ipureintro

    rw [read_whole_store_r0 _ _ zero_off_r0, readAt_whole_r0 _ _ zero_off_r0]
    unfold kernel_first_r0.sl.v9 kernel_first_r0.sl.H2_1
    unfold View.readCov
    rw [readAt_whole_r0 _ _ zero_off_r0, read_whole_store_r0 _ _ zero_off_r0]
  · iexists _; isplitr
    swap; · iexact H3
    ipureintro
    rw [read_whole_store_r0 _ _ zero_off_r0, readAt_whole_r0 _ _ zero_off_r0]

theorem kernel_later_r0 (c : Dev nD) (E : Set ℕ) (i : grid0.Coords)
    (arg1 : Memref sig .tc .vmem S4096x512 .i32) (harg1 : arg1.IsWhole)
    (arg2 : Memref sig .tc .vmem S4096x1 .f32) (harg2 : arg2.IsWhole)
    (arg3 : Memref sig .tc .vmem S1x512 .f32) (harg3 : arg3.IsWhole)
    (hi : ¬first_r0 i) (e : Vec F S4096x512 .i32) (acc : Vec F S4096x1 .f32) (K : PUnit → sProp 𝕄) :
    iprop(owns (c : Thread nD τ) arg1 fullShare e ∗ owns (c : Thread nD τ) arg2 fullShare acc
        ∗ (∃ d, owns (c : Thread nD τ) arg3 fullShare d)
        ∗ (iprop(owns (c : Thread nD τ) arg1 fullShare e
              ∗ owns (c : Thread nD τ) arg2 fullShare (k0_pay4 e acc)
              ∗ owns (c : Thread nD τ) arg3 fullShare (k0_pay2 e)) -∗ K ⟨⟩))
      ⊢ wp frame (wpE (defs₀ (F := F)) Variants.none c none) E (cc0__degree_kernel i arg1 harg1 arg2 harg2 arg3 harg3) K := by
  simp only [cc0__degree_kernel_eq_skeleton]; unfold cc0__degree_kernel_skel
  unfold owns
  iintro ⟨⟨%f1, %hf1, H1⟩, ⟨%f2, %hf2, H2⟩, ⟨%d3, %f3, -, H3⟩, Hk⟩
  subst hf1; subst hf2
  sl_exec (disch := first | exact hi)
  sl_step
  iapply Hk
  isplitl [H1]
  · iexists f1; isplitr; · ipureintro; rfl
    iexact H1
  isplitl [H2]
  · iexists _; isplitr
    swap; · iexact H2
    ipureintro
    rw [read_whole_store_r0 _ _ zero_off_r0, readAt_whole_r0 _ _ zero_off_r0, readAt_whole_r0 _ _ zero_off_r0]
  · iexists _; isplitr
    swap; · iexact H3
    ipureintro
    rw [read_whole_store_r0 _ _ zero_off_r0, readAt_whole_r0 _ _ zero_off_r0]

def bodyPre_r0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost_r0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body_r0 (c : Dev nD) (t : Fin cfg0.N) :
    bodyPre_r0 V c t ⊢ wp frame (wpE (defs₀ (F := F)) Variants.none c none) Set.univ (bodyAt0 t) (fun _ => bodyPost_r0 V c t) := by
  unfold bodyPre_r0 bodyPost_r0 bodyAt0
  simp only [before_e_r0]
  rw [show (dat0 V c).Φ t.succ = (dat0 V c).Φ t.castSucc from rfl,
    show (dat0 V c).owesAt () t.succ = (dat0 V c).owesAt () t.castSucc from rfl,
    dat0_after0, dat0_after1, dat0_after2]
  by_cases h0 : t.val = 0
  · rw [rows0_first_r0 V c t h0]
    iintro ⟨HΦ, Ho, ⟨%d0, H0⟩, ⟨%d1, H1⟩, ⟨%d2, H2⟩⟩
    iapply (kernel_first_r0 c Set.univ (grid0.coords t) _ _ _ _ _ _ ((first_iff_r0 t).mpr h0) (eblk0 V c t) _)
    iframe H0
    isplitl [H1]; · iexists _; iexact H1
    isplitl [H2]; · iexists _; iexact H2
    iintro ⟨H0, H1, H2⟩
    iframe
  · rw [rows0_later_r0 V c t h0]
    simp only [before_rows_r0 V c t h0]
    iintro ⟨HΦ, Ho, ⟨%d0, H0⟩, ⟨%d1, H1⟩, ⟨%d2, H2⟩⟩
    iapply (kernel_later_r0 c Set.univ (grid0.coords t) _ _ _ _ _ _ (fun h => h0 ((first_iff_r0 t).mp h)) (eblk0 V c t) _ _)
    iframe H0 H1
    isplitl [H2]; · iexists _; iexact H2
    iintro ⟨H0, H1, H2⟩
    iframe

theorem body_obligation0 (c : Dev nD) :
    BodyObligation (dat0 (F := F) V c) (defs₀ (F := F)) Variants.none () Set.univ := fun t => by
  rw [bigSep_W0, bigSep_W0]
  exact sound_body_r0 V c t

theorem hin0 (c : Dev nD) : (Pipeline.ΦA spec0 c : sProp 𝕄) ⊢ (dat0 V c).Φ 0 := by
  dsimp only [dat0]
  exact Entails.refl _

theorem hout0 (c : Dev nD) : (dat0 V c).Φ (Fin.last cfg0.N) ⊢ (Pipeline.ΦA spec0 c : sProp 𝕄) := by
  dsimp only [dat0]
  exact Entails.refl _

end Cert.KernelIdeal.Hand

end
-- ==== Proof.KI.Body1.lean ====
import proofs.«161291_j15487652069895_1_alg».proof.Proof.KI.Dat1
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Vals F)

theorem emb_whole_r1 {s : Shape} (off : Fin s.rank → ℕ) (h0 : ∀ a, off a = 0) (inb : ∀ a, off a + s.size a ≤ s.size a)
    (x : s.Idx) : (Rect.unit (s := s) off s.size inb).emb x = x := by
  funext a
  apply Fin.ext
  rw [Rect.emb_apply, Rect.off_unit, Rect.stride_unit, h0 a, Nat.zero_add, Nat.one_mul]

theorem ld_whole_r1 {s : Shape} {e : EltTy} (off : Fin s.rank → ℕ) (h0 : ∀ a, off a = 0) (inb : ∀ a, off a + s.size a ≤ s.size a)
    (X : s.Idx → Elt F e) : View.ld X (Rect.unit (s := s) off s.size inb) = X := by
  funext x
  exact congrArg X (emb_whole_r1 off h0 inb x)

theorem read_write_whole_r1 {κ : Kind} {sp : Space} {s : Shape} {e : EltTy} (v : View sig κ sp s e) (f : v.ty.Contents (Elt F))
    (off : Fin s.rank → ℕ) (h0 : ∀ a, off a = 0) (inb : ∀ a, off a + s.size a ≤ s.size a) (p : s.Idx → Elt F e) :
    v.read (Elt F) (v.writes (Elt F) f [⟨Rect.unit (s := s) off s.size inb, p⟩]) = p := by
  funext y
  have h := View.read_writes_cons_emb (v := v) (f := f) (Rect.unit (s := s) off s.size inb) p [] y
  rwa [emb_whole_r1 off h0 inb y] at h

theorem zeros_r1 : ∀ a : Fin 2, (![0, 0] : Fin 2 → ℕ) a = 0 := by decide

theorem before0_r1 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [dat1_after0]; unfold Dat.blockOf iblk1; rw [dat1_A]; try rfl
  rw [(dat1 V c).before_in_eq_fetched 0 rfl (fun _ => rfl) (fun _ _ _ => rfl) hkeep t d]
  unfold Dat.fetched Dat.blockOf iblk1; rw [dat1_A]; try rfl

theorem before1_r1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [dat1_after1]; unfold Dat.blockOf iblk1; rw [dat1_A]; try rfl
  rw [(dat1 V c).before_in_eq_fetched 1 rfl (fun _ => rfl) (fun _ _ _ => rfl) hkeep t d]
  unfold Dat.fetched Dat.blockOf iblk1; rw [dat1_A]; try rfl

theorem before2_r1 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [dat1_after2]; unfold Dat.blockOf iblk1; rw [dat1_A]; try rfl
  rw [(dat1 V c).before_in_eq_fetched 2 rfl (fun _ => rfl) (fun _ _ _ => rfl) hkeep t d]
  unfold Dat.fetched Dat.blockOf iblk1; rw [dat1_A]; try rfl

theorem sound_kernel_r1 (c : Dev nD) (E : Set ℕ) (i : grid1.Coords)
    (arg2 : Memref sig .tc .vmem S1024x2048 .i32) (harg2 : arg2.IsWhole)
    (arg3 : Memref sig .tc .vmem S1024x1 .f32) (harg3 : arg3.IsWhole)
    (arg4 : Memref sig .tc .vmem S1x2048 .f32) (harg4 : arg4.IsWhole)
    (arg5 : Memref sig .tc .vmem S1024x2048 .bf16) (harg5 : arg5.IsWhole)
    (x0 : Vec F S1024x2048 .i32) (x1 : Vec F S1024x1 .f32) (x2 : Vec F S1x2048 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k1_pay1 x0 x1 x2)) -∗ K ⟨⟩))
      ⊢ wp frame (wpE (defs₀ (F := F)) Variants.none c none) E
          (cc1__weight_kernel i arg2 harg2 arg3 harg3 arg4 harg4 arg5 harg5) K := by
  simp only [cc1__weight_kernel_eq_skeleton]; unfold cc1__weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step

  have e0 : View.readAt (Elt F) arg2.view (Rect.unit (s := S1024x2048) ![0, 0] S1024x2048.size inb_S1024x2048_S1024x2048_0_0).toLoadRect f0
      = arg2.view.read (Elt F) f0 := ld_whole_r1 (s := S1024x2048) _ zeros_r1 _ _
  have e1 : View.readAt (Elt F) arg3.view (Rect.unit (s := S1024x1) ![0, 0] S1024x1.size inb_S1024x1_S1024x1_0_0).toLoadRect f1
      = arg3.view.read (Elt F) f1 := ld_whole_r1 (s := S1024x1) _ zeros_r1 _ _
  have e2 : View.readAt (Elt F) arg4.view (Rect.unit (s := S1x2048) ![0, 0] S1x2048.size inb_S1x2048_S1x2048_0_0).toLoadRect f2
      = arg4.view.read (Elt F) f2 := ld_whole_r1 (s := S1x2048) _ zeros_r1 _ _
  rw [e0, e1, e2]
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  exact read_write_whole_r1 (s := S1024x2048) _ _ _ zeros_r1 _ _

def bodyPre_r1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost_r1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body_r1 (c : Dev nD) (t : Fin cfg1.N) :
    bodyPre_r1 V c t ⊢ wp frame (wpE (defs₀ (F := F)) Variants.none c none) Set.univ (bodyAt1 t) (fun _ => bodyPost_r1 V c t) := by
  unfold bodyPre_r1 bodyPost_r1 bodyAt1
  simp only [before0_r1, before1_r1, before2_r1]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨Hinv, Hdebt, ⟨%d0, He⟩, ⟨%d1, Hr⟩, ⟨%d2, Hc⟩, ⟨%d3, Hw⟩⟩
  iapply (sound_kernel_r1 c Set.univ _ _ _ _ _ _ _ _ _ (iblk1 V c 0 t) (iblk1 V c 1 t) (iblk1 V c 2 t) _)
  iframe He Hr Hc
  isplitl [Hw]; · iexists _; iexact Hw
  iintro ⟨He, Hr, Hc, Hw⟩
  iframe

theorem body_obligation1 (c : Dev nD) :
    BodyObligation (dat1 (F := F) V c) (defs₀ (F := F)) Variants.none () Set.univ := fun t => by
  rw [bigSep_W1, bigSep_W1]
  exact sound_body_r1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) := .rfl

end Cert.KernelIdeal.Hand

end
-- ==== Proof.KI.Bottom.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condA_bot (i : grid2.Coords) : Prop := (Scalar.cmpi .ne (Scalar.extui (Scalar.cmpi .eq (BitVec.ofNat 32 (i 1).val) 0#32)) 0#32) = 1#1

theorem hcondA_bot : ∀ t : Fin cfg2.N, condA_bot (grid2.coords t) ↔ t.val % 2 = 0 :=
  (by decide +kernel : ∀ t : Fin grid2.N, condA_bot (grid2.coords t) ↔ t.val % 2 = 0)

abbrev condB_bot (i : grid2.Coords) : Prop := k2_cond2 i = 1#1

theorem hcondB_bot : ∀ t : Fin cfg2.N, condB_bot (grid2.coords t) ↔ t.val % 2 = 1 :=
  (by decide +kernel : ∀ t : Fin grid2.N, condB_bot (grid2.coords t) ↔ t.val % 2 = 1)

/-- A first reduction step zeroes the accumulator and adds the product of the point's blocks to it. Stated for any function equal to this kernel, so that every region that runs it cites the one lemma. -/
theorem runA_bot (kern : type_of% (cc2__prop_bottom_kernel (F := F))) (hkern : kern = cc2__prop_bottom_kernel)
    (c : Dev nD) (i : grid2.Coords)
    (arg2 : Memref sig .tc .vmem S1024x4096 .bf16) (harg2 : arg2.IsWhole)
    (arg3 : Memref sig .tc .vmem S4096x64 .f32) (harg3 : arg3.IsWhole)
    (arg4 : Memref sig .tc .vmem S1024x64 .f32) (harg4 : arg4.IsWhole)
    (arg5 : Memref sig .tc .vmem S1024x64 .f32) (harg5 : arg5.IsWhole)
    (hcA : condA_bot i) (hcB : ¬condB_bot i)
    (xw : Vec F S1024x4096 .bf16) (xx : Vec F S4096x64 .f32) (xo : Vec F S1024x64 .f32)
    (E : Set ℕ) (K : PUnit → sProp 𝕄) :
    iprop(owns (c : Thread nD τ) arg2 fullShare xw ∗ owns (c : Thread nD τ) arg3 fullShare xx
        ∗ owns (c : Thread nD τ) arg4 fullShare xo ∗ (∃ d, owns (c : Thread nD τ) arg5 fullShare d)
        ∗ (iprop(owns (c : Thread nD τ) arg2 fullShare xw ∗ owns (c : Thread nD τ) arg3 fullShare xx
            ∗ owns (c : Thread nD τ) arg4 fullShare xo
            ∗ owns (c : Thread nD τ) arg5 fullShare (k2_pay2 xx (k2_pay1 (F := F)) xw)) -∗ K ⟨⟩))
      ⊢ wp frame (wpE (defs₀ (F := F)) Variants.none c none) E (kern i arg2 harg2 arg3 harg3 arg4 harg4 arg5 harg5) K := by
  subst hkern
  simp only [cc2__prop_bottom_kernel_eq_skeleton]; unfold cc2__prop_bottom_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hcA | exact hcB)
  sl_step
  iapply Hk
  unfold runA_bot.sl.v6 runA_bot.sl.HS_1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [readAt_zero harg3 offZero, readAt_zero harg2 offZero, View.readCov_cons_toLoadRect]
  exact read_store_zero _ _ offZero _ _ _

/-- A last reduction step adds the product of the point's blocks to the accumulator and stores the sum to the output block as well. -/
theorem runB_bot (kern : type_of% (cc2__prop_bottom_kernel (F := F))) (hkern : kern = cc2__prop_bottom_kernel)
    (c : Dev nD) (i : grid2.Coords)
    (arg2 : Memref sig .tc .vmem S1024x4096 .bf16) (harg2 : arg2.IsWhole)
    (arg3 : Memref sig .tc .vmem S4096x64 .f32) (harg3 : arg3.IsWhole)
    (arg4 : Memref sig .tc .vmem S1024x64 .f32) (harg4 : arg4.IsWhole)
    (arg5 : Memref sig .tc .vmem S1024x64 .f32) (harg5 : arg5.IsWhole)
    (hcA : ¬condA_bot i) (hcB : condB_bot i)
    (xw : Vec F S1024x4096 .bf16) (xx : Vec F S4096x64 .f32) (xs : Vec F S1024x64 .f32)
    (E : Set ℕ) (K : PUnit → sProp 𝕄) :
    iprop(owns (c : Thread nD τ) arg2 fullShare xw ∗ owns (c : Thread nD τ) arg3 fullShare xx
        ∗ (∃ d, owns (c : Thread nD τ) arg4 fullShare d) ∗ owns (c : Thread nD τ) arg5 fullShare xs
        ∗ (iprop(owns (c : Thread nD τ) arg2 fullShare xw ∗ owns (c : Thread nD τ) arg3 fullShare xx
            ∗ owns (c : Thread nD τ) arg4 fullShare (k2_pay2 xx xs xw)
            ∗ owns (c : Thread nD τ) arg5 fullShare (k2_pay2 xx xs xw)) -∗ K ⟨⟩))
      ⊢ wp frame (wpE (defs₀ (F := F)) Variants.none c none) E (kern i arg2 harg2 arg3 harg3 arg4 harg4 arg5 harg5) K := by
  subst hkern
  simp only [cc2__prop_bottom_kernel_eq_skeleton]; unfold cc2__prop_bottom_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hcA | exact hcB)
  sl_step
  iapply Hk
  unfold runB_bot.sl.v17 runB_bot.sl.HS_1
  rw [readAt_zero harg3 offZero, readAt_zero harg2 offZero, readAt_zero harg5 offZero,
    View.readCov_cons_toLoadRect]
  isplitl [H0]
  · iexists _; isplitr; · ipureintro; exact hf0
    iexact H0
  isplitl [H1]
  · iexists _; isplitr; · ipureintro; exact hf1
    iexact H1
  isplitl [H2]
  · iexists _; isplitr
    swap; · iexact H2
    ipureintro; exact read_store_zero _ _ offZero _ _ _
  iexists _; isplitr
  swap; · iexact HS
  ipureintro; exact read_store_zero _ _ offZero _ _ _

end Cert.KernelIdeal.Hand

end
-- ==== Proof.KI.Body2.lean ====
import proofs.«161291_j15487652069895_1_alg».proof.Proof.KI.Dat2
import proofs.«161291_j15487652069895_1_alg».proof.Proof.KI.Bottom

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r2 : ∀ t : Fin cfg2.N, cfg2.idle 0 (grid2.coords t) = false ∧ cfg2.idle 1 (grid2.coords t) = false
    ∧ (t.val % 2 = 0 → cfg2.idle 2 (grid2.coords t) = true ∧ (cfg2.win 2).flush t = false)
    ∧ (t.val % 2 = 1 → cfg2.idle 2 (grid2.coords t) = false) := by decide +kernel

theorem PhiA_eq_r2 (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

theorem before_r2_0 (c : Dev nD) (t : Fin cfg2.N) (d) : (dat2 V c).before 0 t d = iblk2 V c 0 t := by
  rw [(dat2 V c).before_fetched 0 t (fetch2_0 t) d]
  unfold Dat.fetched Dat.blockOf iblk2
  rw [dat2_A]; try rfl

theorem before_r2_1 (c : Dev nD) (t : Fin cfg2.N) (d) : (dat2 V c).before 1 t d = iblk2 V c 1 t := by
  rw [(dat2 V c).before_fetched 1 t (fetch2_1 t) d]
  unfold Dat.fetched Dat.blockOf iblk2
  rw [dat2_A]; try rfl

def bodyPre_r2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost_r2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The body at any point: at an even point the accumulator restarts from zero and the output block is left as found; at an odd point the product is added to what the point before left and stored to the output block. -/
theorem sound_body_r2 (c : Dev nD) (t : Fin cfg2.N) :
    bodyPre_r2 V c t ⊢ wp frame (wpE (defs₀ (F := F)) Variants.none c none) Set.univ (bodyAt2 t) (fun _ => bodyPost_r2 V c t) := by
  obtain ⟨hl0, hl1, hev, hod⟩ := sched_r2 t
  unfold bodyPre_r2 bodyPost_r2 bodyAt2
  simp only [before_r2_0, before_r2_1]
  rw [show (dat2 V c).owesAt () t.succ = (dat2 V c).owesAt () t.castSucc from rfl,
    show (dat2 V c).Φ t.succ
      = iprop(owns (c : Thread nD τ) scM2 fullShare (acc2 V c t.val t.isLt) ∗ restOf (F := F) spec2 cc2_scratch0 c) from rfl,
    show (dat2 V c).Φ t.castSucc = Phi2 V c t.val (Nat.le_of_lt t.isLt) from rfl,
    show (dat2 V c).leavesExact 0 t = owns (c : Thread nD τ) (st2_0 t) fullShare (iblk2 V c 0 t) from by
      unfold Dat.leavesExact; rw [hl0, dat2_after0],
    show (dat2 V c).leavesExact 1 t = owns (c : Thread nD τ) (st2_1 t) fullShare (iblk2 V c 1 t) from by
      unfold Dat.leavesExact; rw [hl1, dat2_after1]]
  by_cases hk : t.val % 2 = 0
  · have hA : condA_bot (grid2.coords t) := (hcondA_bot t).mpr hk
    have hB : ¬condB_bot (grid2.coords t) := fun h => by have := (hcondB_bot t).mp h; omega
    rw [Dat.leavesExact_idle (dat2 V c) 2 t (hev hk).1 (hev hk).2,
      show acc2 V c t.val t.isLt = _ from accOf_even _ _ t hk]
    iintro ⟨HΦ, Ho, ⟨%d0, H0⟩, ⟨%d1, H1⟩, ⟨%d2, H2⟩⟩
    ihave HΦ' := (PhiOf_some _ _ _ _ c (PhiA_eq_r2 c) t.val (Nat.le_of_lt t.isLt)) $$ HΦ
    icases HΦ' with ⟨HS, HR⟩
    iapply (runA_bot cc2__prop_bottom_kernel rfl c (grid2.coords t) _ _ _ _ _ _ _ _ hA hB (wblk2 V c t) (xblk2 V c t) _ Set.univ _)
    iframe H0 H1 H2 HS
    iintro ⟨H0, H1, H2, HS⟩
    iframe HS HR Ho H0 H1
    iexists _; iexact H2
  · have hk1 : t.val % 2 = 1 := by omega
    have hz : t.val ≠ 0 := fun h => by rw [h] at hk1; omega
    have hA : ¬condA_bot (grid2.coords t) := fun h => hk ((hcondA_bot t).mp h)
    have hB : condB_bot (grid2.coords t) := (hcondB_bot t).mpr hk1
    rw [show (dat2 V c).leavesExact 2 t = owns (c : Thread nD τ) (st2_2 t) fullShare (acc2 V c t.val t.isLt) from by
          unfold Dat.leavesExact; rw [hod hk1, dat2_after2],
      show Phi2 V c t.val _ = _ from PhiOf_pos _ _ _ _ c _ _ hz,
      show acc2 V c t.val t.isLt = k2_pay2 (xblk2 V c t) (acc2 V c (t.val - 1) _) (wblk2 V c t) from accOf_odd _ _ t hk1]
    iintro ⟨⟨HS, HR⟩, Ho, ⟨%d0, H0⟩, ⟨%d1, H1⟩, ⟨%d2, H2⟩⟩
    iapply (runB_bot cc2__prop_bottom_kernel rfl c (grid2.coords t) _ _ _ _ _ _ _ _ hA hB (wblk2 V c t) (xblk2 V c t) _ Set.univ _)
    iframe H0 H1 HS
    isplitl [H2]; · iexists _; iexact H2
    iintro ⟨H0, H1, H2, HS⟩
    iframe

theorem body_obligation2 (c : Dev nD) :
    BodyObligation (dat2 (F := F) V c) (defs₀ (F := F)) Variants.none () Set.univ := fun t => by
  rw [bigSep_W2, bigSep_W2]
  exact sound_body_r2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) :=
  PhiOf_out spec2 cc2_scratch0 scM2 (acc2 V c) c (PhiA_eq_r2 c)

end Cert.KernelIdeal.Hand

end
-- ==== Proof.KI.Top.lean ====
import proofs.«161291_j15487652069895_1_alg».proof.Proof.KI.Common

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condReset_top (i : grid3.Coords) : Prop :=
  (Scalar.cmpi .ne (Scalar.extui (Scalar.cmpi .eq (BitVec.ofNat 32 (i 1).val) 0#32)) 0#32) = 1#1

theorem hcondReset_top : ∀ t : Fin cfg3.N, condReset_top (grid3.coords t) ↔ t.val % 2 = 0 :=
  (by decide +kernel : ∀ t : Fin grid3.N, condReset_top (grid3.coords t) ↔ t.val % 2 = 0)

abbrev condStore_top (i : grid3.Coords) : Prop := k3_cond2 i = 1#1

theorem hcondStore_top : ∀ t : Fin cfg3.N, condStore_top (grid3.coords t) ↔ t.val % 2 = 1 :=
  (by decide +kernel : ∀ t : Fin grid3.N, condStore_top (grid3.coords t) ↔ t.val % 2 = 1)

/-- A first reduction step zeroes the accumulator and adds the product of the point's blocks (the weights' leading axis contracted) to it; for any function equal to this kernel. -/
theorem run_reset_top (kern : type_of% (cc3__prop_top_kernel (F := F))) (hkern : kern = cc3__prop_top_kernel)
    (c : Dev nD) (i : grid3.Coords)
    (aW : Memref sig .tc .vmem S2048x2048 .bf16) (haW : aW.IsWhole)
    (aX : Memref sig .tc .vmem S2048x64 .f32) (haX : aX.IsWhole)
    (aO : Memref sig .tc .vmem S2048x64 .f32) (haO : aO.IsWhole)
    (aS : Memref sig .tc .vmem S2048x64 .f32) (haS : aS.IsWhole)
    (hc1 : condReset_top i) (hc2 : ¬condStore_top i)
    (xw : Vec F S2048x2048 .bf16) (xx : Vec F S2048x64 .f32) (xo : Vec F S2048x64 .f32)
    (E : Set ℕ) (K : PUnit → sProp 𝕄) :
    iprop(owns (c : Thread nD τ) aW fullShare xw ∗ owns (c : Thread nD τ) aX fullShare xx
        ∗ owns (c : Thread nD τ) aO fullShare xo ∗ (∃ d, owns (c : Thread nD τ) aS fullShare d)
        ∗ (iprop(owns (c : Thread nD τ) aW fullShare xw ∗ owns (c : Thread nD τ) aX fullShare xx
            ∗ owns (c : Thread nD τ) aO fullShare xo
            ∗ owns (c : Thread nD τ) aS fullShare (k3_pay2 xx xw (k3_pay1 (F := F)))) -∗ K ⟨⟩))
      ⊢ wp frame (wpE (defs₀ (F := F)) Variants.none c none) E
          (kern i aW haW aX haX aO haO aS haS) K := by
  subst hkern
  simp only [cc3__prop_top_kernel_eq_skeleton]; unfold cc3__prop_top_kernel_skel
  unfold owns
  iintro ⟨⟨%fW, %hfW, HW⟩, ⟨%fX, %hfX, HX⟩, ⟨%fO, %hfO, HO⟩, ⟨%dS, %fS, -, HS⟩, Hk⟩
  obtain rfl := haW.eq_unread hfW; obtain rfl := haX.eq_unread hfX; obtain rfl := haO.eq_unread hfO
  sl_exec (disch := first | exact hc1 | exact hc2)
  sl_step
  iapply Hk
  isplitl [HW]
  · iexists _; isplitr; · ipureintro; exact haW.read_unread _
    iexact HW
  isplitl [HX]
  · iexists _; isplitr; · ipureintro; exact haX.read_unread _
    iexact HX
  isplitl [HO]
  · iexists _; isplitr; · ipureintro; exact haO.read_unread _
    iexact HO
  iexists _; isplitr
  swap; · iexact HS
  ipureintro
  sl_unfold_run_names
  rw [read_store_zero _ _ offZero]
  simp only [View.readAt_eq_ld, haW.read_unread, haX.read_unread, haS.read_unread,
    View.ld_unit_zero (S := S2048x64) offZero, View.ld_unit_zero (S := S2048x2048) offZero,
    View.readCov_unit_zero (S := S2048x64) _ offZero]

/-- A last reduction step adds the point's product to the accumulator and stores the sum to the output block as well. -/
theorem run_store_top (kern : type_of% (cc3__prop_top_kernel (F := F))) (hkern : kern = cc3__prop_top_kernel)
    (c : Dev nD) (i : grid3.Coords)
    (aW : Memref sig .tc .vmem S2048x2048 .bf16) (haW : aW.IsWhole)
    (aX : Memref sig .tc .vmem S2048x64 .f32) (haX : aX.IsWhole)
    (aO : Memref sig .tc .vmem S2048x64 .f32) (haO : aO.IsWhole)
    (aS : Memref sig .tc .vmem S2048x64 .f32) (haS : aS.IsWhole)
    (hc1 : ¬condReset_top i) (hc2 : condStore_top i)
    (xw : Vec F S2048x2048 .bf16) (xx : Vec F S2048x64 .f32) (xa : Vec F S2048x64 .f32)
    (E : Set ℕ) (K : PUnit → sProp 𝕄) :
    iprop(owns (c : Thread nD τ) aW fullShare xw ∗ owns (c : Thread nD τ) aX fullShare xx
        ∗ (∃ d, owns (c : Thread nD τ) aO fullShare d) ∗ owns (c : Thread nD τ) aS fullShare xa
        ∗ (iprop(owns (c : Thread nD τ) aW fullShare xw ∗ owns (c : Thread nD τ) aX fullShare xx
            ∗ owns (c : Thread nD τ) aO fullShare (k3_pay2 xx xw xa)
            ∗ owns (c : Thread nD τ) aS fullShare (k3_pay2 xx xw xa)) -∗ K ⟨⟩))
      ⊢ wp frame (wpE (defs₀ (F := F)) Variants.none c none) E
          (kern i aW haW aX haX aO haO aS haS) K := by
  subst hkern
  simp only [cc3__prop_top_kernel_eq_skeleton]; unfold cc3__prop_top_kernel_skel
  unfold owns
  iintro ⟨⟨%fW, %hfW, HW⟩, ⟨%fX, %hfX, HX⟩, ⟨%dO, %fO, -, HO⟩, ⟨%fS, %hfS, HS⟩, Hk⟩
  obtain rfl := haW.eq_unread hfW; obtain rfl := haX.eq_unread hfX; obtain rfl := haS.eq_unread hfS
  sl_exec (disch := first | exact hc1 | exact hc2)
  sl_step
  iapply Hk
  isplitl [HW]
  · iexists _; isplitr; · ipureintro; exact haW.read_unread _
    iexact HW
  isplitl [HX]
  · iexists _; isplitr; · ipureintro; exact haX.read_unread _
    iexact HX
  isplitl [HO]
  · iexists _; isplitr
    swap; · iexact HO
    ipureintro
    sl_unfold_run_names
    rw [read_store_zero _ _ offZero]
    simp only [View.readAt_eq_ld, haW.read_unread, haX.read_unread, haS.read_unread,
    View.ld_unit_zero (S := S2048x64) offZero, View.ld_unit_zero (S := S2048x2048) offZero,
    View.readCov_unit_zero (S := S2048x64) _ offZero]
  iexists _; isplitr
  swap; · iexact HS
  ipureintro
  sl_unfold_run_names
  rw [read_store_zero _ _ offZero]
  simp only [View.readAt_eq_ld, haW.read_unread, haX.read_unread, haS.read_unread,
    View.ld_unit_zero (S := S2048x64) offZero, View.ld_unit_zero (S := S2048x2048) offZero,
    View.readCov_unit_zero (S := S2048x64) _ offZero]

end Cert.KernelIdeal.Hand

end
-- ==== Proof.KI.Body3.lean ====
import proofs.«161291_j15487652069895_1_alg».proof.Proof.KI.Dat3
import proofs.«161291_j15487652069895_1_alg».proof.Proof.KI.Top

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r3 : ∀ t : Fin cfg3.N, cfg3.idle 0 (grid3.coords t) = false ∧ cfg3.idle 1 (grid3.coords t) = false
    ∧ (t.val % 2 = 0 → cfg3.idle 2 (grid3.coords t) = true ∧ (cfg3.win 2).flush t = false)
    ∧ (t.val % 2 = 1 → cfg3.idle 2 (grid3.coords t) = false) := by decide +kernel

theorem beforeW_r3 (c : Dev nD) (t : Fin cfg3.N) (d) : (dat3 V c).before 0 t d = iblk3 V c 0 t :=
  ((dat3 V c).before_in_eq_fetched 0 rfl (fun _ => rfl) (fun _ _ _ => rfl)
    (fun t => by rw [dat3_after0]; unfold Dat.blockOf iblk3; rw [dat3_A]; try rfl) t d).trans
    (by unfold Dat.fetched Dat.blockOf iblk3; rw [dat3_A]; try rfl)

theorem beforeX_r3 (c : Dev nD) (t : Fin cfg3.N) (d) : (dat3 V c).before 1 t d = iblk3 V c 1 t :=
  ((dat3 V c).before_in_eq_fetched 1 rfl (fun _ => rfl) (fun _ _ _ => rfl)
    (fun t => by rw [dat3_after1]; unfold Dat.blockOf iblk3; rw [dat3_A]; try rfl) t d).trans
    (by unfold Dat.fetched Dat.blockOf iblk3; rw [dat3_A]; try rfl)

theorem PhiA_eq_r3 (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

abbrev mW_r3 (t : Fin cfg3.N) : Memref sig .tc .vmem S2048x2048 .bf16 := win3_0.stage (cfg3.slots t 0)
abbrev hW_r3 (t : Fin cfg3.N) : (mW_r3 t).IsWhole := hstage3_0 ((cfg3.slots t 0).cast nbuf3_0)
abbrev mX_r3 (t : Fin cfg3.N) : Memref sig .tc .vmem S2048x64 .f32 := win3_1.stage (cfg3.slots t 1)
abbrev hX_r3 (t : Fin cfg3.N) : (mX_r3 t).IsWhole := hstage3_1 ((cfg3.slots t 1).cast nbuf3_1)
abbrev mO_r3 (t : Fin cfg3.N) : Memref sig .tc .vmem S2048x64 .f32 := win3_2.stage (cfg3.slots t 2)
abbrev hO_r3 (t : Fin cfg3.N) : (mO_r3 t).IsWhole := hstage3_2 ((cfg3.slots t 2).cast nbuf3_2)

def bodyPre_r3 (c : Dev nD) (t : Fin cfg3.N) : sProp 𝕄 :=
  iprop((dat3 V c).Φ t.castSucc ∗ (dat3 V c).owesAt () t.castSucc
    ∗ (∃ d, owns (c : Thread nD τ) (mW_r3 t) fullShare ((dat3 V c).before 0 t d))
    ∗ (∃ d, owns (c : Thread nD τ) (mX_r3 t) fullShare ((dat3 V c).before 1 t d))
    ∗ (∃ d, owns (c : Thread nD τ) (mO_r3 t) fullShare ((dat3 V c).before 2 t d)))

def bodyPost_r3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

/-- The body at any point: at an even point the accumulator restarts from zero and the output block is left as found; at an odd point the product is added to what the point before left and stored to the output block. -/
theorem sound_body_r3 (c : Dev nD) (t : Fin cfg3.N) :
    bodyPre_r3 V c t ⊢ wp frame (wpE (defs₀ (F := F)) Variants.none c none) Set.univ (bodyAt3 t)
      (fun _ => bodyPost_r3 V c t) := by
  obtain ⟨hl0, hl1, hev, hod⟩ := sched_r3 t
  unfold bodyPre_r3 bodyPost_r3 bodyAt3
  simp only [beforeW_r3, beforeX_r3]
  rw [show (dat3 V c).owesAt () t.succ = (dat3 V c).owesAt () t.castSucc from rfl,
    show (dat3 V c).Φ t.succ
      = iprop(owns (c : Thread nD τ) scM3 fullShare (acc3 V c t.val t.isLt) ∗ restOf (F := F) spec3 cc3_scratch0 c) from rfl,
    show (dat3 V c).Φ t.castSucc = Phi3 V c t.val (Nat.le_of_lt t.isLt) from rfl,
    show (dat3 V c).leavesExact 0 t = owns (c : Thread nD τ) (mW_r3 t) fullShare (iblk3 V c 0 t) from by
      unfold Dat.leavesExact; rw [hl0, dat3_after0],
    show (dat3 V c).leavesExact 1 t = owns (c : Thread nD τ) (mX_r3 t) fullShare (iblk3 V c 1 t) from by
      unfold Dat.leavesExact; rw [hl1, dat3_after1]]
  by_cases h0 : t.val % 2 = 0
  · have hc1 : condReset_top (grid3.coords t) := (hcondReset_top t).mpr h0
    have hc2 : ¬condStore_top (grid3.coords t) := fun h => by have := (hcondStore_top t).mp h; omega
    rw [Dat.leavesExact_idle (dat3 V c) 2 t (hev h0).1 (hev h0).2,
      show acc3 V c t.val t.isLt = _ from accOf_even _ _ t h0]
    iintro ⟨HΦ, Ho, ⟨%dW, HW⟩, ⟨%dX, HX⟩, ⟨%dO, HO⟩⟩
    ihave HΦ' := (PhiOf_some _ _ _ _ c (PhiA_eq_r3 c) t.val (Nat.le_of_lt t.isLt)) $$ HΦ
    icases HΦ' with ⟨HS, HR⟩
    iapply (run_reset_top cc3__prop_top_kernel rfl c (grid3.coords t) _ _ _ _ _ _ _ _ hc1 hc2 (wblk3 V c t) (xblk3 V c t) _ Set.univ _)
    iframe HW HX HO HS
    iintro ⟨HW, HX, HO, HS⟩
    iframe HS HR Ho HW HX
    iexists _; iexact HO
  · have h1 : t.val % 2 = 1 := by omega
    have hz : t.val ≠ 0 := by omega
    have hc1 : ¬condReset_top (grid3.coords t) := fun h => h0 ((hcondReset_top t).mp h)
    have hc2 : condStore_top (grid3.coords t) := (hcondStore_top t).mpr h1
    rw [show (dat3 V c).leavesExact 2 t = owns (c : Thread nD τ) (mO_r3 t) fullShare (acc3 V c t.val t.isLt) from by
          unfold Dat.leavesExact; rw [hod h1, dat3_after2],
      show Phi3 V c t.val _ = _ from PhiOf_pos _ _ _ _ c _ _ hz,
      show acc3 V c t.val t.isLt = k3_pay2 (xblk3 V c t) (wblk3 V c t) (acc3 V c (t.val - 1) _) from accOf_odd _ _ t h1]
    iintro ⟨⟨HS, HR⟩, Ho, ⟨%dW, HW⟩, ⟨%dX, HX⟩, ⟨%dO, HO⟩⟩
    iapply (run_store_top cc3__prop_top_kernel rfl c (grid3.coords t) _ _ _ _ _ _ _ _ hc1 hc2 (wblk3 V c t) (xblk3 V c t) _ Set.univ _)
    iframe HW HX HS
    isplitl [HO]; · iexists _; iexact HO
    iintro ⟨HW, HX, HO, HS⟩
    iframe

theorem body_obligation3 (c : Dev nD) :
    BodyObligation (dat3 (F := F) V c) (defs₀ (F := F)) Variants.none () Set.univ := fun t => by
  rw [bigSep_W3, bigSep_W3]
  exact sound_body_r3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) :=
  PhiOf_out spec3 cc3_scratch0 scM3 (acc3 V c) c (PhiA_eq_r3 c)

end Cert.KernelIdeal.Hand

end
-- ==== Proof.KI.Body4.lean ====
import proofs.«161291_j15487652069895_1_alg».proof.Proof.KI.Dat4
import proofs.«161291_j15487652069895_1_alg».proof.Proof.KI.Bottom

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r4 : ∀ t : Fin cfg4.N, cfg4.idle 0 (grid4.coords t) = false ∧ cfg4.idle 1 (grid4.coords t) = false
    ∧ (t.val % 2 = 0 → cfg4.idle 2 (grid4.coords t) = true ∧ (cfg4.win 2).flush t = false)
    ∧ (t.val % 2 = 1 → cfg4.idle 2 (grid4.coords t) = false) := by decide +kernel

theorem PhiA_eq_r4 (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; rfl

theorem before_r4_0 (c : Dev nD) (t : Fin cfg4.N) (d) : (dat4 V c).before 0 t d = iblk4 V c 0 t := by
  rw [(dat4 V c).before_fetched 0 t (fetch4_0 t) d]
  unfold Dat.fetched Dat.blockOf iblk4
  rw [dat4_A]; try rfl

theorem before_r4_1 (c : Dev nD) (t : Fin cfg4.N) (d) : (dat4 V c).before 1 t d = iblk4 V c 1 t := by
  rw [(dat4 V c).before_fetched 1 t (fetch4_1 t) d]
  unfold Dat.fetched Dat.blockOf iblk4
  rw [dat4_A]; try rfl

def bodyPre_r4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost_r4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The body at any point: at an even point the accumulator restarts from zero and the output block is left as found; at an odd point the product is added to what the point before left and stored to the output block. -/
theorem sound_body_r4 (c : Dev nD) (t : Fin cfg4.N) :
    bodyPre_r4 V c t ⊢ wp frame (wpE (defs₀ (F := F)) Variants.none c none) Set.univ (bodyAt4 t) (fun _ => bodyPost_r4 V c t) := by
  obtain ⟨hl0, hl1, hev, hod⟩ := sched_r4 t
  unfold bodyPre_r4 bodyPost_r4 bodyAt4
  simp only [before_r4_0, before_r4_1]
  rw [show (dat4 V c).owesAt () t.succ = (dat4 V c).owesAt () t.castSucc from rfl,
    show (dat4 V c).Φ t.succ
      = iprop(owns (c : Thread nD τ) scM4 fullShare (acc4 V c t.val t.isLt) ∗ restOf (F := F) spec4 cc4_scratch0 c) from rfl,
    show (dat4 V c).Φ t.castSucc = Phi4 V c t.val (Nat.le_of_lt t.isLt) from rfl,
    show (dat4 V c).leavesExact 0 t = owns (c : Thread nD τ) (st4_0 t) fullShare (iblk4 V c 0 t) from by
      unfold Dat.leavesExact; rw [hl0, dat4_after0],
    show (dat4 V c).leavesExact 1 t = owns (c : Thread nD τ) (st4_1 t) fullShare (iblk4 V c 1 t) from by
      unfold Dat.leavesExact; rw [hl1, dat4_after1]]
  by_cases hk : t.val % 2 = 0
  · have hA : condA_bot (grid4.coords t) := (hcondA_bot t).mpr hk
    have hB : ¬condB_bot (grid4.coords t) := fun h => by have := (hcondB_bot t).mp h; omega
    rw [Dat.leavesExact_idle (dat4 V c) 2 t (hev hk).1 (hev hk).2,
      show acc4 V c t.val t.isLt = _ from accOf_even _ _ t hk]
    iintro ⟨HΦ, Ho, ⟨%d0, H0⟩, ⟨%d1, H1⟩, ⟨%d2, H2⟩⟩
    ihave HΦ' := (PhiOf_some _ _ _ _ c (PhiA_eq_r4 c) t.val (Nat.le_of_lt t.isLt)) $$ HΦ
    icases HΦ' with ⟨HS, HR⟩
    iapply (runA_bot cc4__prop_bottom_kernel rfl c (grid4.coords t) _ _ _ _ _ _ _ _ hA hB (wblk4 V c t) (xblk4 V c t) _ Set.univ _)
    iframe H0 H1 H2 HS
    iintro ⟨H0, H1, H2, HS⟩
    iframe HS HR Ho H0 H1
    iexists _; iexact H2
  · have hk1 : t.val % 2 = 1 := by omega
    have hz : t.val ≠ 0 := fun h => by rw [h] at hk1; omega
    have hA : ¬condA_bot (grid4.coords t) := fun h => hk ((hcondA_bot t).mp h)
    have hB : condB_bot (grid4.coords t) := (hcondB_bot t).mpr hk1
    rw [show (dat4 V c).leavesExact 2 t = owns (c : Thread nD τ) (st4_2 t) fullShare (acc4 V c t.val t.isLt) from by
          unfold Dat.leavesExact; rw [hod hk1, dat4_after2],
      show Phi4 V c t.val _ = _ from PhiOf_pos _ _ _ _ c _ _ hz,
      show acc4 V c t.val t.isLt = k2_pay2 (xblk4 V c t) (acc4 V c (t.val - 1) _) (wblk4 V c t) from accOf_odd _ _ t hk1]
    iintro ⟨⟨HS, HR⟩, Ho, ⟨%d0, H0⟩, ⟨%d1, H1⟩, ⟨%d2, H2⟩⟩
    iapply (runB_bot cc4__prop_bottom_kernel rfl c (grid4.coords t) _ _ _ _ _ _ _ _ hA hB (wblk4 V c t) (xblk4 V c t) _ Set.univ _)
    iframe H0 H1 HS
    isplitl [H2]; · iexists _; iexact H2
    iintro ⟨H0, H1, H2, HS⟩
    iframe

theorem body_obligation4 (c : Dev nD) :
    BodyObligation (dat4 (F := F) V c) (defs₀ (F := F)) Variants.none () Set.univ := fun t => by
  rw [bigSep_W4, bigSep_W4]
  exact sound_body_r4 V c t

theorem hin4 (c : Dev nD) : (Pipeline.ΦA spec4 c : sProp 𝕄) ⊢ (dat4 V c).Φ 0 := .rfl

theorem hout4 (c : Dev nD) : (dat4 V c).Φ (Fin.last cfg4.N) ⊢ (Pipeline.ΦA spec4 c : sProp 𝕄) :=
  PhiOf_out spec4 cc4_scratch0 scM4 (acc4 V c) c (PhiA_eq_r4 c)

end Cert.KernelIdeal.Hand

end
-- ==== Proof.KI.Body5.lean ====
import proofs.«161291_j15487652069895_1_alg».proof.Proof.KI.Dat5
import proofs.«161291_j15487652069895_1_alg».proof.Proof.KI.Top

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r5 : ∀ t : Fin cfg5.N, cfg5.idle 0 (grid5.coords t) = false ∧ cfg5.idle 1 (grid5.coords t) = false
    ∧ (t.val % 2 = 0 → cfg5.idle 2 (grid5.coords t) = true ∧ (cfg5.win 2).flush t = false)
    ∧ (t.val % 2 = 1 → cfg5.idle 2 (grid5.coords t) = false) := by decide +kernel

theorem beforeW_r5 (c : Dev nD) (t : Fin cfg5.N) (d) : (dat5 V c).before 0 t d = iblk5 V c 0 t :=
  ((dat5 V c).before_in_eq_fetched 0 rfl (fun _ => rfl) (fun _ _ _ => rfl)
    (fun t => by rw [dat5_after0]; unfold Dat.blockOf iblk5; rw [dat5_A]; try rfl) t d).trans
    (by unfold Dat.fetched Dat.blockOf iblk5; rw [dat5_A]; try rfl)

theorem beforeX_r5 (c : Dev nD) (t : Fin cfg5.N) (d) : (dat5 V c).before 1 t d = iblk5 V c 1 t :=
  ((dat5 V c).before_in_eq_fetched 1 rfl (fun _ => rfl) (fun _ _ _ => rfl)
    (fun t => by rw [dat5_after1]; unfold Dat.blockOf iblk5; rw [dat5_A]; try rfl) t d).trans
    (by unfold Dat.fetched Dat.blockOf iblk5; rw [dat5_A]; try rfl)

theorem PhiA_eq_r5 (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

abbrev mW_r5 (t : Fin cfg5.N) : Memref sig .tc .vmem S2048x2048 .bf16 := win5_0.stage (cfg5.slots t 0)
abbrev hW_r5 (t : Fin cfg5.N) : (mW_r5 t).IsWhole := hstage5_0 ((cfg5.slots t 0).cast nbuf5_0)
abbrev mX_r5 (t : Fin cfg5.N) : Memref sig .tc .vmem S2048x64 .f32 := win5_1.stage (cfg5.slots t 1)
abbrev hX_r5 (t : Fin cfg5.N) : (mX_r5 t).IsWhole := hstage5_1 ((cfg5.slots t 1).cast nbuf5_1)
abbrev mO_r5 (t : Fin cfg5.N) : Memref sig .tc .vmem S2048x64 .f32 := win5_2.stage (cfg5.slots t 2)
abbrev hO_r5 (t : Fin cfg5.N) : (mO_r5 t).IsWhole := hstage5_2 ((cfg5.slots t 2).cast nbuf5_2)

def bodyPre_r5 (c : Dev nD) (t : Fin cfg5.N) : sProp 𝕄 :=
  iprop((dat5 V c).Φ t.castSucc ∗ (dat5 V c).owesAt () t.castSucc
    ∗ (∃ d, owns (c : Thread nD τ) (mW_r5 t) fullShare ((dat5 V c).before 0 t d))
    ∗ (∃ d, owns (c : Thread nD τ) (mX_r5 t) fullShare ((dat5 V c).before 1 t d))
    ∗ (∃ d, owns (c : Thread nD τ) (mO_r5 t) fullShare ((dat5 V c).before 2 t d)))

def bodyPost_r5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

/-- The body at any point: at an even point the accumulator restarts from zero and the output block is left as found; at an odd point the product is added to what the point before left and stored to the output block. -/
theorem sound_body_r5 (c : Dev nD) (t : Fin cfg5.N) :
    bodyPre_r5 V c t ⊢ wp frame (wpE (defs₀ (F := F)) Variants.none c none) Set.univ (bodyAt5 t)
      (fun _ => bodyPost_r5 V c t) := by
  obtain ⟨hl0, hl1, hev, hod⟩ := sched_r5 t
  unfold bodyPre_r5 bodyPost_r5 bodyAt5
  simp only [beforeW_r5, beforeX_r5]
  rw [show (dat5 V c).owesAt () t.succ = (dat5 V c).owesAt () t.castSucc from rfl,
    show (dat5 V c).Φ t.succ
      = iprop(owns (c : Thread nD τ) scM5 fullShare (acc5 V c t.val t.isLt) ∗ restOf (F := F) spec5 cc5_scratch0 c) from rfl,
    show (dat5 V c).Φ t.castSucc = Phi5 V c t.val (Nat.le_of_lt t.isLt) from rfl,
    show (dat5 V c).leavesExact 0 t = owns (c : Thread nD τ) (mW_r5 t) fullShare (iblk5 V c 0 t) from by
      unfold Dat.leavesExact; rw [hl0, dat5_after0],
    show (dat5 V c).leavesExact 1 t = owns (c : Thread nD τ) (mX_r5 t) fullShare (iblk5 V c 1 t) from by
      unfold Dat.leavesExact; rw [hl1, dat5_after1]]
  by_cases h0 : t.val % 2 = 0
  · have hc1 : condReset_top (grid5.coords t) := (hcondReset_top t).mpr h0
    have hc2 : ¬condStore_top (grid5.coords t) := fun h => by have := (hcondStore_top t).mp h; omega
    rw [Dat.leavesExact_idle (dat5 V c) 2 t (hev h0).1 (hev h0).2,
      show acc5 V c t.val t.isLt = _ from accOf_even _ _ t h0]
    iintro ⟨HΦ, Ho, ⟨%dW, HW⟩, ⟨%dX, HX⟩, ⟨%dO, HO⟩⟩
    ihave HΦ' := (PhiOf_some _ _ _ _ c (PhiA_eq_r5 c) t.val (Nat.le_of_lt t.isLt)) $$ HΦ
    icases HΦ' with ⟨HS, HR⟩
    iapply (run_reset_top cc5__prop_top_kernel rfl c (grid5.coords t) _ _ _ _ _ _ _ _ hc1 hc2 (wblk5 V c t) (xblk5 V c t) _ Set.univ _)
    iframe HW HX HO HS
    iintro ⟨HW, HX, HO, HS⟩
    iframe HS HR Ho HW HX
    iexists _; iexact HO
  · have h1 : t.val % 2 = 1 := by omega
    have hz : t.val ≠ 0 := by omega
    have hc1 : ¬condReset_top (grid5.coords t) := fun h => h0 ((hcondReset_top t).mp h)
    have hc2 : condStore_top (grid5.coords t) := (hcondStore_top t).mpr h1
    rw [show (dat5 V c).leavesExact 2 t = owns (c : Thread nD τ) (mO_r5 t) fullShare (acc5 V c t.val t.isLt) from by
          unfold Dat.leavesExact; rw [hod h1, dat5_after2],
      show Phi5 V c t.val _ = _ from PhiOf_pos _ _ _ _ c _ _ hz,
      show acc5 V c t.val t.isLt = k3_pay2 (xblk5 V c t) (wblk5 V c t) (acc5 V c (t.val - 1) _) from accOf_odd _ _ t h1]
    iintro ⟨⟨HS, HR⟩, Ho, ⟨%dW, HW⟩, ⟨%dX, HX⟩, ⟨%dO, HO⟩⟩
    iapply (run_store_top cc5__prop_top_kernel rfl c (grid5.coords t) _ _ _ _ _ _ _ _ hc1 hc2 (wblk5 V c t) (xblk5 V c t) _ Set.univ _)
    iframe HW HX HS
    isplitl [HO]; · iexists _; iexact HO
    iintro ⟨HW, HX, HO, HS⟩
    iframe

theorem body_obligation5 (c : Dev nD) :
    BodyObligation (dat5 (F := F) V c) (defs₀ (F := F)) Variants.none () Set.univ := fun t => by
  rw [bigSep_W5, bigSep_W5]
  exact sound_body_r5 V c t

theorem hin5 (c : Dev nD) : (Pipeline.ΦA spec5 c : sProp 𝕄) ⊢ (dat5 V c).Φ 0 := .rfl

theorem hout5 (c : Dev nD) : (dat5 V c).Φ (Fin.last cfg5.N) ⊢ (Pipeline.ΦA spec5 c : sProp 𝕄) :=
  PhiOf_out spec5 cc5_scratch0 scM5 (acc5 V c) c (PhiA_eq_r5 c)

end Cert.KernelIdeal.Hand

end
-- ==== Proof.KI.Body6.lean ====
import proofs.«161291_j15487652069895_1_alg».proof.Proof.KI.Dat6
import proofs.«161291_j15487652069895_1_alg».proof.Proof.KI.Bottom

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r6 : ∀ t : Fin cfg6.N, cfg6.idle 0 (grid6.coords t) = false ∧ cfg6.idle 1 (grid6.coords t) = false
    ∧ (t.val % 2 = 0 → cfg6.idle 2 (grid6.coords t) = true ∧ (cfg6.win 2).flush t = false)
    ∧ (t.val % 2 = 1 → cfg6.idle 2 (grid6.coords t) = false) := by decide +kernel

theorem PhiA_eq_r6 (c : Dev nD) :
    (Pipeline.ΦA spec6 c : sProp 𝕄)
      = iprop(iprop(iprop((∃ d, owns (c : Thread nD τ) scM6 fullShare d))
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [scM6, owns_whole]; rfl

theorem before_r6_0 (c : Dev nD) (t : Fin cfg6.N) (d) : (dat6 V c).before 0 t d = iblk6 V c 0 t := by
  rw [(dat6 V c).before_fetched 0 t (fetch6_0 t) d]
  unfold Dat.fetched Dat.blockOf iblk6
  rw [dat6_A]; try rfl

theorem before_r6_1 (c : Dev nD) (t : Fin cfg6.N) (d) : (dat6 V c).before 1 t d = iblk6 V c 1 t := by
  rw [(dat6 V c).before_fetched 1 t (fetch6_1 t) d]
  unfold Dat.fetched Dat.blockOf iblk6
  rw [dat6_A]; try rfl

def bodyPre_r6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost_r6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

/-- The body at any point: at an even point the accumulator restarts from zero and the output block is left as found; at an odd point the product is added to what the point before left and stored to the output block. -/
theorem sound_body_r6 (c : Dev nD) (t : Fin cfg6.N) :
    bodyPre_r6 V c t ⊢ wp frame (wpE (defs₀ (F := F)) Variants.none c none) Set.univ (bodyAt6 t) (fun _ => bodyPost_r6 V c t) := by
  obtain ⟨hl0, hl1, hev, hod⟩ := sched_r6 t
  unfold bodyPre_r6 bodyPost_r6 bodyAt6
  simp only [before_r6_0, before_r6_1]
  rw [show (dat6 V c).owesAt () t.succ = (dat6 V c).owesAt () t.castSucc from rfl,
    show (dat6 V c).Φ t.succ
      = iprop(owns (c : Thread nD τ) scM6 fullShare (acc6 V c t.val t.isLt) ∗ restOf (F := F) spec6 cc6_scratch0 c) from rfl,
    show (dat6 V c).Φ t.castSucc = Phi6 V c t.val (Nat.le_of_lt t.isLt) from rfl,
    show (dat6 V c).leavesExact 0 t = owns (c : Thread nD τ) (st6_0 t) fullShare (iblk6 V c 0 t) from by
      unfold Dat.leavesExact; rw [hl0, dat6_after0],
    show (dat6 V c).leavesExact 1 t = owns (c : Thread nD τ) (st6_1 t) fullShare (iblk6 V c 1 t) from by
      unfold Dat.leavesExact; rw [hl1, dat6_after1]]
  by_cases hk : t.val % 2 = 0
  · have hA : condA_bot (grid6.coords t) := (hcondA_bot t).mpr hk
    have hB : ¬condB_bot (grid6.coords t) := fun h => by have := (hcondB_bot t).mp h; omega
    rw [Dat.leavesExact_idle (dat6 V c) 2 t (hev hk).1 (hev hk).2,
      show acc6 V c t.val t.isLt = _ from accOf_even _ _ t hk]
    iintro ⟨HΦ, Ho, ⟨%d0, H0⟩, ⟨%d1, H1⟩, ⟨%d2, H2⟩⟩
    ihave HΦ' := (PhiOf_some _ _ _ _ c (PhiA_eq_r6 c) t.val (Nat.le_of_lt t.isLt)) $$ HΦ
    icases HΦ' with ⟨HS, HR⟩
    iapply (runA_bot cc6__prop_bottom_kernel rfl c (grid6.coords t) _ _ _ _ _ _ _ _ hA hB (wblk6 V c t) (xblk6 V c t) _ Set.univ _)
    iframe H0 H1 H2 HS
    iintro ⟨H0, H1, H2, HS⟩
    iframe HS HR Ho H0 H1
    iexists _; iexact H2
  · have hk1 : t.val % 2 = 1 := by omega
    have hz : t.val ≠ 0 := fun h => by rw [h] at hk1; omega
    have hA : ¬condA_bot (grid6.coords t) := fun h => hk ((hcondA_bot t).mp h)
    have hB : condB_bot (grid6.coords t) := (hcondB_bot t).mpr hk1
    rw [show (dat6 V c).leavesExact 2 t = owns (c : Thread nD τ) (st6_2 t) fullShare (acc6 V c t.val t.isLt) from by
          unfold Dat.leavesExact; rw [hod hk1, dat6_after2],
      show Phi6 V c t.val _ = _ from PhiOf_pos _ _ _ _ c _ _ hz,
      show acc6 V c t.val t.isLt = k2_pay2 (xblk6 V c t) (acc6 V c (t.val - 1) _) (wblk6 V c t) from accOf_odd _ _ t hk1]
    iintro ⟨⟨HS, HR⟩, Ho, ⟨%d0, H0⟩, ⟨%d1, H1⟩, ⟨%d2, H2⟩⟩
    iapply (runB_bot cc6__prop_bottom_kernel rfl c (grid6.coords t) _ _ _ _ _ _ _ _ hA hB (wblk6 V c t) (xblk6 V c t) _ Set.univ _)
    iframe H0 H1 HS
    isplitl [H2]; · iexists _; iexact H2
    iintro ⟨H0, H1, H2, HS⟩
    iframe

theorem body_obligation6 (c : Dev nD) :
    BodyObligation (dat6 (F := F) V c) (defs₀ (F := F)) Variants.none () Set.univ := fun t => by
  rw [bigSep_W6, bigSep_W6]
  exact sound_body_r6 V c t

theorem hin6 (c : Dev nD) : (Pipeline.ΦA spec6 c : sProp 𝕄) ⊢ (dat6 V c).Φ 0 := .rfl

theorem hout6 (c : Dev nD) : (dat6 V c).Φ (Fin.last cfg6.N) ⊢ (Pipeline.ΦA spec6 c : sProp 𝕄) :=
  PhiOf_out spec6 cc6_scratch0 scM6 (acc6 V c) c (PhiA_eq_r6 c)

end Cert.KernelIdeal.Hand

end
-- ==== Proof.KI.Body7.lean ====
import proofs.«161291_j15487652069895_1_alg».proof.Proof.KI.Dat7
import proofs.«161291_j15487652069895_1_alg».proof.Proof.KI.Top

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : Vals F)

theorem sched_r7 : ∀ t : Fin cfg7.N, cfg7.idle 0 (grid7.coords t) = false ∧ cfg7.idle 1 (grid7.coords t) = false
    ∧ (t.val % 2 = 0 → cfg7.idle 2 (grid7.coords t) = true ∧ (cfg7.win 2).flush t = false)
    ∧ (t.val % 2 = 1 → cfg7.idle 2 (grid7.coords t) = false) := by decide +kernel

theorem beforeW_r7 (c : Dev nD) (t : Fin cfg7.N) (d) : (dat7 V c).before 0 t d = iblk7 V c 0 t :=
  ((dat7 V c).before_in_eq_fetched 0 rfl (fun _ => rfl) (fun _ _ _ => rfl)
    (fun t => by rw [dat7_after0]; unfold Dat.blockOf iblk7; rw [dat7_A]; try rfl) t d).trans
    (by unfold Dat.fetched Dat.blockOf iblk7; rw [dat7_A]; try rfl)

theorem beforeX_r7 (c : Dev nD) (t : Fin cfg7.N) (d) : (dat7 V c).before 1 t d = iblk7 V c 1 t :=
  ((dat7 V c).before_in_eq_fetched 1 rfl (fun _ => rfl) (fun _ _ _ => rfl)
    (fun t => by rw [dat7_after1]; unfold Dat.blockOf iblk7; rw [dat7_A]; try rfl) t d).trans
    (by unfold Dat.fetched Dat.blockOf iblk7; rw [dat7_A]; try rfl)

theorem PhiA_eq_r7 (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

abbrev mW_r7 (t : Fin cfg7.N) : Memref sig .tc .vmem S2048x2048 .bf16 := win7_0.stage (cfg7.slots t 0)
abbrev hW_r7 (t : Fin cfg7.N) : (mW_r7 t).IsWhole := hstage7_0 ((cfg7.slots t 0).cast nbuf7_0)
abbrev mX_r7 (t : Fin cfg7.N) : Memref sig .tc .vmem S2048x64 .f32 := win7_1.stage (cfg7.slots t 1)
abbrev hX_r7 (t : Fin cfg7.N) : (mX_r7 t).IsWhole := hstage7_1 ((cfg7.slots t 1).cast nbuf7_1)
abbrev mO_r7 (t : Fin cfg7.N) : Memref sig .tc .vmem S2048x64 .f32 := win7_2.stage (cfg7.slots t 2)
abbrev hO_r7 (t : Fin cfg7.N) : (mO_r7 t).IsWhole := hstage7_2 ((cfg7.slots t 2).cast nbuf7_2)

def bodyPre_r7 (c : Dev nD) (t : Fin cfg7.N) : sProp 𝕄 :=
  iprop((dat7 V c).Φ t.castSucc ∗ (dat7 V c).owesAt () t.castSucc
    ∗ (∃ d, owns (c : Thread nD τ) (mW_r7 t) fullShare ((dat7 V c).before 0 t d))
    ∗ (∃ d, owns (c : Thread nD τ) (mX_r7 t) fullShare ((dat7 V c).before 1 t d))
    ∗ (∃ d, owns (c : Thread nD τ) (mO_r7 t) fullShare ((dat7 V c).before 2 t d)))

def bodyPost_r7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

/-- The body at any point: at an even point the accumulator restarts from zero and the output block is left as found; at an odd point the product is added to what the point before left and stored to the output block. -/
theorem sound_body_r7 (c : Dev nD) (t : Fin cfg7.N) :
    bodyPre_r7 V c t ⊢ wp frame (wpE (defs₀ (F := F)) Variants.none c none) Set.univ (bodyAt7 t)
      (fun _ => bodyPost_r7 V c t) := by
  obtain ⟨hl0, hl1, hev, hod⟩ := sched_r7 t
  unfold bodyPre_r7 bodyPost_r7 bodyAt7
  simp only [beforeW_r7, beforeX_r7]
  rw [show (dat7 V c).owesAt () t.succ = (dat7 V c).owesAt () t.castSucc from rfl,
    show (dat7 V c).Φ t.succ
      = iprop(owns (c : Thread nD τ) scM7 fullShare (acc7 V c t.val t.isLt) ∗ restOf (F := F) spec7 cc7_scratch0 c) from rfl,
    show (dat7 V c).Φ t.castSucc = Phi7 V c t.val (Nat.le_of_lt t.isLt) from rfl,
    show (dat7 V c).leavesExact 0 t = owns (c : Thread nD τ) (mW_r7 t) fullShare (iblk7 V c 0 t) from by
      unfold Dat.leavesExact; rw [hl0, dat7_after0],
    show (dat7 V c).leavesExact 1 t = owns (c : Thread nD τ) (mX_r7 t) fullShare (iblk7 V c 1 t) from by
      unfold Dat.leavesExact; rw [hl1, dat7_after1]]
  by_cases h0 : t.val % 2 = 0
  · have hc1 : condReset_top (grid7.coords t) := (hcondReset_top t).mpr h0
    have hc2 : ¬condStore_top (grid7.coords t) := fun h => by have := (hcondStore_top t).mp h; omega
    rw [Dat.leavesExact_idle (dat7 V c) 2 t (hev h0).1 (hev h0).2,
      show acc7 V c t.val t.isLt = _ from accOf_even _ _ t h0]
    iintro ⟨HΦ, Ho, ⟨%dW, HW⟩, ⟨%dX, HX⟩, ⟨%dO, HO⟩⟩
    ihave HΦ' := (PhiOf_some _ _ _ _ c (PhiA_eq_r7 c) t.val (Nat.le_of_lt t.isLt)) $$ HΦ
    icases HΦ' with ⟨HS, HR⟩
    iapply (run_reset_top cc7__prop_top_kernel rfl c (grid7.coords t) _ _ _ _ _ _ _ _ hc1 hc2 (wblk7 V c t) (xblk7 V c t) _ Set.univ _)
    iframe HW HX HO HS
    iintro ⟨HW, HX, HO, HS⟩
    iframe HS HR Ho HW HX
    iexists _; iexact HO
  · have h1 : t.val % 2 = 1 := by omega
    have hz : t.val ≠ 0 := by omega
    have hc1 : ¬condReset_top (grid7.coords t) := fun h => h0 ((hcondReset_top t).mp h)
    have hc2 : condStore_top (grid7.coords t) := (hcondStore_top t).mpr h1
    rw [show (dat7 V c).leavesExact 2 t = owns (c : Thread nD τ) (mO_r7 t) fullShare (acc7 V c t.val t.isLt) from by
          unfold Dat.leavesExact; rw [hod h1, dat7_after2],
      show Phi7 V c t.val _ = _ from PhiOf_pos _ _ _ _ c _ _ hz,
      show acc7 V c t.val t.isLt = k3_pay2 (xblk7 V c t) (wblk7 V c t) (acc7 V c (t.val - 1) _) from accOf_odd _ _ t h1]
    iintro ⟨⟨HS, HR⟩, Ho, ⟨%dW, HW⟩, ⟨%dX, HX⟩, ⟨%dO, HO⟩⟩
    iapply (run_store_top cc7__prop_top_kernel rfl c (grid7.coords t) _ _ _ _ _ _ _ _ hc1 hc2 (wblk7 V c t) (xblk7 V c t) _ Set.univ _)
    iframe HW HX HS
    isplitl [HO]; · iexists _; iexact HO
    iintro ⟨HW, HX, HO, HS⟩
    iframe

theorem body_obligation7 (c : Dev nD) :
    BodyObligation (dat7 (F := F) V c) (defs₀ (F := F)) Variants.none () Set.univ := fun t => by
  rw [bigSep_W7, bigSep_W7]
  exact sound_body_r7 V c t

theorem hin7 (c : Dev nD) : (Pipeline.ΦA spec7 c : sProp 𝕄) ⊢ (dat7 V c).Φ 0 := .rfl

theorem hout7 (c : Dev nD) : (dat7 V c).Φ (Fin.last cfg7.N) ⊢ (Pipeline.ΦA spec7 c : sProp 𝕄) :=
  PhiOf_out spec7 cc7_scratch0 scM7 (acc7 V c) c (PhiA_eq_r7 c)

end Cert.KernelIdeal.Hand

end
-- ==== Proof.KI.Run.lean ====
import proofs.«161291_j15487652069895_1_alg».proof.Proof.KI.Vals
import proofs.«161291_j15487652069895_1_alg».proof.Proof.KI.Body0
import proofs.«161291_j15487652069895_1_alg».proof.Proof.KI.Body1
import proofs.«161291_j15487652069895_1_alg».proof.Proof.KI.Body2
import proofs.«161291_j15487652069895_1_alg».proof.Proof.KI.Body3
import proofs.«161291_j15487652069895_1_alg».proof.Proof.KI.Body4
import proofs.«161291_j15487652069895_1_alg».proof.Proof.KI.Body5
import proofs.«161291_j15487652069895_1_alg».proof.Proof.KI.Body6
import proofs.«161291_j15487652069895_1_alg».proof.Proof.KI.Body7
import proofs.«161291_j15487652069895_1_alg».proof.Proof.Gen.KernelIdeal.Regions
import Idealize.ShloMosaic.Lib.Pipeline.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def pdats : (p : Fin 8) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
  | ⟨3, _⟩ => fun c => dat3 (V4 m) c
  | ⟨4, _⟩ => fun c => dat4 (V6 m) c
  | ⟨5, _⟩ => fun c => dat5 (V7 m) c
  | ⟨6, _⟩ => fun c => dat6 (V9 m) c
  | ⟨7, _⟩ => fun c => dat7 (V10 m) c

abbrev 𝒱₀ : Variants := Variants.none

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 :=
  iprop(StableHlo.held (c : Thread nD τ) (Pipeline.ucRefs τ sig) (W12 m c) ∗ ∃ r, prngReg c r)

set_option backward.isDefEq.respectTransparency.types false in

/-- A region as a segment of the program's run, from its body obligation and the contents before and after it. -/
def regOf (p : Fin 8) (lf : Pipeline.LaunchFacts (nD := nD) (τ := τ) cfgs p)
    (Wi Wo : Dev nD → Valuation τ sig (Elt F))
    (hq : ∀ c w, (pdats m p c).q w = fullShare) (howed : ∀ c t, (pdats m p c).owed t = 0)
    (hrec : ∀ c, (pdats m p c).recorded 0 = Set.univ)
    (hA : ∀ c w, (pdats m p c).A w = Wi c (Proc.devRef .tc (Pipeline.arrRef (Pipeline.pin (pcfgs (F := F)) adm p).spec w)))
    (hbody : ∀ c, BodyObligation (pdats m p c) (defs₀ (F := F)) 𝒱₀ () Set.univ)
    (hin : ∀ c, (Pipeline.ΦA (Pipeline.pin (pcfgs (F := F)) adm p).spec c : sProp 𝕄) ⊢ (pdats m p c).Φ 0)
    (hout : ∀ c, (pdats m p c).Φ (Fin.last (Pipeline.pin (pcfgs (F := F)) adm p).N)
      ⊢ (Pipeline.ΦA (Pipeline.pin (pcfgs (F := F)) adm p).spec c : sProp 𝕄))
    (hF : ∀ c w, (pdats m p c).arrAt w (Pipeline.pin (pcfgs (F := F)) adm p).N
      = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Wi c (Proc.devRef .tc b))
  hentry c := by

    rw [Pipeline.ownSems0_none]
    unfold Pipeline.Dat.owesAt Pipeline.owesWithin
    rw [howed c 0]
    have hsplit := Pipeline.arrays_of_unscopedBufs (p := p) (pcfgs (F := F)) adm (pdats m) lf.win lf.arr_whole c
      ((pdats m p c).share_full (hq c)) (fun b => Wi c (Proc.devRef .tc b)) (hA c)
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Hdebt]
    · icases Hdebt with ⟨%W, Hdebt⟩
      iexists W
      isplitr; · ipureintro; exact fun _ _ => Or.inl (by rw [hrec c]; exact Set.mem_univ _)
      iexact Hdebt
    isplitl [Hreg]; · iexact Hreg
    iexact Hrest
  hin c := by

    refine BIBase.Entails.trans ?_ (hin c)
    unfold Pipeline.ΦA
    iintro ⟨Hreg, -, Hsc⟩
    isplitl [Hsc]; · iexact Hsc
    iexact Hreg
  hout c := by

    rw [Pipeline.ownSems0_none]
    refine BIBase.Entails.trans (hout c) ?_
    unfold Pipeline.ΦA
    iintro ⟨Hsc, Hreg⟩
    isplitl [Hreg]; · iexact Hreg
    isplitr; · iempintro
    iexact Hsc
  hexit c := by

    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c (Proc.devRef .tc b)) (fun b => Wo c (Proc.devRef .tc b))
      ((pdats m p c).arrAt · (Pipeline.pin (pcfgs (F := F)) adm p).N) (hF c) (hrest c)
    rw [Pipeline.unscopedBufs_held] at hjoin
    unfold Pipeline.Dat.owesAt Pipeline.owesWithin
    rw [howed c (Fin.last _)]
    iintro ⟨Harr, Hdebt, Hreg, Hrest⟩
    imodintro
    isplitl [Harr Hrest]
    · iapply hjoin; isplitl [Harr] <;> iassumption
    isplitl [Hreg]; · iexact Hreg
    icases Hdebt with ⟨%W, -, Hdebt⟩
    iexists W; iexact Hdebt

set_option backward.isDefEq.respectTransparency.types false in

def reg0 : Pipeline.RegionSeg (pcfgs (F := F)) adm (pdats m) () defs₀ 𝒱₀ L lv 0 :=
  regOf m 0 launch0 (W0 m) (W1 m) (fun _ _ => rfl) (fun _ _ => rfl) (fun _ => rfl) (fun _ _ => rfl)
    (body_obligation0 (V0 m)) (hin0 (V0 m)) (hout0 (V0 m)) (fun c w => (W1_arr m c w).symm) (fun c b hb => W1_of_ne m c b (ne_of_notMem hb))

set_option backward.isDefEq.respectTransparency.types false in

def reg1 : Pipeline.RegionSeg (pcfgs (F := F)) adm (pdats m) () defs₀ 𝒱₀ L lv 1 :=
  regOf m 1 launch1 (W1 m) (W2 m) (fun _ _ => rfl) (fun _ _ => rfl) (fun _ => rfl) (fun _ _ => rfl)
    (body_obligation1 (V1 m)) (hin1 (V1 m)) (hout1 (V1 m)) (fun c w => (W2_arr m c w).symm) (fun c b hb => W2_of_ne m c b (ne_of_notMem hb))

set_option backward.isDefEq.respectTransparency.types false in

def reg2 : Pipeline.RegionSeg (pcfgs (F := F)) adm (pdats m) () defs₀ 𝒱₀ L lv 2 :=
  regOf m 2 launch2 (W3 m) (W4 m) (fun _ _ => rfl) (fun _ _ => rfl) (fun _ => rfl) (fun _ _ => rfl)
    (body_obligation2 (V3 m)) (hin2 (V3 m)) (hout2 (V3 m)) (fun c w => (W4_arr m c w).symm) (fun c b hb => W4_of_ne m c b (ne_of_notMem hb))

set_option backward.isDefEq.respectTransparency.types false in

def reg3 : Pipeline.RegionSeg (pcfgs (F := F)) adm (pdats m) () defs₀ 𝒱₀ L lv 3 :=
  regOf m 3 launch3 (W4 m) (W5 m) (fun _ _ => rfl) (fun _ _ => rfl) (fun _ => rfl) (fun _ _ => rfl)
    (body_obligation3 (V4 m)) (hin3 (V4 m)) (hout3 (V4 m)) (fun c w => (W5_arr m c w).symm) (fun c b hb => W5_of_ne m c b (ne_of_notMem hb))

set_option backward.isDefEq.respectTransparency.types false in

def reg4 : Pipeline.RegionSeg (pcfgs (F := F)) adm (pdats m) () defs₀ 𝒱₀ L lv 4 :=
  regOf m 4 launch4 (W6 m) (W7 m) (fun _ _ => rfl) (fun _ _ => rfl) (fun _ => rfl) (fun _ _ => rfl)
    (body_obligation4 (V6 m)) (hin4 (V6 m)) (hout4 (V6 m)) (fun c w => (W7_arr m c w).symm) (fun c b hb => W7_of_ne m c b (ne_of_notMem hb))

set_option backward.isDefEq.respectTransparency.types false in

def reg5 : Pipeline.RegionSeg (pcfgs (F := F)) adm (pdats m) () defs₀ 𝒱₀ L lv 5 :=
  regOf m 5 launch5 (W7 m) (W8 m) (fun _ _ => rfl) (fun _ _ => rfl) (fun _ => rfl) (fun _ _ => rfl)
    (body_obligation5 (V7 m)) (hin5 (V7 m)) (hout5 (V7 m)) (fun c w => (W8_arr m c w).symm) (fun c b hb => W8_of_ne m c b (ne_of_notMem hb))

set_option backward.isDefEq.respectTransparency.types false in

def reg6 : Pipeline.RegionSeg (pcfgs (F := F)) adm (pdats m) () defs₀ 𝒱₀ L lv 6 :=
  regOf m 6 launch6 (W9 m) (W10 m) (fun _ _ => rfl) (fun _ _ => rfl) (fun _ => rfl) (fun _ _ => rfl)
    (body_obligation6 (V9 m)) (hin6 (V9 m)) (hout6 (V9 m)) (fun c w => (W10_arr m c w).symm) (fun c b hb => W10_of_ne m c b (ne_of_notMem hb))

set_option backward.isDefEq.respectTransparency.types false in

def reg7 : Pipeline.RegionSeg (pcfgs (F := F)) adm (pdats m) () defs₀ 𝒱₀ L lv 7 :=
  regOf m 7 launch7 (W10 m) (W11 m) (fun _ _ => rfl) (fun _ _ => rfl) (fun _ => rfl) (fun _ _ => rfl)
    (body_obligation7 (V10 m)) (hin7 (V10 m)) (hout7 (V10 m)) (fun c w => (W11_arr m c w).symm) (fun c b hb => W11_of_ne m c b (ne_of_notMem hb))

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .region (reg3 m),
    .host (hseg hostOps4 hostOps4_sub hostOps4_fresh (W5 m)),
    .region (reg4 m),
    .region (reg5 m),
    .host (hseg hostOps6 hostOps6_sub hostOps6_fresh (W8 m)),
    .region (reg6 m),
    .region (reg7 m),
    .host (hseg hostOps8 hostOps8_sub hostOps8_fresh (W11 m)) ]

theorem main_run (c : Dev nD) : main (F := F) c = Pipeline.Seg.run (segs m) :=
  (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by

      rw [ownU_emb₁, BI.bigSep_emp_const]
      iintro Hu
      imodintro
      isplitl [Hu]; · iexact Hu
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl,

      fun c => by
        show iprop(StableHlo.held (c : Thread nD τ) (Pipeline.ucRefs τ sig) (W12 m c) ∗ R c) ⊢ _
        iintro ⟨Hbufs, Hreg, Hdebt⟩
        isplitl [Hbufs Hreg]
        · isplitl [Hbufs] <;> iassumption
        iexact Hdebt⟩)
    (hinit := by

      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W12 m c b)
    (hfin := fun c s' => by

      iintro ⟨⟨Hbufs, -⟩, Hst⟩
      unfold StableHlo.held
      imodintro
      iapply (pointsTo_read_all (Pipeline.ucRefs τ sig) (fun b => (((c : Thread nD τ)).1, b)) (W12 m c) s')
      isplitl [Hbufs] <;> iassumption)
    (hQ := fun s h => h)

theorem W12_main_arg0 (c : Dev nD) : W12 m c (Proc.devRef .tc main_arg0) = m ((c : Thread nD τ).loc main_arg0) :=
  (StableHlo.after_of_writes_sub hostOps8 _ hostOps8_writes (by decide)).trans <|
  (W11_of_ne m c main_arg0 (by decide)).trans <|
  (W10_of_ne m c main_arg0 (by decide)).trans <|
  (StableHlo.after_of_writes_sub hostOps6 _ hostOps6_writes (by decide)).trans <|
  (W8_of_ne m c main_arg0 (by decide)).trans <|
  (W7_of_ne m c main_arg0 (by decide)).trans <|
  (StableHlo.after_of_writes_sub hostOps4 _ hostOps4_writes (by decide)).trans <|
  (W5_of_ne m c main_arg0 (by decide)).trans <|
  (W4_of_ne m c main_arg0 (by decide)).trans <|
  (StableHlo.after_of_writes_sub hostOps2 _ hostOps2_writes (by decide)).trans <|
  (W2_of_ne m c main_arg0 (by decide)).trans <|
  (W1_of_ne m c main_arg0 (by decide)).trans rfl

theorem W12_main_arg1 (c : Dev nD) : W12 m c (Proc.devRef .tc main_arg1) = m ((c : Thread nD τ).loc main_arg1) :=
  (StableHlo.after_of_writes_sub hostOps8 _ hostOps8_writes (by decide)).trans <|
  (W11_of_ne m c main_arg1 (by decide)).trans <|
  (W10_of_ne m c main_arg1 (by decide)).trans <|
  (StableHlo.after_of_writes_sub hostOps6 _ hostOps6_writes (by decide)).trans <|
  (W8_of_ne m c main_arg1 (by decide)).trans <|
  (W7_of_ne m c main_arg1 (by decide)).trans <|
  (StableHlo.after_of_writes_sub hostOps4 _ hostOps4_writes (by decide)).trans <|
  (W5_of_ne m c main_arg1 (by decide)).trans <|
  (W4_of_ne m c main_arg1 (by decide)).trans <|
  (StableHlo.after_of_writes_sub hostOps2 _ hostOps2_writes (by decide)).trans <|
  ((W2_arr m c 0).trans (((dat1 (V1 m) c).arrAt_in 0 rfl cfg1.N).trans (dat1_A (V1 m) c 0))).trans <|
  ((W1_arr m c 0).trans (((dat0 (V0 m) c).arrAt_in 0 rfl cfg0.N).trans (dat0_A (V0 m) c 0))).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W12_main_arg0 m c),
     (h c _ (mem_uc main_arg1 (by decide))).trans (W12_main_arg1 m c)⟩) (run_all m ρ)

end Cert.KernelIdeal.Hand

end
-- ==== Proof.RefRead.lean ====
import proofs.«161291_j15487652069895_1_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S4096x8192, .i32⟩ : BufTy).Contents (Elt F)) : (⟨S4096x8192, .f32⟩ : BufTy).Contents (Elt F) :=
  sitofp (F := F) .f32 (x1)
theorem val_main_v0_apply (x1 : (⟨S4096x8192, .i32⟩ : BufTy).Contents (Elt F)) (i : S4096x8192.Idx) :
    val_main_v0 (F := F) x1 i = FloatOps.sitofp (F := F) .f32 (x1 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v1 (x1 : (⟨S4096x8192, .i32⟩ : BufTy).Contents (Elt F)) : (⟨S4096, .f32⟩ : BufTy).Contents (Elt F) :=
  Host.reduceAdd (val_main_v0 (F := F) x1) (val_main_cst (F := F)) reducesTo_S4096x8192_S4096_d1 h_S_
abbrev idx_main_v1 (i : S4096.Idx) (k : Fin 8192) : S4096x8192.Idx := fun a => match a with
  | ⟨0, _⟩ => ⟨(i 0).val, (i 0).isLt⟩
  | ⟨1, _⟩ => ⟨k.val, k.isLt⟩

theorem val_main_v1_apply (x1 : (⟨S4096x8192, .i32⟩ : BufTy).Contents (Elt Ideal)) (i : S4096.Idx) :
    val_main_v1 (F := Ideal) x1 i = (val_main_cst (F := Ideal)) (Shape.Idx.first h_S_) + ∑ k : Fin 8192, (val_main_v0 (F := Ideal) x1) (idx_main_v1 i k) := by
  unfold val_main_v1
  generalize val_main_v0 (F := Ideal) x1 = y0
  simp only [Host.reduceAdd, Ideal.hostReduceAdd_def]
  rw [Ideal.hostReduceAdd_single reducesTo_S4096x8192_S4096_d1 (by decide)]
  refine congrArg (_ + ·) (Finset.sum_congr rfl fun k _ => ?_)
  exact congrArg y0 (funext fun a => Fin.ext (by match a with | ⟨0, _⟩ => rfl | ⟨1, _⟩ => rfl))

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v2 (x1 : (⟨S4096x8192, .i32⟩ : BufTy).Contents (Elt F)) : (⟨S8192, .f32⟩ : BufTy).Contents (Elt F) :=
  Host.reduceAdd (val_main_v0 (F := F) x1) (val_main_cst_0 (F := F)) reducesTo_S4096x8192_S8192_d0 h_S_
abbrev idx_main_v2 (i : S8192.Idx) (k : Fin 4096) : S4096x8192.Idx := fun a => match a with
  | ⟨0, _⟩ => ⟨k.val, k.isLt⟩
  | ⟨1, _⟩ => ⟨(i 0).val, (i 0).isLt⟩

theorem val_main_v2_apply (x1 : (⟨S4096x8192, .i32⟩ : BufTy).Contents (Elt Ideal)) (i : S8192.Idx) :
    val_main_v2 (F := Ideal) x1 i = (val_main_cst_0 (F := Ideal)) (Shape.Idx.first h_S_) + ∑ k : Fin 4096, (val_main_v0 (F := Ideal) x1) (idx_main_v2 i k) := by
  unfold val_main_v2
  generalize val_main_v0 (F := Ideal) x1 = y0
  simp only [Host.reduceAdd, Ideal.hostReduceAdd_def]
  rw [Ideal.hostReduceAdd_single reducesTo_S4096x8192_S8192_d0 (by decide)]
  refine congrArg (_ + ·) (Finset.sum_congr rfl fun k _ => ?_)
  exact congrArg y0 (funext fun a => Fin.ext (by match a with | ⟨0, _⟩ => rfl | ⟨1, _⟩ => rfl))

def val_main_v3 (x1 : (⟨S4096x8192, .i32⟩ : BufTy).Contents (Elt F)) : (⟨S4096x1, .f32⟩ : BufTy).Contents (Elt F) :=
  broadcastInDim S4096x1 ![0] bcast_S4096_S4096x1_0 (val_main_v1 (F := F) x1)
abbrev idx_main_v3 (i : S4096x1.Idx) : S4096.Idx := fun a => match a with
  | ⟨0, _⟩ => ⟨(i 0).val, (i 0).isLt⟩
theorem val_main_v3_apply (x1 : (⟨S4096x8192, .i32⟩ : BufTy).Contents (Elt F)) (i : S4096x1.Idx) :
    val_main_v3 (F := F) x1 i = val_main_v1 (F := F) x1 (idx_main_v3 i) := by
  unfold val_main_v3
  generalize val_main_v1 (F := F) x1 = y
  exact broadcastInDim_apply _ bcast_S4096_S4096x1_0 y i (idx_main_v3 i) (fun a => match a with
    | ⟨0, _⟩ => by show (i 0).val = if (4096 : Nat) = 1 then 0 else (i 0).val; rw [if_neg (by decide)])

def val_main_v4 (x1 : (⟨S4096x8192, .i32⟩ : BufTy).Contents (Elt F)) : (⟨S1x8192, .f32⟩ : BufTy).Contents (Elt F) :=
  broadcastInDim S1x8192 ![1] bcast_S8192_S1x8192_1 (val_main_v2 (F := F) x1)
abbrev idx_main_v4 (i : S1x8192.Idx) : S8192.Idx := fun a => match a with
  | ⟨0, _⟩ => ⟨(i 1).val, (i 1).isLt⟩
theorem val_main_v4_apply (x1 : (⟨S4096x8192, .i32⟩ : BufTy).Contents (Elt F)) (i : S1x8192.Idx) :
    val_main_v4 (F := F) x1 i = val_main_v2 (F := F) x1 (idx_main_v4 i) := by
  unfold val_main_v4
  generalize val_main_v2 (F := F) x1 = y
  exact broadcastInDim_apply _ bcast_S8192_S1x8192_1 y i (idx_main_v4 i) (fun a => match a with
    | ⟨0, _⟩ => by show (i 1).val = if (8192 : Nat) = 1 then 0 else (i 1).val; rw [if_neg (by decide)])

def val_main_v5 (x1 : (⟨S4096x8192, .i32⟩ : BufTy).Contents (Elt F)) : (⟨S4096x8192, .f32⟩ : BufTy).Contents (Elt F) :=
  broadcastInDim S4096x8192 ![0, 1] bcast_S4096x1_S4096x8192_0_1 (val_main_v3 (F := F) x1)
abbrev idx_main_v5 (i : S4096x8192.Idx) : S4096x1.Idx := fun a => match a with
  | ⟨0, _⟩ => ⟨(i 0).val, (i 0).isLt⟩
  | ⟨1, _⟩ => ⟨0, Nat.one_pos⟩
theorem val_main_v5_apply (x1 : (⟨S4096x8192, .i32⟩ : BufTy).Contents (Elt F)) (i : S4096x8192.Idx) :
    val_main_v5 (F := F) x1 i = val_main_v3 (F := F) x1 (idx_main_v5 i) := by
  unfold val_main_v5
  generalize val_main_v3 (F := F) x1 = y
  exact broadcastInDim_apply _ bcast_S4096x1_S4096x8192_0_1 y i (idx_main_v5 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v6 (x1 : (⟨S4096x8192, .i32⟩ : BufTy).Contents (Elt F)) : (⟨S4096x8192, .f32⟩ : BufTy).Contents (Elt F) :=
  broadcastInDim S4096x8192 ![0, 1] bcast_S1x8192_S4096x8192_0_1 (val_main_v4 (F := F) x1)
abbrev idx_main_v6 (i : S4096x8192.Idx) : S1x8192.Idx := fun a => match a with
  | ⟨0, _⟩ => ⟨0, Nat.one_pos⟩
  | ⟨1, _⟩ => ⟨(i 1).val, (i 1).isLt⟩
theorem val_main_v6_apply (x1 : (⟨S4096x8192, .i32⟩ : BufTy).Contents (Elt F)) (i : S4096x8192.Idx) :
    val_main_v6 (F := F) x1 i = val_main_v4 (F := F) x1 (idx_main_v6 i) := by
  unfold val_main_v6
  generalize val_main_v4 (F := F) x1 = y
  exact broadcastInDim_apply _ bcast_S1x8192_S4096x8192_0_1 y i (idx_main_v6 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v7 (x1 : (⟨S4096x8192, .i32⟩ : BufTy).Contents (Elt F)) : (⟨S4096x8192, .f32⟩ : BufTy).Contents (Elt F) :=
  mulf (val_main_v5 (F := F) x1) (val_main_v6 (F := F) x1)
theorem val_main_v7_apply (x1 : (⟨S4096x8192, .i32⟩ : BufTy).Contents (Elt F)) (i : S4096x8192.Idx) :
    val_main_v7 (F := F) x1 i = FloatOps.mulf (val_main_v5 (F := F) x1 i) (val_main_v6 (F := F) x1 i) := rfl

def val_main_v8 (x1 : (⟨S4096x8192, .i32⟩ : BufTy).Contents (Elt F)) : (⟨S4096x8192, .f32⟩ : BufTy).Contents (Elt F) :=
  Host.sqrt (val_main_v7 (F := F) x1)
theorem val_main_v8_apply (x1 : (⟨S4096x8192, .i32⟩ : BufTy).Contents (Elt F)) (i : S4096x8192.Idx) :
    val_main_v8 (F := F) x1 i = FloatOps.hostUnary .sqrt (val_main_v7 (F := F) x1 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v9 : (⟨S4096x8192, .f32⟩ : BufTy).Contents (Elt F) :=
  broadcastInDim S4096x8192 ![] bcast_S_S4096x8192 (val_main_cst_1 (F := F))
abbrev idx_main_v9 (i : S4096x8192.Idx) : S_.Idx := fun a => a.elim0
theorem val_main_v9_apply (i : S4096x8192.Idx) :
    val_main_v9 (F := F) i = val_main_cst_1 (F := F) (idx_main_v9 i) := by
  unfold val_main_v9
  generalize val_main_cst_1 (F := F) = y
  exact broadcastInDim_apply _ bcast_S_S4096x8192 y i (idx_main_v9 i) (fun a => a.elim0)

def val_main_v10 (x1 : (⟨S4096x8192, .i32⟩ : BufTy).Contents (Elt F)) : (⟨S4096x8192, .i1⟩ : BufTy).Contents (Elt F) :=
  cmpf (F := F) .ogt (val_main_v8 (F := F) x1) (val_main_v9 (F := F))
theorem val_main_v10_apply (x1 : (⟨S4096x8192, .i32⟩ : BufTy).Contents (Elt F)) (i : S4096x8192.Idx) :
    val_main_v10 (F := F) x1 i = FloatOps.cmpf (F := F) .ogt (val_main_v8 (F := F) x1 i) (val_main_v9 (F := F) i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_v11 : (⟨S4096x8192, .f32⟩ : BufTy).Contents (Elt F) :=
  broadcastInDim S4096x8192 ![] bcast_S_S4096x8192 (val_main_cst_2 (F := F))
abbrev idx_main_v11 (i : S4096x8192.Idx) : S_.Idx := fun a => a.elim0
theorem val_main_v11_apply (i : S4096x8192.Idx) :
    val_main_v11 (F := F) i = val_main_cst_2 (F := F) (idx_main_v11 i) := by
  unfold val_main_v11
  generalize val_main_cst_2 (F := F) = y
  exact broadcastInDim_apply _ bcast_S_S4096x8192 y i (idx_main_v11 i) (fun a => a.elim0)

def val_main_v12 (x1 : (⟨S4096x8192, .i32⟩ : BufTy).Contents (Elt F)) : (⟨S4096x8192, .i1⟩ : BufTy).Contents (Elt F) :=
  cmpf (F := F) .ogt (val_main_v8 (F := F) x1) (val_main_v11 (F := F))
theorem val_main_v12_apply (x1 : (⟨S4096x8192, .i32⟩ : BufTy).Contents (Elt F)) (i : S4096x8192.Idx) :
    val_main_v12 (F := F) x1 i = FloatOps.cmpf (F := F) .ogt (val_main_v8 (F := F) x1 i) (val_main_v11 (F := F) i) := rfl

def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

def val_main_call0_v0 : (⟨S_, .f32⟩ : BufTy).Contents (Elt F) :=
  id (val_main_cst_3 (F := F))
theorem val_main_call0_v0_apply (i : S_.Idx) :
    val_main_call0_v0 (F := F) i = (val_main_cst_3 (F := F) i) := rfl

def val_main_call0_v1 : (⟨S4096x8192, .f32⟩ : BufTy).Contents (Elt F) :=
  broadcastInDim S4096x8192 ![] bcast_S_S4096x8192 (val_main_call0_v0 (F := F))
abbrev idx_main_call0_v1 (i : S4096x8192.Idx) : S_.Idx := fun a => a.elim0
theorem val_main_call0_v1_apply (i : S4096x8192.Idx) :
    val_main_call0_v1 (F := F) i = val_main_call0_v0 (F := F) (idx_main_call0_v1 i) := by
  unfold val_main_call0_v1
  generalize val_main_call0_v0 (F := F) = y
  exact broadcastInDim_apply _ bcast_S_S4096x8192 y i (idx_main_call0_v1 i) (fun a => a.elim0)

def val_main_v13 (x1 : (⟨S4096x8192, .i32⟩ : BufTy).Contents (Elt F)) : (⟨S4096x8192, .f32⟩ : BufTy).Contents (Elt F) :=
  select (val_main_v12 (F := F) x1) (val_main_v8 (F := F) x1) (val_main_call0_v1 (F := F))
theorem val_main_v13_apply (x1 : (⟨S4096x8192, .i32⟩ : BufTy).Contents (Elt F)) (i : S4096x8192.Idx) :
    val_main_v13 (F := F) x1 i = Scalar.select (val_main_v12 (F := F) x1 i) (val_main_v8 (F := F) x1 i) (val_main_call0_v1 (F := F) i) := rfl

def val_main_v14 (x1 : (⟨S4096x8192, .i32⟩ : BufTy).Contents (Elt F)) : (⟨S4096x8192, .f32⟩ : BufTy).Contents (Elt F) :=
  Host.divf (val_main_v0 (F := F) x1) (val_main_v13 (F := F) x1)
theorem val_main_v14_apply (x1 : (⟨S4096x8192, .i32⟩ : BufTy).Contents (Elt F)) (i : S4096x8192.Idx) :
    val_main_v14 (F := F) x1 i = FloatOps.hostDivf (val_main_v0 (F := F) x1 i) (val_main_v13 (F := F) x1 i) := rfl

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_call1_v0 : (⟨S_, .f32⟩ : BufTy).Contents (Elt F) :=
  id (val_main_cst_4 (F := F))
theorem val_main_call1_v0_apply (i : S_.Idx) :
    val_main_call1_v0 (F := F) i = (val_main_cst_4 (F := F) i) := rfl

def val_main_call1_v1 : (⟨S4096x8192, .f32⟩ : BufTy).Contents (Elt F) :=
  broadcastInDim S4096x8192 ![] bcast_S_S4096x8192 (val_main_call1_v0 (F := F))
abbrev idx_main_call1_v1 (i : S4096x8192.Idx) : S_.Idx := fun a => a.elim0
theorem val_main_call1_v1_apply (i : S4096x8192.Idx) :
    val_main_call1_v1 (F := F) i = val_main_call1_v0 (F := F) (idx_main_call1_v1 i) := by
  unfold val_main_call1_v1
  generalize val_main_call1_v0 (F := F) = y
  exact broadcastInDim_apply _ bcast_S_S4096x8192 y i (idx_main_call1_v1 i) (fun a => a.elim0)

def val_main_v15 (x1 : (⟨S4096x8192, .i32⟩ : BufTy).Contents (Elt F)) : (⟨S4096x8192, .f32⟩ : BufTy).Contents (Elt F) :=
  select (val_main_v10 (F := F) x1) (val_main_v14 (F := F) x1) (val_main_call1_v1 (F := F))
theorem val_main_v15_apply (x1 : (⟨S4096x8192, .i32⟩ : BufTy).Contents (Elt F)) (i : S4096x8192.Idx) :
    val_main_v15 (F := F) x1 i = Scalar.select (val_main_v10 (F := F) x1 i) (val_main_v14 (F := F) x1 i) (val_main_call1_v1 (F := F) i) := rfl

def val_main_cst_5 : (⟨S_, .f32⟩ : BufTy).Contents (Elt F) :=
  constant S_ .f32 0x00000000#32
def val_main_v16 : (⟨S12288x64, .f32⟩ : BufTy).Contents (Elt F) :=
  broadcastInDim S12288x64 ![] bcast_S_S12288x64 (val_main_cst_5 (F := F))
def val_main_v17 (x1 : (⟨S4096x8192, .i32⟩ : BufTy).Contents (Elt F)) : (⟨S8192x4096, .f32⟩ : BufTy).Contents (Elt F) :=
  transpose S8192x4096 [1, 0] (val_main_v15 (F := F) x1) transposes_S4096x8192_S8192x4096_1_0
def val_main_v18 (x0 : (⟨S12288x64, .f32⟩ : BufTy).Contents (Elt F)) : (⟨S4096x64, .f32⟩ : BufTy).Contents (Elt F) :=
  extractStridedSlice S4096x64 ![0, 0] (x0) slices_S12288x64_S4096x64_0_0
def val_main_v19 (x0 : (⟨S12288x64, .f32⟩ : BufTy).Contents (Elt F)) (x1 : (⟨S4096x8192, .i32⟩ : BufTy).Contents (Elt F)) : (⟨S8192x64, .f32⟩ : BufTy).Contents (Elt F) :=
  Host.dotGeneral dot_S8192x4096_S4096x64_S8192x64_1_0_0_1_n_n none (val_main_v17 (F := F) x1) (val_main_v18 (F := F) x0)
def val_main_v20 (x0 : (⟨S12288x64, .f32⟩ : BufTy).Contents (Elt F)) : (⟨S8192x64, .f32⟩ : BufTy).Contents (Elt F) :=
  extractStridedSlice S8192x64 ![4096, 0] (x0) slices_S12288x64_S8192x64_4096_0
def val_main_v21 (x0 : (⟨S12288x64, .f32⟩ : BufTy).Contents (Elt F)) (x1 : (⟨S4096x8192, .i32⟩ : BufTy).Contents (Elt F)) : (⟨S4096x64, .f32⟩ : BufTy).Contents (Elt F) :=
  Host.dotGeneral dot_S4096x8192_S8192x64_S4096x64_1_0_0_1_n_n none (val_main_v15 (F := F) x1) (val_main_v20 (F := F) x0)
def val_main_v22 (x0 : (⟨S12288x64, .f32⟩ : BufTy).Contents (Elt F)) (x1 : (⟨S4096x8192, .i32⟩ : BufTy).Contents (Elt F)) : (⟨S12288x64, .f32⟩ : BufTy).Contents (Elt F) :=
  concatenate S12288x64 0 [⟨S8192x64, (val_main_v19 (F := F) x0 x1)⟩, ⟨S4096x64, (val_main_v21 (F := F) x0 x1)⟩] concatenates_S8192x64_S4096x64_S12288x64_d0

def val_main_v23 (x0 : (⟨S12288x64, .f32⟩ : BufTy).Contents (Elt F)) (x1 : (⟨S4096x8192, .i32⟩ : BufTy).Contents (Elt F)) : (⟨S12288x64, .f32⟩ : BufTy).Contents (Elt F) :=
  addf (val_main_v16 (F := F)) (val_main_v22 (F := F) x0 x1)
def val_main_v24 (x1 : (⟨S4096x8192, .i32⟩ : BufTy).Contents (Elt F)) : (⟨S8192x4096, .f32⟩ : BufTy).Contents (Elt F) :=
  transpose S8192x4096 [1, 0] (val_main_v15 (F := F) x1) transposes_S4096x8192_S8192x4096_1_0
def val_main_v25 (x0 : (⟨S12288x64, .f32⟩ : BufTy).Contents (Elt F)) (x1 : (⟨S4096x8192, .i32⟩ : BufTy).Contents (Elt F)) : (⟨S4096x64, .f32⟩ : BufTy).Contents (Elt F) :=
  extractStridedSlice S4096x64 ![0, 0] (val_main_v22 (F := F) x0 x1) slices_S12288x64_S4096x64_0_0
def val_main_v26 (x0 : (⟨S12288x64, .f32⟩ : BufTy).Contents (Elt F)) (x1 : (⟨S4096x8192, .i32⟩ : BufTy).Contents (Elt F)) : (⟨S8192x64, .f32⟩ : BufTy).Contents (Elt F) :=
  Host.dotGeneral dot_S8192x4096_S4096x64_S8192x64_1_0_0_1_n_n none (val_main_v24 (F := F) x1) (val_main_v25 (F := F) x0 x1)
def val_main_v27 (x0 : (⟨S12288x64, .f32⟩ : BufTy).Contents (Elt F)) (x1 : (⟨S4096x8192, .i32⟩ : BufTy).Contents (Elt F)) : (⟨S8192x64, .f32⟩ : BufTy).Contents (Elt F) :=
  extractStridedSlice S8192x64 ![4096, 0] (val_main_v22 (F := F) x0 x1) slices_S12288x64_S8192x64_4096_0
def val_main_v28 (x0 : (⟨S12288x64, .f32⟩ : BufTy).Contents (Elt F)) (x1 : (⟨S4096x8192, .i32⟩ : BufTy).Contents (Elt F)) : (⟨S4096x64, .f32⟩ : BufTy).Contents (Elt F) :=
  Host.dotGeneral dot_S4096x8192_S8192x64_S4096x64_1_0_0_1_n_n none (val_main_v15 (F := F) x1) (val_main_v27 (F := F) x0 x1)
def val_main_v29 (x0 : (⟨S12288x64, .f32⟩ : BufTy).Contents (Elt F)) (x1 : (⟨S4096x8192, .i32⟩ : BufTy).Contents (Elt F)) : (⟨S12288x64, .f32⟩ : BufTy).Contents (Elt F) :=
  concatenate S12288x64 0 [⟨S8192x64, (val_main_v26 (F := F) x0 x1)⟩, ⟨S4096x64, (val_main_v28 (F := F) x0 x1)⟩] concatenates_S8192x64_S4096x64_S12288x64_d0

def val_main_v30 (x0 : (⟨S12288x64, .f32⟩ : BufTy).Contents (Elt F)) (x1 : (⟨S4096x8192, .i32⟩ : BufTy).Contents (Elt F)) : (⟨S12288x64, .f32⟩ : BufTy).Contents (Elt F) :=
  addf (val_main_v23 (F := F) x0 x1) (val_main_v29 (F := F) x0 x1)
def val_main_v31 (x1 : (⟨S4096x8192, .i32⟩ : BufTy).Contents (Elt F)) : (⟨S8192x4096, .f32⟩ : BufTy).Contents (Elt F) :=
  transpose S8192x4096 [1, 0] (val_main_v15 (F := F) x1) transposes_S4096x8192_S8192x4096_1_0
def val_main_v32 (x0 : (⟨S12288x64, .f32⟩ : BufTy).Contents (Elt F)) (x1 : (⟨S4096x8192, .i32⟩ : BufTy).Contents (Elt F)) : (⟨S4096x64, .f32⟩ : BufTy).Contents (Elt F) :=
  extractStridedSlice S4096x64 ![0, 0] (val_main_v29 (F := F) x0 x1) slices_S12288x64_S4096x64_0_0
def val_main_v33 (x0 : (⟨S12288x64, .f32⟩ : BufTy).Contents (Elt F)) (x1 : (⟨S4096x8192, .i32⟩ : BufTy).Contents (Elt F)) : (⟨S8192x64, .f32⟩ : BufTy).Contents (Elt F) :=
  Host.dotGeneral dot_S8192x4096_S4096x64_S8192x64_1_0_0_1_n_n none (val_main_v31 (F := F) x1) (val_main_v32 (F := F) x0 x1)
def val_main_v34 (x0 : (⟨S12288x64, .f32⟩ : BufTy).Contents (Elt F)) (x1 : (⟨S4096x8192, .i32⟩ : BufTy).Contents (Elt F)) : (⟨S8192x64, .f32⟩ : BufTy).Contents (Elt F) :=
  extractStridedSlice S8192x64 ![4096, 0] (val_main_v29 (F := F) x0 x1) slices_S12288x64_S8192x64_4096_0
def val_main_v35 (x0 : (⟨S12288x64, .f32⟩ : BufTy).Contents (Elt F)) (x1 : (⟨S4096x8192, .i32⟩ : BufTy).Contents (Elt F)) : (⟨S4096x64, .f32⟩ : BufTy).Contents (Elt F) :=
  Host.dotGeneral dot_S4096x8192_S8192x64_S4096x64_1_0_0_1_n_n none (val_main_v15 (F := F) x1) (val_main_v34 (F := F) x0 x1)
def val_main_v36 (x0 : (⟨S12288x64, .f32⟩ : BufTy).Contents (Elt F)) (x1 : (⟨S4096x8192, .i32⟩ : BufTy).Contents (Elt F)) : (⟨S12288x64, .f32⟩ : BufTy).Contents (Elt F) :=
  concatenate S12288x64 0 [⟨S8192x64, (val_main_v33 (F := F) x0 x1)⟩, ⟨S4096x64, (val_main_v35 (F := F) x0 x1)⟩] concatenates_S8192x64_S4096x64_S12288x64_d0

def val_main_v37 (x0 : (⟨S12288x64, .f32⟩ : BufTy).Contents (Elt F)) (x1 : (⟨S4096x8192, .i32⟩ : BufTy).Contents (Elt F)) : (⟨S12288x64, .f32⟩ : BufTy).Contents (Elt F) :=
  addf (val_main_v30 (F := F) x0 x1) (val_main_v36 (F := F) x0 x1)
def val_main_cst_6 : (⟨S_, .f32⟩ : BufTy).Contents (Elt F) :=
  constant S_ .f32 0x40800000#32
def val_main_v38 : (⟨S12288x64, .f32⟩ : BufTy).Contents (Elt F) :=
  broadcastInDim S12288x64 ![] bcast_S_S12288x64 (val_main_cst_6 (F := F))
def val_main_v39 (x0 : (⟨S12288x64, .f32⟩ : BufTy).Contents (Elt F)) (x1 : (⟨S4096x8192, .i32⟩ : BufTy).Contents (Elt F)) : (⟨S12288x64, .f32⟩ : BufTy).Contents (Elt F) :=
  Host.divf (val_main_v37 (F := F) x0 x1) (val_main_v38 (F := F))
end Cert.ReferenceIdeal.ReadP
end
-- ==== Proof.KI.Val0.lean ====
import proofs.«161291_j15487652069895_1_alg».proof.Proof.KI.Dat0
import proofs.«161291_j15487652069895_1_alg».proof.Proof.RefRead
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : Vals Ideal)

namespace Value

theorem r0_colsum_apply (src : FVec Ideal S4096x512 .f32) (hφ : FKind.Formats .f32)
    (hacc : (0x00000000#32 : BitVec (FTy.bits .f32)) = FKind.add.neutral .f32 hφ) (q : Fin 512) :
    multiReduction .add [0] S512 src 0x00000000#32 reduces_S4096x512_S512 hφ hacc (ix1 q) = ∑ k : Fin 4096, src (ix2 k q) :=
  (Ideal.multiReduction_add_single src _ _ hφ hacc (ix1 q)).trans
    (Finset.sum_congr rfl fun k _ => congrArg src (funext fun a => by
      match a with
      | ⟨0, _⟩ => rfl
      | ⟨1, _⟩ => rfl))

theorem r0_rowsum_apply (src : FVec Ideal S4096x512 .f32) (hφ : FKind.Formats .f32)
    (hacc : (0x00000000#32 : BitVec (FTy.bits .f32)) = FKind.add.neutral .f32 hφ) (r : Fin 4096) :
    multiReduction .add [1] S4096 src 0x00000000#32 reduces_S4096x512_S4096 hφ hacc (ix1 r) = ∑ k : Fin 512, src (ix2 r k) :=
  (Ideal.multiReduction_add_single src _ _ hφ hacc (ix1 r)).trans
    (Finset.sum_congr rfl fun k _ => congrArg src (funext fun a => by
      match a with
      | ⟨0, _⟩ => rfl
      | ⟨1, _⟩ => rfl))

theorem r0_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem r0_pay2_apply (X : Vec Ideal S4096x512 .i32) (p : Fin 1) (q : Fin 512) :
    k0_pay2 (F := Ideal) X (ix2 p q) = ∑ k : Fin 4096, FloatOps.sitofp (F := Ideal) .f32 (X (ix2 k q)) := by
  unfold k0_pay2 k0_pay1
  rw [shapeCast_a_1a_apply]
  exact r0_colsum_apply _ _ _ q

theorem r0_pay4_apply (X : Vec Ideal S4096x512 .i32) (prev : Vec Ideal S4096x1 .f32) (r : Fin 4096) (u : Fin 1) :
    k0_pay4 (F := Ideal) X prev (ix2 r u) = prev (ix2 r u) + ∑ k : Fin 512, FloatOps.sitofp (F := Ideal) .f32 (X (ix2 r k)) := by
  unfold k0_pay4 k0_pay1
  rw [addf_apply, shapeCast_self, r0_shapeCast_a_a1_apply]
  exact congrArg (prev (ix2 r u) + ·) (r0_rowsum_apply _ _ _ r)

theorem r0_pay3_apply (r : Fin 4096) (u : Fin 1) : k0_pay3 (F := Ideal) (ix2 r u) = 0 := by
  unfold k0_pay3
  rw [broadcast_apply]
  exact Ideal.ofBits_zero_f32

theorem r0_idx_facts0 : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

theorem r0_col_lt (t : Fin cfg0.N) (q : Fin 512) : t.val * 512 + q.val < 8192 := by
  have hN : cfg0.N = 16 := N_0
  have := t.isLt
  have := q.isLt
  omega

theorem r0_eblk0_apply (c : Dev nD) (t : Fin cfg0.N) (k : Fin 4096) (q : Fin 512) :
    eblk0 V c t (ix2 k q) = V c main_arg1 (ix2 k ⟨t.val * 512 + q.val, r0_col_lt t q⟩) := by
  obtain ⟨e0, e1, -, -, -, -⟩ := r0_idx_facts0 t
  show ((cfg0.win 0).blk t).view.read (Elt Ideal) (V c (Pipeline.arrRef spec0 0)) (ix2 k q) = _
  rw [View.read_apply]
  show V c main_arg1 (((cfg0.win 0).blk t).view.emb (ix2 k q)) = V c main_arg1 _
  congr 1
  funext a
  apply Fin.ext
  match a with
  | ⟨0, _⟩ => show win0_0.index t (0 : Fin 2) * 4096 + 1 * k.val = k.val; rw [e0]; omega
  | ⟨1, _⟩ => show win0_0.index t (1 : Fin 2) * 512 + 1 * q.val = t.val * 512 + q.val; rw [e1]; omega

def r0_colAt (e : S4096x8192.Idx → Elt Ideal .i32) (q : Fin 8192) : Elt Ideal .f32 :=
  ∑ k : Fin 4096, FloatOps.sitofp (F := Ideal) .f32 (e (ix2 k q))

def r0_colG (e : S4096x8192.Idx → Elt Ideal .i32) : S1x8192.Idx → Elt Ideal .f32 :=
  fun i => r0_colAt e ⟨(i 1).val, idx2_lt1 i⟩

theorem r0_flushed_cols (c : Dev nD) (t : Fin cfg0.N) :
    (dat0 V c).flushed 2 t = ((cfg0.win 2).blk t).view.read (Elt Ideal) (r0_colG (V c main_arg1)) := by
  obtain ⟨-, -, -, -, e4, e5⟩ := r0_idx_facts0 t
  show (cfg0.win 2).cut (grid0.coords t) ((dat0 V c).after 2 t) = _
  rw [dat0_after2]
  funext j
  obtain ⟨p, q, rfl⟩ : ∃ (p : Fin 1) (q : Fin 512), j = ix2 p q := ⟨j 0, j 1, eq_ix2 j⟩
  rw [View.read_apply]
  show k0_pay2 (eblk0 V c t) (ix2 p q) = r0_colAt (V c main_arg1) ⟨(((cfg0.win 2).blk t).view.emb (ix2 p q) 1).val, _⟩
  rw [r0_pay2_apply]
  unfold r0_colAt
  refine Finset.sum_congr rfl fun k _ => ?_
  rw [r0_eblk0_apply]
  refine congrArg (fun z => FloatOps.sitofp (F := Ideal) .f32 (V c main_arg1 (ix2 k z))) (Fin.ext ?_)
  show t.val * 512 + q.val = win0_2.index t (1 : Fin 2) * 512 + 1 * q.val
  rw [e5]; omega

theorem r0_mem_blk_cols (t : Fin cfg0.N) (i : S1x8192.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v0_1).slice (win0_2.rect t)).set ↔ _
  rw [View.set_slice_whole, Rect.mem_set_unit]
  exact Iff.rfl

theorem r0_cover_cols (i : S1x8192.Idx) :
    ∃ t : Fin cfg0.N, (cfg0.win 2).flush t = true ∧ i ∈ ((cfg0.win 2).blk t).view.set := by
  have hN : cfg0.N = 16 := N_0
  have hi0 : (i 0).val < 1 := idx2_lt0 i
  have hi1 : (i 1).val < 8192 := idx2_lt1 i
  refine ⟨⟨(i 1).val / 512, by omega⟩, flush0_2 _, ?_⟩
  obtain ⟨-, -, -, -, e4, e5⟩ := r0_idx_facts0 ⟨(i 1).val / 512, by omega⟩
  rw [r0_mem_blk_cols]
  intro a
  match a with
  | ⟨0, _⟩ =>
    show win0_2.index _ (0 : Fin 2) * 1 ≤ (i 0).val ∧ (i 0).val < win0_2.index _ (0 : Fin 2) * 1 + 1
    rw [e4]; omega
  | ⟨1, _⟩ =>
    show win0_2.index _ (1 : Fin 2) * 512 ≤ (i 1).val ∧ (i 1).val < win0_2.index _ (1 : Fin 2) * 512 + 512
    rw [e5]; dsimp only; omega

theorem r0_final_cols (c : Dev nD) : (dat0 V c).arrAt 2 cfg0.N = r0_colG (V c main_arg1) :=
  (dat0 V c).arrAt_eq_of_cover 2 (r0_colG (V c main_arg1)) (fun t _ => r0_flushed_cols V c t) r0_cover_cols

theorem r0_ref_cols (x : S4096x8192.Idx → Elt Ideal .i32) (j : S1x8192.Idx) :
    Cert.ReferenceIdeal.ReadP.val_main_v4 (F := Ideal) x j = r0_colG x j := by
  rw [Cert.ReferenceIdeal.ReadP.val_main_v4_apply, Cert.ReferenceIdeal.ReadP.val_main_v2_apply,
    Cert.ReferenceIdeal.ReadP.val_main_cst_0_apply]
  show Ideal.ofBits .f32 0x00000000#32 + _ = _
  rw [Ideal.ofBits_zero_f32, zero_add]
  unfold r0_colG r0_colAt
  refine Finset.sum_congr rfl fun k _ => ?_
  rw [Cert.ReferenceIdeal.ReadP.val_main_v0_apply]
  refine congrArg (fun z => FloatOps.sitofp (F := Ideal) .f32 (x z)) (funext fun a => Fin.ext ?_)
  match a with
  | ⟨0, _⟩ => rfl
  | ⟨1, _⟩ => rfl

theorem r0_sum_fin_mul {M : Type*} [AddCommMonoid M] (m n : ℕ) (f : ℕ → M) :
    ∑ k : Fin (m * n), f k.val = ∑ b : Fin m, ∑ q : Fin n, f (q.val + n * b.val) := by
  rw [← Equiv.sum_comp finProdFinEquiv (fun k : Fin (m * n) => f k.val), Fintype.sum_prod_type]
  rfl

def r0_entryAt (e : S4096x8192.Idx → Elt Ideal .i32) (r : Fin 4096) (n : ℕ) : Elt Ideal .f32 :=
  if h : n < 8192 then FloatOps.sitofp (F := Ideal) .f32 (e (ix2 r ⟨n, h⟩)) else 0

def r0_rowBlock (e : S4096x8192.Idx → Elt Ideal .i32) (r : Fin 4096) (b : ℕ) : Elt Ideal .f32 :=
  ∑ q : Fin 512, r0_entryAt e r (b * 512 + q.val)

def r0_rowAt (e : S4096x8192.Idx → Elt Ideal .i32) (r : Fin 4096) : Elt Ideal .f32 :=
  ∑ k : Fin 8192, FloatOps.sitofp (F := Ideal) .f32 (e (ix2 r k))

def r0_rowG (e : S4096x8192.Idx → Elt Ideal .i32) : S4096x1.Idx → Elt Ideal .f32 :=
  fun i => r0_rowAt e ⟨(i 0).val, idx2_lt0 i⟩

theorem r0_rowBlock_eq (c : Dev nD) (t : Fin cfg0.N) (r : Fin 4096) :
    ∑ k : Fin 512, FloatOps.sitofp (F := Ideal) .f32 (eblk0 V c t (ix2 r k)) = r0_rowBlock (V c main_arg1) r t.val := by
  unfold r0_rowBlock
  refine Finset.sum_congr rfl fun q _ => ?_
  rw [r0_eblk0_apply]
  unfold r0_entryAt
  rw [dif_pos (r0_col_lt t q)]

theorem r0_rows0_apply (c : Dev nD) : ∀ (n : ℕ) (h : n < cfg0.N) (r : Fin 4096) (u : Fin 1),
    rows0 V c n h (ix2 r u) = ∑ b ∈ Finset.range (n + 1), r0_rowBlock (V c main_arg1) r b
  | 0, h, r, u => by
    show k0_pay4 (eblk0 V c ⟨0, h⟩) (k0_pay3 (F := Ideal)) (ix2 r u) = _
    rw [r0_pay4_apply, r0_pay3_apply, zero_add, r0_rowBlock_eq]
    exact (Finset.sum_range_one _).symm
  | n + 1, h, r, u => by
    show k0_pay4 (eblk0 V c ⟨n + 1, h⟩) (rows0 V c n (Nat.lt_of_succ_lt h)) (ix2 r u) = _
    rw [r0_pay4_apply, r0_rows0_apply c n, r0_rowBlock_eq]
    exact (Finset.sum_range_succ (fun b => r0_rowBlock (V c main_arg1) r b) (n + 1)).symm

theorem r0_rowAt_eq_blocks (e : S4096x8192.Idx → Elt Ideal .i32) (r : Fin 4096) :
    r0_rowAt e r = ∑ b ∈ Finset.range 16, r0_rowBlock e r b := by
  have h1 : r0_rowAt e r = ∑ k : Fin (16 * 512), r0_entryAt e r k.val := by
    unfold r0_rowAt
    refine Finset.sum_congr rfl fun k _ => ?_
    unfold r0_entryAt
    rw [dif_pos k.isLt]
  rw [h1, r0_sum_fin_mul 16 512, ← Fin.sum_univ_eq_sum_range]
  refine Finset.sum_congr rfl fun b _ => ?_
  unfold r0_rowBlock
  refine Finset.sum_congr rfl fun q _ => ?_
  exact congrArg (r0_entryAt e r) (by omega)

theorem r0_flushed_rows (c : Dev nD) (t : Fin cfg0.N) (hf : (cfg0.win 1).flush t = true) :
    (dat0 V c).flushed 1 t = ((cfg0.win 1).blk t).view.read (Elt Ideal) (r0_rowG (V c main_arg1)) := by
  have hN : cfg0.N = 16 := N_0
  have h15 : t.val = 15 := by have := (flush0_1 t).mp hf; have := t.isLt; omega
  obtain rfl : t = t0_15 := Fin.ext h15
  obtain ⟨-, -, e2, e3, -, -⟩ := r0_idx_facts0 t0_15
  show (cfg0.win 1).cut (grid0.coords t0_15) ((dat0 V c).after 1 t0_15) = _
  rw [dat0_after1]
  funext j
  obtain ⟨r, u, rfl⟩ : ∃ (r : Fin 4096) (u : Fin 1), j = ix2 r u := ⟨j 0, j 1, eq_ix2 j⟩
  rw [View.read_apply]
  show rows0 V c t0_15.val t0_15.isLt (ix2 r u) = r0_rowAt (V c main_arg1) ⟨(((cfg0.win 1).blk t0_15).view.emb (ix2 r u) 0).val, _⟩
  rw [r0_rows0_apply, r0_rowAt_eq_blocks]
  refine congrArg (fun z => ∑ b ∈ Finset.range 16, r0_rowBlock (V c main_arg1) z b) (Fin.ext ?_)
  show r.val = win0_1.index t0_15 (0 : Fin 2) * 4096 + 1 * r.val
  rw [e2]; omega

theorem r0_mem_blk_rows (t : Fin cfg0.N) (i : S4096x1.Idx) :
    i ∈ ((cfg0.win 1).blk t).view.set ↔ ∀ a : Fin 2, win0_1.index t a * S4096x1.size a ≤ (i a).val ∧ (i a).val < win0_1.index t a * S4096x1.size a + S4096x1.size a := by
  show i ∈ ((View.whole main_v0_0).slice (win0_1.rect t)).set ↔ _
  rw [View.set_slice_whole, Rect.mem_set_unit]
  exact Iff.rfl

theorem r0_cover_rows (i : S4096x1.Idx) :
    ∃ t : Fin cfg0.N, (cfg0.win 1).flush t = true ∧ i ∈ ((cfg0.win 1).blk t).view.set := by
  have hi0 : (i 0).val < 4096 := idx2_lt0 i
  have hi1 : (i 1).val < 1 := idx2_lt1 i
  refine ⟨t0_15, (flush0_1 t0_15).mpr rfl, ?_⟩
  obtain ⟨-, -, e2, e3, -, -⟩ := r0_idx_facts0 t0_15
  rw [r0_mem_blk_rows]
  intro a
  match a with
  | ⟨0, _⟩ =>
    show win0_1.index t0_15 (0 : Fin 2) * 4096 ≤ (i 0).val ∧ (i 0).val < win0_1.index t0_15 (0 : Fin 2) * 4096 + 4096
    rw [e2]; omega
  | ⟨1, _⟩ =>
    show win0_1.index t0_15 (1 : Fin 2) * 1 ≤ (i 1).val ∧ (i 1).val < win0_1.index t0_15 (1 : Fin 2) * 1 + 1
    rw [e3]; omega

theorem r0_final_rows (c : Dev nD) : (dat0 V c).arrAt 1 cfg0.N = r0_rowG (V c main_arg1) :=
  (dat0 V c).arrAt_eq_of_cover 1 (r0_rowG (V c main_arg1)) (r0_flushed_rows V c) r0_cover_rows

theorem r0_ref_rows (x : S4096x8192.Idx → Elt Ideal .i32) (j : S4096x1.Idx) :
    Cert.ReferenceIdeal.ReadP.val_main_v3 (F := Ideal) x j = r0_rowG x j := by
  rw [Cert.ReferenceIdeal.ReadP.val_main_v3_apply, Cert.ReferenceIdeal.ReadP.val_main_v1_apply,
    Cert.ReferenceIdeal.ReadP.val_main_cst_apply]
  show Ideal.ofBits .f32 0x00000000#32 + _ = _
  rw [Ideal.ofBits_zero_f32, zero_add]
  unfold r0_rowG r0_rowAt
  refine Finset.sum_congr rfl fun k _ => ?_
  rw [Cert.ReferenceIdeal.ReadP.val_main_v0_apply]
  refine congrArg (fun z => FloatOps.sitofp (F := Ideal) .f32 (x z)) (funext fun a => Fin.ext ?_)
  match a with
  | ⟨0, _⟩ => rfl
  | ⟨1, _⟩ => rfl

theorem rows_arr (c : Dev nD) (j : S4096x1.Idx) :
    (dat0 V c).arrAt 1 cfg0.N j = Cert.ReferenceIdeal.ReadP.val_main_v3 (F := Ideal) (V c main_arg1) j := by
  rw [r0_final_rows, r0_ref_rows]

theorem cols_arr (c : Dev nD) (j : S1x8192.Idx) :
    (dat0 V c).arrAt 2 cfg0.N j = Cert.ReferenceIdeal.ReadP.val_main_v4 (F := Ideal) (V c main_arg1) j := by
  rw [r0_final_cols, r0_ref_cols]

end Value

end Cert.KernelIdeal.Hand

end
-- ==== Proof.KI.Val1.lean ====
import proofs.«161291_j15487652069895_1_alg».proof.Proof.KI.Dat1
import proofs.«161291_j15487652069895_1_alg».proof.Proof.RefRead
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : Vals Ideal)

namespace Value

def r1_weightOf (e du di : Ideal .f32) : Ideal .f32 :=
  Scalar.select (FloatOps.cmpf (F := Ideal) (φ := .f32) .ogt (Ideal.sqrt (du * di)) (Ideal.ofBits .f32 0x00000000#32))
    (Ideal.div e (Scalar.select (FloatOps.cmpf (F := Ideal) (φ := .f32) .ogt (Ideal.sqrt (du * di)) (Ideal.ofBits .f32 0x00000000#32))
      (Ideal.sqrt (du * di)) (Ideal.ofBits .f32 0x3F800000#32)))
    (Ideal.ofBits .f32 0x00000000#32)

theorem r1_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem r1_sqrt_apply {s : Shape} {φ : FTy} (a : FVec Ideal s φ) (i : s.Idx) : sqrt a i = Ideal.sqrt (a i) := rfl

theorem r1_pay1_apply (X : Vec Ideal S1024x2048 .i32) (R : Vec Ideal S1024x1 .f32) (C : Vec Ideal S1x2048 .f32)
    (p : Fin 1024) (q : Fin 2048) :
    k1_pay1 (F := Ideal) X R C (ix2 p q)
      = r1_weightOf (FloatOps.sitofp (F := Ideal) .f32 (X (ix2 p q))) (R (ix2 p (0 : Fin 1))) (C (ix2 (0 : Fin 1) q)) := by
  unfold k1_pay1 r1_weightOf
  simp only [truncf_apply, select_apply, cmpf_apply, divf_apply, sitofp_apply, broadcast_apply, r1_sqrt_apply, mulf_apply,
    shapeCast_self, r1_broadcastTo_a1_ab_apply, broadcastTo_1b_ab_apply]
  rfl

theorem r1_idx_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 3 ∧ win1_3.index t (1 : Fin 2) ≤ 3 :=
  (by decide +kernel : ∀ t : Fin grid1.N, _)

theorem r1_idx_onto1 : ∀ (q0 q1 : Fin 4), ∃ t : Fin cfg1.N, win1_3.index t = ![q0.val, q1.val] :=
  (by decide +kernel : ∀ (q0 q1 : Fin 4), ∃ t : Fin grid1.N, win1_3.index t = ![q0.val, q1.val])

def r1_wG (x : S4096x8192.Idx → Elt Ideal .i32) : S4096x8192.Idx → Elt Ideal .bf16 :=
  fun i => r1_weightOf (FloatOps.sitofp (F := Ideal) .f32 (x i))
    (Cert.ReferenceIdeal.ReadP.val_main_v3 (F := Ideal) x (Cert.ReferenceIdeal.ReadP.idx_main_v5 i))
    (Cert.ReferenceIdeal.ReadP.val_main_v4 (F := Ideal) x (Cert.ReferenceIdeal.ReadP.idx_main_v6 i))

theorem r1_flushed_w (c : Dev nD)
    (hr : ∀ j : S4096x1.Idx, V c main_v0_0 j = Cert.ReferenceIdeal.ReadP.val_main_v3 (F := Ideal) (V c main_arg1) j)
    (hc : ∀ j : S1x8192.Idx, V c main_v0_1 j = Cert.ReferenceIdeal.ReadP.val_main_v4 (F := Ideal) (V c main_arg1) j)
    (t : Fin cfg1.N) :
    (dat1 V c).flushed 3 t = ((cfg1.win 3).blk t).view.read (Elt Ideal) (r1_wG (V c main_arg1)) := by
  obtain ⟨e0, e1, e2, e3, e4, e5, -, -⟩ := r1_idx_facts1 t
  show (cfg1.win 3).cut (grid1.coords t) ((dat1 V c).after 3 t) = _
  rw [dat1_after3]
  funext j
  obtain ⟨p, q, rfl⟩ : ∃ (p : Fin 1024) (q : Fin 2048), j = ix2 p q := ⟨j 0, j 1, eq_ix2 j⟩
  rw [View.read_apply]
  show k1_pay1 (eblk1 V c t) (rblk1 V c t) (cblk1 V c t) (ix2 p q) = r1_wG (V c main_arg1) (((cfg1.win 3).blk t).view.emb (ix2 p q))
  rw [r1_pay1_apply]
  unfold r1_wG
  have hE : eblk1 V c t (ix2 p q) = V c main_arg1 (((cfg1.win 3).blk t).view.emb (ix2 p q)) := by
    show ((cfg1.win 0).blk t).view.read (Elt Ideal) (V c (Pipeline.arrRef spec1 0)) (ix2 p q) = _
    rw [View.read_apply]
    show V c main_arg1 (((cfg1.win 0).blk t).view.emb (ix2 p q)) = V c main_arg1 _
    refine congrArg (V c main_arg1) (funext fun a => Fin.ext ?_)
    match a with
    | ⟨0, _⟩ => show win1_0.index t (0 : Fin 2) * 1024 + 1 * p.val = win1_3.index t (0 : Fin 2) * 1024 + 1 * p.val; rw [e0]
    | ⟨1, _⟩ => show win1_0.index t (1 : Fin 2) * 2048 + 1 * q.val = win1_3.index t (1 : Fin 2) * 2048 + 1 * q.val; rw [e1]
  have hR : rblk1 V c t (ix2 p (0 : Fin 1))
      = Cert.ReferenceIdeal.ReadP.val_main_v3 (F := Ideal) (V c main_arg1)
          (Cert.ReferenceIdeal.ReadP.idx_main_v5 (((cfg1.win 3).blk t).view.emb (ix2 p q))) := by
    show ((cfg1.win 1).blk t).view.read (Elt Ideal) (V c (Pipeline.arrRef spec1 1)) (ix2 p (0 : Fin 1)) = _
    rw [View.read_apply]
    show V c main_v0_0 (((cfg1.win 1).blk t).view.emb (ix2 p (0 : Fin 1))) = _
    rw [hr]
    refine congrArg (Cert.ReferenceIdeal.ReadP.val_main_v3 (F := Ideal) (V c main_arg1)) (funext fun a => Fin.ext ?_)
    match a with
    | ⟨0, _⟩ => show win1_1.index t (0 : Fin 2) * 1024 + 1 * p.val = win1_3.index t (0 : Fin 2) * 1024 + 1 * p.val; rw [e2]
    | ⟨1, _⟩ => show win1_1.index t (1 : Fin 2) * 1 + 1 * 0 = 0; rw [e3]
  have hC : cblk1 V c t (ix2 (0 : Fin 1) q)
      = Cert.ReferenceIdeal.ReadP.val_main_v4 (F := Ideal) (V c main_arg1)
          (Cert.ReferenceIdeal.ReadP.idx_main_v6 (((cfg1.win 3).blk t).view.emb (ix2 p q))) := by
    show ((cfg1.win 2).blk t).view.read (Elt Ideal) (V c (Pipeline.arrRef spec1 2)) (ix2 (0 : Fin 1) q) = _
    rw [View.read_apply]
    show V c main_v0_1 (((cfg1.win 2).blk t).view.emb (ix2 (0 : Fin 1) q)) = _
    rw [hc]
    refine congrArg (Cert.ReferenceIdeal.ReadP.val_main_v4 (F := Ideal) (V c main_arg1)) (funext fun a => Fin.ext ?_)
    match a with
    | ⟨0, _⟩ => show win1_2.index t (0 : Fin 2) * 1 + 1 * 0 = 0; rw [e4]
    | ⟨1, _⟩ => show win1_2.index t (1 : Fin 2) * 2048 + 1 * q.val = win1_3.index t (1 : Fin 2) * 2048 + 1 * q.val; rw [e5]
  rw [hE, hR, hC]

theorem r1_mem_blk_w (t : Fin cfg1.N) (i : S4096x8192.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v1).slice (win1_3.rect t)).set ↔ _
  rw [View.set_slice_whole, Rect.mem_set_unit]
  exact Iff.rfl

theorem r1_cover_w (i : S4096x8192.Idx) :
    ∃ t : Fin cfg1.N, (cfg1.win 3).flush t = true ∧ i ∈ ((cfg1.win 3).blk t).view.set := by
  have hi0 : (i 0).val < 4096 := idx2_lt0 i
  have hi1 : (i 1).val < 8192 := idx2_lt1 i
  obtain ⟨t, ht⟩ := r1_idx_onto1 ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  refine ⟨t, flush1_3 t, ?_⟩
  rw [r1_mem_blk_w]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 2048 ≤ (i 1).val ∧ (i 1).val < win1_3.index t (1 : Fin 2) * 2048 + 2048
    omega

theorem r1_ref_w (x : S4096x8192.Idx → Elt Ideal .i32) (j : S4096x8192.Idx) :
    Cert.ReferenceIdeal.ReadP.val_main_v15 (F := Ideal) x j = r1_wG x j := by
  simp only [Cert.ReferenceIdeal.ReadP.val_main_v15_apply, Cert.ReferenceIdeal.ReadP.val_main_v14_apply,
    Cert.ReferenceIdeal.ReadP.val_main_v13_apply, Cert.ReferenceIdeal.ReadP.val_main_v12_apply,
    Cert.ReferenceIdeal.ReadP.val_main_v10_apply, Cert.ReferenceIdeal.ReadP.val_main_v8_apply,
    Cert.ReferenceIdeal.ReadP.val_main_v7_apply, Cert.ReferenceIdeal.ReadP.val_main_v5_apply,
    Cert.ReferenceIdeal.ReadP.val_main_v6_apply, Cert.ReferenceIdeal.ReadP.val_main_v0_apply,
    Cert.ReferenceIdeal.ReadP.val_main_v9_apply, Cert.ReferenceIdeal.ReadP.val_main_v11_apply,
    Cert.ReferenceIdeal.ReadP.val_main_call0_v1_apply, Cert.ReferenceIdeal.ReadP.val_main_call1_v1_apply,
    Cert.ReferenceIdeal.ReadP.val_main_call0_v0_apply, Cert.ReferenceIdeal.ReadP.val_main_call1_v0_apply,
    Cert.ReferenceIdeal.ReadP.val_main_cst_1_apply, Cert.ReferenceIdeal.ReadP.val_main_cst_2_apply,
    Cert.ReferenceIdeal.ReadP.val_main_cst_3_apply, Cert.ReferenceIdeal.ReadP.val_main_cst_4_apply]
  rfl

theorem weights_arr (c : Dev nD)
    (hr : ∀ j : S4096x1.Idx, V c main_v0_0 j = Cert.ReferenceIdeal.ReadP.val_main_v3 (F := Ideal) (V c main_arg1) j)
    (hc : ∀ j : S1x8192.Idx, V c main_v0_1 j = Cert.ReferenceIdeal.ReadP.val_main_v4 (F := Ideal) (V c main_arg1) j)
    (j : S4096x8192.Idx) :
    (dat1 V c).arrAt 3 cfg1.N j = Cert.ReferenceIdeal.ReadP.val_main_v15 (F := Ideal) (V c main_arg1) j := by
  rw [(dat1 V c).arrAt_eq_of_cover 3 (r1_wG (V c main_arg1)) (fun t _ => r1_flushed_w V c hr hc t) r1_cover_w, r1_ref_w]

end Value

end Cert.KernelIdeal.Hand

end
-- ==== Proof.KI.ValBottom.lean ====
import proofs.«161291_j15487652069895_1_alg».proof.Proof.KI.Common
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace Value

theorem lhsBlk_ax0_bot (i : S1024x64.Idx) (q : dot_S1024x4096_S4096x64_S1024x64_1_0_0_1_n_n.contr.Idx) :
    (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhsBlk_ax1_bot (i : S1024x64.Idx) (q : dot_S1024x4096_S4096x64_S1024x64_1_0_0_1_n_n.contr.Idx) :
    (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhsBlk_ax0_bot (i : S1024x64.Idx) (q : dot_S1024x4096_S4096x64_S1024x64_1_0_0_1_n_n.contr.Idx) :
    (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhsBlk_ax1_bot (i : S1024x64.Idx) (q : dot_S1024x4096_S4096x64_S1024x64_1_0_0_1_n_n.contr.Idx) :
    (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

theorem matmulBlk_apply_bot (lhs : FVec Ideal S1024x4096 .bf16) (rhs : FVec Ideal S4096x64 .bf16) (p : Fin 1024) (q : Fin 64) :
    matmul dot_S1024x4096_S4096x64_S1024x64_1_0_0_1_n_n none lhs rhs (constant (F := Ideal) S1024x64 .f32 0x00000000#32) (ix2 p q)
      = ∑ k : Fin 4096, lhs (ix2 p k) * rhs (ix2 k q) := by
  simp only [matmul]
  rw [Ideal.matmul_constant_zero_apply, ← Equiv.sum_comp (contrEquiv1 dot_S1024x4096_S4096x64_S1024x64_1_0_0_1_n_n 4096 rfl rfl).symm]
  refine Finset.sum_congr rfl fun k _ => ?_
  have hk := contrEquiv1_symm_val dot_S1024x4096_S4096x64_S1024x64_1_0_0_1_n_n 4096 rfl rfl k
  have el : dot_S1024x4096_S4096x64_S1024x64_1_0_0_1_n_n.lhsIdx (ix2 p q) ((contrEquiv1 dot_S1024x4096_S4096x64_S1024x64_1_0_0_1_n_n 4096 rfl rfl).symm k) = ix2 p k := funext fun a => Fin.ext (by
    match a with
    | ⟨0, _⟩ => exact lhsBlk_ax0_bot _ _
    | ⟨1, _⟩ => exact (lhsBlk_ax1_bot _ _).trans hk)
  have er : dot_S1024x4096_S4096x64_S1024x64_1_0_0_1_n_n.rhsIdx (ix2 p q) ((contrEquiv1 dot_S1024x4096_S4096x64_S1024x64_1_0_0_1_n_n 4096 rfl rfl).symm k) = ix2 k q := funext fun a => Fin.ext (by
    match a with
    | ⟨0, _⟩ => exact (rhsBlk_ax0_bot _ _).trans hk
    | ⟨1, _⟩ => exact rhsBlk_ax1_bot _ _)
  rw [el, er]

theorem pay1_apply_bot (j : S1024x64.Idx) : k2_pay1 (F := Ideal) j = 0 := by
  unfold k2_pay1
  simp only [shapeCast_self]
  exact Ideal.ofBits_zero_f32

theorem pay2_apply_bot (v3 : FVec Ideal S4096x64 .f32) (v6 : FVec Ideal S1024x64 .f32) (v7 : FVec Ideal S1024x4096 .bf16) (p : Fin 1024) (q : Fin 64) :
    k2_pay2 (F := Ideal) v3 v6 v7 (ix2 p q) = v6 (ix2 p q) + ∑ k : Fin 4096, v7 (ix2 p k) * v3 (ix2 k q) := by
  unfold k2_pay2
  simp only [shapeCast_self]
  refine (addf_apply _ _ _).trans ?_
  refine congrArg (v6 (ix2 p q) + ·) ?_
  exact matmulBlk_apply_bot v7 (truncf .bf16 v3 bitsLt_bf16_f32) p q

theorem lhsRef_ax0_bot (i : S4096x64.Idx) (q : Cert.ReferenceIdeal.dot_S4096x8192_S8192x64_S4096x64_1_0_0_1_n_n.contr.Idx) :
    (Cert.ReferenceIdeal.dot_S4096x8192_S8192x64_S4096x64_1_0_0_1_n_n.lhsIdx i q 0).val = (i 0).val := by
  unfold DotDims.lhsIdx
  rw [dif_neg (show ¬(0 : Fin S4096x8192.rank) ∈ Cert.ReferenceIdeal.dot_S4096x8192_S8192x64_S4096x64_1_0_0_1_n_n.lhsBatch by decide), dif_pos (show (0 : Fin S4096x8192.rank) ∈ Cert.ReferenceIdeal.dot_S4096x8192_S8192x64_S4096x64_1_0_0_1_n_n.lhsNonContracting by decide)]
  rfl
theorem lhsRef_ax1_bot (i : S4096x64.Idx) (q : Cert.ReferenceIdeal.dot_S4096x8192_S8192x64_S4096x64_1_0_0_1_n_n.contr.Idx) :
    (Cert.ReferenceIdeal.dot_S4096x8192_S8192x64_S4096x64_1_0_0_1_n_n.lhsIdx i q 1).val = (q ⟨0, by decide⟩).val :=
  Cert.ReferenceIdeal.dot_S4096x8192_S8192x64_S4096x64_1_0_0_1_n_n.lhsIdx_val_of_single rfl i q
theorem rhsRef_ax0_bot (i : S4096x64.Idx) (q : Cert.ReferenceIdeal.dot_S4096x8192_S8192x64_S4096x64_1_0_0_1_n_n.contr.Idx) :
    (Cert.ReferenceIdeal.dot_S4096x8192_S8192x64_S4096x64_1_0_0_1_n_n.rhsIdx i q 0).val = (q ⟨0, by decide⟩).val :=
  Cert.ReferenceIdeal.dot_S4096x8192_S8192x64_S4096x64_1_0_0_1_n_n.rhsIdx_val_of_single rfl i q
theorem rhsRef_ax1_bot (i : S4096x64.Idx) (q : Cert.ReferenceIdeal.dot_S4096x8192_S8192x64_S4096x64_1_0_0_1_n_n.contr.Idx) :
    (Cert.ReferenceIdeal.dot_S4096x8192_S8192x64_S4096x64_1_0_0_1_n_n.rhsIdx i q 1).val = (i 1).val := by
  unfold DotDims.rhsIdx
  rw [dif_neg (show ¬(1 : Fin S8192x64.rank) ∈ Cert.ReferenceIdeal.dot_S4096x8192_S8192x64_S4096x64_1_0_0_1_n_n.rhsBatch by decide), dif_pos (show (1 : Fin S8192x64.rank) ∈ Cert.ReferenceIdeal.dot_S4096x8192_S8192x64_S4096x64_1_0_0_1_n_n.rhsNonContracting by decide)]
  rfl

theorem hostDot_apply_bot (W : FVec Ideal S4096x8192 .bf16) (x : FVec Ideal S8192x64 .f32) (P : Fin 4096) (q : Fin 64) :
    Host.dotGeneral (F := Ideal) (φ₁ := .bf16) (φ₂ := .f32) Cert.ReferenceIdeal.dot_S4096x8192_S8192x64_S4096x64_1_0_0_1_n_n none W x (ix2 P q)
      = ∑ K : Fin 8192, W (ix2 P K) * x (ix2 K q) := by
  simp only [Host.dotGeneral]
  rw [Ideal.dotGeneral_apply, ← Equiv.sum_comp (contrEquiv1 Cert.ReferenceIdeal.dot_S4096x8192_S8192x64_S4096x64_1_0_0_1_n_n 8192 rfl rfl).symm]
  refine Finset.sum_congr rfl fun K _ => ?_
  have hK := contrEquiv1_symm_val Cert.ReferenceIdeal.dot_S4096x8192_S8192x64_S4096x64_1_0_0_1_n_n 8192 rfl rfl K
  have el : Cert.ReferenceIdeal.dot_S4096x8192_S8192x64_S4096x64_1_0_0_1_n_n.lhsIdx (ix2 P q) ((contrEquiv1 Cert.ReferenceIdeal.dot_S4096x8192_S8192x64_S4096x64_1_0_0_1_n_n 8192 rfl rfl).symm K) = ix2 P K := funext fun a => Fin.ext (by
    match a with
    | ⟨0, _⟩ => exact lhsRef_ax0_bot _ _
    | ⟨1, _⟩ => exact (lhsRef_ax1_bot _ _).trans hK)
  have er : Cert.ReferenceIdeal.dot_S4096x8192_S8192x64_S4096x64_1_0_0_1_n_n.rhsIdx (ix2 P q) ((contrEquiv1 Cert.ReferenceIdeal.dot_S4096x8192_S8192x64_S4096x64_1_0_0_1_n_n 8192 rfl rfl).symm K) = ix2 K q := funext fun a => Fin.ext (by
    match a with
    | ⟨0, _⟩ => exact (rhsRef_ax0_bot _ _).trans hK
    | ⟨1, _⟩ => exact rhsRef_ax1_bot _ _)
  rw [el, er]

def lo_bot (k : Fin 4096) : Fin 8192 := ⟨k.val, by omega⟩
def hi_bot (k : Fin 4096) : Fin 8192 := ⟨4096 + k.val, by omega⟩

/-- A sum over the whole contraction axis is the sum over its lower half plus the sum over its upper half. -/
theorem sum_blocks_bot (f : Fin 8192 → EReal) :
    (0 + ∑ k : Fin 4096, f (lo_bot k)) + ∑ k : Fin 4096, f (hi_bot k) = ∑ K : Fin 8192, f K := by
  rw [zero_add]
  exact (Fin.sum_univ_add (a := 4096) (b := 4096) f).symm

theorem two_steps_bot (x0 x1 : FVec Ideal S4096x64 .f32) (w0 w1 : FVec Ideal S1024x4096 .bf16) (p : Fin 1024) (q : Fin 64) :
    k2_pay2 (F := Ideal) x1 (k2_pay2 (F := Ideal) x0 (k2_pay1 (F := Ideal)) w0) w1 (ix2 p q)
      = (0 + ∑ k : Fin 4096, w0 (ix2 p k) * x0 (ix2 k q)) + ∑ k : Fin 4096, w1 (ix2 p k) * x1 (ix2 k q) := by
  rw [pay2_apply_bot x1 (k2_pay2 (F := Ideal) x0 (k2_pay1 (F := Ideal)) w0) w1 p q, pay2_apply_bot x0 (k2_pay1 (F := Ideal)) w0 p q,
    pay1_apply_bot (ix2 p q)]

abbrev prodBot (W : FVec Ideal S4096x8192 .bf16) (X : FVec Ideal S8192x64 .f32) : FVec Ideal S4096x64 .f32 :=
  Host.dotGeneral (F := Ideal) (φ₁ := .bf16) (φ₂ := .f32) Cert.ReferenceIdeal.dot_S4096x8192_S8192x64_S4096x64_1_0_0_1_n_n none W X

/-- Two reduction steps over the zero accumulator, on blocks that are the two halves of W's row and of X's column, give the entry of W · X. -/
theorem acc_prod_bot (W : FVec Ideal S4096x8192 .bf16) (X : FVec Ideal S8192x64 .f32)
    (w0 w1 : FVec Ideal S1024x4096 .bf16) (x0 x1 : FVec Ideal S4096x64 .f32) (P : Fin 4096) (p : Fin 1024) (q : Fin 64)
    (hw0 : ∀ k, w0 (ix2 p k) = W (ix2 P (lo_bot k))) (hw1 : ∀ k, w1 (ix2 p k) = W (ix2 P (hi_bot k)))
    (hx0 : ∀ k, x0 (ix2 k q) = X (ix2 (lo_bot k) q)) (hx1 : ∀ k, x1 (ix2 k q) = X (ix2 (hi_bot k) q)) :
    k2_pay2 (F := Ideal) x1 (k2_pay2 (F := Ideal) x0 (k2_pay1 (F := Ideal)) w0) w1 (ix2 p q) = prodBot W X (ix2 P q) := by
  refine (two_steps_bot x0 x1 w0 w1 p q).trans ?_
  simp only [hw0, hw1, hx0, hx1]
  exact (sum_blocks_bot fun K => W (ix2 P K) * X (ix2 K q)).trans (hostDot_apply_bot W X P q).symm

end Value

end Cert.KernelIdeal.Hand

end
-- ==== Proof.KI.Val2.lean ====
import proofs.«161291_j15487652069895_1_alg».proof.Proof.KI.Dat2
import proofs.«161291_j15487652069895_1_alg».proof.Proof.KI.ValBottom
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (V : Vals Ideal)

namespace Value

abbrev warr_r2 (c : Dev nD) : FVec Ideal S4096x8192 .bf16 := V c (Pipeline.arrRef spec2 0)
abbrev xarr_r2 (c : Dev nD) : FVec Ideal S8192x64 .f32 := V c (Pipeline.arrRef spec2 1)

theorem wblk_apply_r2 (c : Dev nD) (t : Fin cfg2.N) (p : Fin 1024) (k : Fin 4096) (P : Fin 4096) (K : Fin 8192)
    (hP : P.val = win2_0.index t (0 : Fin 2) * 1024 + p.val) (hK : K.val = win2_0.index t (1 : Fin 2) * 4096 + k.val) :
    wblk2 V c t (ix2 p k) = warr_r2 V c (ix2 P K) := by
  unfold wblk2 iblk2 warr_r2
  rw [View.read_apply]
  show (V c (Pipeline.arrRef spec2 0) : FVec Ideal S4096x8192 .bf16) _ = (V c (Pipeline.arrRef spec2 0) : FVec Ideal S4096x8192 .bf16) _
  congr 1
  funext a
  apply Fin.ext
  match a with
  | ⟨0, _⟩ => show win2_0.index t (0 : Fin 2) * 1024 + 1 * p.val = P.val; omega
  | ⟨1, _⟩ => show win2_0.index t (1 : Fin 2) * 4096 + 1 * k.val = K.val; omega

theorem xblk_apply_r2 (c : Dev nD) (t : Fin cfg2.N) (k : Fin 4096) (q : Fin 64) (K : Fin 8192) (Q : Fin 64)
    (hK : K.val = win2_1.index t (0 : Fin 2) * 4096 + k.val) (hQ : Q.val = win2_1.index t (1 : Fin 2) * 64 + q.val) :
    xblk2 V c t (ix2 k q) = xarr_r2 V c (ix2 K Q) := by
  unfold xblk2 iblk2 xarr_r2
  rw [View.read_apply]
  show (V c (Pipeline.arrRef spec2 1) : FVec Ideal S8192x64 .f32) _ = (V c (Pipeline.arrRef spec2 1) : FVec Ideal S8192x64 .f32) _
  congr 1
  funext a
  apply Fin.ext
  match a with
  | ⟨0, _⟩ => show win2_1.index t (0 : Fin 2) * 4096 + 1 * k.val = K.val; omega
  | ⟨1, _⟩ => show win2_1.index t (1 : Fin 2) * 64 + 1 * q.val = Q.val; omega

theorem idx_facts_r2 : ∀ t s : Fin cfg2.N, t.val % 2 = 1 → s.val + 1 = t.val →
    win2_0.index t (0 : Fin 2) = win2_2.index t (0 : Fin 2) ∧ win2_0.index t (1 : Fin 2) = 1
    ∧ win2_1.index t (0 : Fin 2) = 1 ∧ win2_1.index t (1 : Fin 2) = 0
    ∧ win2_0.index s (0 : Fin 2) = win2_2.index t (0 : Fin 2) ∧ win2_0.index s (1 : Fin 2) = 0
    ∧ win2_1.index s (0 : Fin 2) = 0 ∧ win2_1.index s (1 : Fin 2) = 0
    ∧ win2_2.index t (1 : Fin 2) = 0 ∧ win2_2.index t (0 : Fin 2) ≤ 3 :=
  (by decide +kernel : ∀ t s : Fin grid2.N, _)

theorem idx_onto_r2 : ∀ r : Fin 4, ∃ t : Fin cfg2.N, t.val % 2 = 1 ∧ win2_2.index t = ![r.val, 0] :=
  (by decide +kernel : ∀ r : Fin 4, ∃ t : Fin grid2.N, t.val % 2 = 1 ∧ win2_2.index t = ![r.val, 0])

abbrev prod_r2 (c : Dev nD) : FVec Ideal S4096x64 .f32 := prodBot (warr_r2 V c) (xarr_r2 V c)

theorem acc_eq_prod_r2 (c : Dev nD) (t s : Fin cfg2.N) (ht : t.val % 2 = 1) (hs : s.val + 1 = t.val) (p : Fin 1024) (q : Fin 64)
    (P : Fin 4096) (hP : P.val = win2_2.index t (0 : Fin 2) * 1024 + p.val) :
    acc2 V c t.val t.isLt (ix2 p q) = prod_r2 V c (ix2 P q) := by
  obtain ⟨e0, e1, e2, e3, e4, e5, e6, e7, e8, e9⟩ := idx_facts_r2 t s ht hs
  rw [show acc2 V c t.val t.isLt = _ from accOf_flush _ _ t s ht hs]
  exact acc_prod_bot (warr_r2 V c) (xarr_r2 V c) (wblk2 V c s) (wblk2 V c t) (xblk2 V c s) (xblk2 V c t) P p q
    (fun k => wblk_apply_r2 V c s p k P (lo_bot k) (by rw [e4]; exact hP) (by rw [e5]; show k.val = 0 * 4096 + k.val; omega))
    (fun k => wblk_apply_r2 V c t p k P (hi_bot k) (by rw [e0]; exact hP) (by rw [e1]; show 4096 + k.val = 1 * 4096 + k.val; omega))
    (fun k => xblk_apply_r2 V c s k q (lo_bot k) q (by rw [e6]; show k.val = 0 * 4096 + k.val; omega) (by rw [e7]; omega))
    (fun k => xblk_apply_r2 V c t k q (hi_bot k) q (by rw [e2]; show 4096 + k.val = 1 * 4096 + k.val; omega) (by rw [e3]; omega))

/-- What an odd point writes back is its block of W · x. -/
theorem flushed_eq_r2 (c : Dev nD) (t : Fin cfg2.N) (hf : (cfg2.win 2).flush t = true) :
    (dat2 V c).flushed 2 t = ((cfg2.win 2).blk t).view.read (Elt Ideal) (prod_r2 V c) := by
  have ht : t.val % 2 = 1 := (flush2_2 t).mp hf
  have hN : cfg2.N = 8 := N_2
  obtain ⟨e0, e1, e2, e3, e4, e5, e6, e7, e8, e9⟩ := idx_facts_r2 t ⟨t.val - 1, by have := t.isLt; omega⟩ ht (by show t.val - 1 + 1 = t.val; omega)
  show (cfg2.win 2).cut (grid2.coords t) ((dat2 V c).after 2 t) = _
  rw [dat2_after2]
  funext y
  obtain ⟨p, q, rfl⟩ : ∃ (p : Fin 1024) (q : Fin 64), y = ix2 p q := ⟨y 0, y 1, eq_ix2 y⟩
  rw [View.read_apply]
  show acc2 V c t.val t.isLt (ix2 p q) = prod_r2 V c (((cfg2.win 2).blk t).view.emb (ix2 p q))
  have hemb : ((cfg2.win 2).blk t).view.emb (ix2 p q)
      = (ix2 (⟨win2_2.index t (0 : Fin 2) * 1024 + p.val, by have := p.isLt; omega⟩ : Fin 4096) q : S4096x64.Idx) := by
    funext a
    apply Fin.ext
    match a with
    | ⟨0, _⟩ => show win2_2.index t (0 : Fin 2) * 1024 + 1 * p.val = win2_2.index t (0 : Fin 2) * 1024 + p.val; omega
    | ⟨1, _⟩ => show win2_2.index t (1 : Fin 2) * 64 + 1 * q.val = q.val; omega
  rw [hemb]
  exact acc_eq_prod_r2 V c t ⟨t.val - 1, by have := t.isLt; omega⟩ ht (by show t.val - 1 + 1 = t.val; omega) p q _ rfl

theorem mem_blk_r2 (t : Fin cfg2.N) (i : S4096x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole (Pipeline.arrRef spec2 2)).slice (win2_2.rect t)).set ↔ _
  rw [View.set_slice_whole, Rect.mem_set_unit]
  exact Iff.rfl

/-- Every index of the output lies in the block of the odd point of its row tile. -/
theorem cover_r2 (i : S4096x64.Idx) : ∃ t : Fin cfg2.N, (cfg2.win 2).flush t = true ∧ i ∈ ((cfg2.win 2).blk t).view.set := by
  have hi0 : (i 0).val < 4096 := (i 0).isLt
  have hi1 : (i 1).val < 64 := (i 1).isLt
  obtain ⟨t, ht, hq⟩ := idx_onto_r2 ⟨(i 0).val / 1024, by omega⟩
  have q0 : win2_2.index t (0 : Fin 2) = (i 0).val / 1024 := congrFun hq 0
  have q1 : win2_2.index t (1 : Fin 2) = 0 := congrFun hq 1
  refine ⟨t, (flush2_2 t).mpr ht, ?_⟩
  rw [mem_blk_r2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 64 ≤ (i 1).val ∧ (i 1).val < win2_2.index t (1 : Fin 2) * 64 + 64; omega

theorem bottom_arr2 (c : Dev nD) (j : S4096x64.Idx) :
    (dat2 V c).arrAt 2 cfg2.N j
      = Host.dotGeneral (F := Ideal) (φ₁ := .bf16) (φ₂ := .f32) Cert.ReferenceIdeal.dot_S4096x8192_S8192x64_S4096x64_1_0_0_1_n_n none
          (V c (Pipeline.arrRef spec2 0)) (V c (Pipeline.arrRef spec2 1)) j :=
  congrFun ((dat2 V c).arrAt_eq_of_cover 2 (prod_r2 V c) (fun t hf => flushed_eq_r2 V c t hf) cover_r2) j

end Value

end Cert.KernelIdeal.Hand

end
-- ==== Proof.KI.ValTop.lean ====
import proofs.«161291_j15487652069895_1_alg».proof.Proof.KI.Common
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace Value

theorem lhsBlk_ax0_top (i : S2048x64.Idx) (q : dot_S2048x2048_S2048x64_S2048x64_0_0_1_1_n_n.contr.Idx) :
    (dot_S2048x2048_S2048x64_S2048x64_0_0_1_1_n_n.lhsIdx i q 0).val = (q ⟨0, by decide⟩).val :=
  dot_S2048x2048_S2048x64_S2048x64_0_0_1_1_n_n.lhsIdx_val_of_single rfl i q
theorem lhsBlk_ax1_top (i : S2048x64.Idx) (q : dot_S2048x2048_S2048x64_S2048x64_0_0_1_1_n_n.contr.Idx) :
    (dot_S2048x2048_S2048x64_S2048x64_0_0_1_1_n_n.lhsIdx i q 1).val = (i 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl
theorem rhsBlk_ax0_top (i : S2048x64.Idx) (q : dot_S2048x2048_S2048x64_S2048x64_0_0_1_1_n_n.contr.Idx) :
    (dot_S2048x2048_S2048x64_S2048x64_0_0_1_1_n_n.rhsIdx i q 0).val = (q ⟨0, by decide⟩).val :=
  dot_S2048x2048_S2048x64_S2048x64_0_0_1_1_n_n.rhsIdx_val_of_single rfl i q
theorem rhsBlk_ax1_top (i : S2048x64.Idx) (q : dot_S2048x2048_S2048x64_S2048x64_0_0_1_1_n_n.contr.Idx) :
    (dot_S2048x2048_S2048x64_S2048x64_0_0_1_1_n_n.rhsIdx i q 1).val = (i 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

theorem matmulBlk_apply_top (lhs : FVec Ideal S2048x2048 .bf16) (rhs : FVec Ideal S2048x64 .bf16) (u : Fin 2048) (q : Fin 64) :
    matmul dot_S2048x2048_S2048x64_S2048x64_0_0_1_1_n_n none lhs rhs (constant (F := Ideal) S2048x64 .f32 0x00000000#32) (ix2 u q)
      = ∑ k : Fin 2048, lhs (ix2 k u) * rhs (ix2 k q) := by
  simp only [matmul]
  rw [Ideal.matmul_constant_zero_apply, ← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 u q) ((contrEquiv1 dot_S2048x2048_S2048x64_S2048x64_0_0_1_1_n_n 2048 rfl rfl).symm k) = ix2 k u := funext fun a => Fin.ext (by
    match a with
    | ⟨0, _⟩ => exact (lhsBlk_ax0_top _ _).trans hk
    | ⟨1, _⟩ => exact lhsBlk_ax1_top _ _)
  have er : dot_S2048x2048_S2048x64_S2048x64_0_0_1_1_n_n.rhsIdx (ix2 u q) ((contrEquiv1 dot_S2048x2048_S2048x64_S2048x64_0_0_1_1_n_n 2048 rfl rfl).symm k) = ix2 k q := funext fun a => Fin.ext (by
    match a with
    | ⟨0, _⟩ => exact (rhsBlk_ax0_top _ _).trans hk
    | ⟨1, _⟩ => exact rhsBlk_ax1_top _ _)
  rw [el, er]

theorem pay1_apply_top (j : S2048x64.Idx) : k3_pay1 (F := Ideal) j = 0 := by
  unfold k3_pay1
  simp only [shapeCast_self]
  exact Ideal.ofBits_zero_f32

theorem pay2_apply_top (v3 : FVec Ideal S2048x64 .f32) (v6 : FVec Ideal S2048x2048 .bf16) (v9 : FVec Ideal S2048x64 .f32) (u : Fin 2048) (q : Fin 64) :
    k3_pay2 (F := Ideal) v3 v6 v9 (ix2 u q) = v9 (ix2 u q) + ∑ k : Fin 2048, v6 (ix2 k u) * v3 (ix2 k q) := by
  unfold k3_pay2
  simp only [shapeCast_self]
  refine (addf_apply _ _ _).trans ?_
  refine congrArg (v9 (ix2 u q) + ·) ?_
  exact matmulBlk_apply_top v6 (truncf .bf16 v3 bitsLt_bf16_f32) u q

theorem lhsRef_ax0_top (i : S8192x64.Idx) (q : Cert.ReferenceIdeal.dot_S8192x4096_S4096x64_S8192x64_1_0_0_1_n_n.contr.Idx) :
    (Cert.ReferenceIdeal.dot_S8192x4096_S4096x64_S8192x64_1_0_0_1_n_n.lhsIdx i q 0).val = (i 0).val := by
  unfold DotDims.lhsIdx
  rw [dif_neg (show ¬(0 : Fin Cert.ReferenceIdeal.S8192x4096.rank) ∈ Cert.ReferenceIdeal.dot_S8192x4096_S4096x64_S8192x64_1_0_0_1_n_n.lhsBatch by decide), dif_pos (show (0 : Fin Cert.ReferenceIdeal.S8192x4096.rank) ∈ Cert.ReferenceIdeal.dot_S8192x4096_S4096x64_S8192x64_1_0_0_1_n_n.lhsNonContracting by decide)]
  rfl
theorem lhsRef_ax1_top (i : S8192x64.Idx) (q : Cert.ReferenceIdeal.dot_S8192x4096_S4096x64_S8192x64_1_0_0_1_n_n.contr.Idx) :
    (Cert.ReferenceIdeal.dot_S8192x4096_S4096x64_S8192x64_1_0_0_1_n_n.lhsIdx i q 1).val = (q ⟨0, by decide⟩).val :=
  Cert.ReferenceIdeal.dot_S8192x4096_S4096x64_S8192x64_1_0_0_1_n_n.lhsIdx_val_of_single rfl i q
theorem rhsRef_ax0_top (i : S8192x64.Idx) (q : Cert.ReferenceIdeal.dot_S8192x4096_S4096x64_S8192x64_1_0_0_1_n_n.contr.Idx) :
    (Cert.ReferenceIdeal.dot_S8192x4096_S4096x64_S8192x64_1_0_0_1_n_n.rhsIdx i q 0).val = (q ⟨0, by decide⟩).val :=
  Cert.ReferenceIdeal.dot_S8192x4096_S4096x64_S8192x64_1_0_0_1_n_n.rhsIdx_val_of_single rfl i q
theorem rhsRef_ax1_top (i : S8192x64.Idx) (q : Cert.ReferenceIdeal.dot_S8192x4096_S4096x64_S8192x64_1_0_0_1_n_n.contr.Idx) :
    (Cert.ReferenceIdeal.dot_S8192x4096_S4096x64_S8192x64_1_0_0_1_n_n.rhsIdx i q 1).val = (i 1).val := by
  unfold DotDims.rhsIdx
  rw [dif_neg (show ¬(1 : Fin S4096x64.rank) ∈ Cert.ReferenceIdeal.dot_S8192x4096_S4096x64_S8192x64_1_0_0_1_n_n.rhsBatch by decide), dif_pos (show (1 : Fin S4096x64.rank) ∈ Cert.ReferenceIdeal.dot_S8192x4096_S4096x64_S8192x64_1_0_0_1_n_n.rhsNonContracting by decide)]
  rfl

theorem hostDot_apply_top (Wt : FVec Ideal Cert.ReferenceIdeal.S8192x4096 .bf16) (x : FVec Ideal S4096x64 .f32) (U : Fin 8192) (q : Fin 64) :
    Host.dotGeneral (F := Ideal) (φ₁ := .bf16) (φ₂ := .f32) Cert.ReferenceIdeal.dot_S8192x4096_S4096x64_S8192x64_1_0_0_1_n_n none Wt x (ix2 U q)
      = ∑ K : Fin 4096, Wt (ix2 U K) * x (ix2 K q) := by
  simp only [Host.dotGeneral]
  rw [Ideal.dotGeneral_apply, ← Equiv.sum_comp (contrEquiv1 Cert.ReferenceIdeal.dot_S8192x4096_S4096x64_S8192x64_1_0_0_1_n_n 4096 rfl rfl).symm]
  refine Finset.sum_congr rfl fun K _ => ?_
  have hK := contrEquiv1_symm_val Cert.ReferenceIdeal.dot_S8192x4096_S4096x64_S8192x64_1_0_0_1_n_n 4096 rfl rfl K
  have el : Cert.ReferenceIdeal.dot_S8192x4096_S4096x64_S8192x64_1_0_0_1_n_n.lhsIdx (ix2 U q) ((contrEquiv1 Cert.ReferenceIdeal.dot_S8192x4096_S4096x64_S8192x64_1_0_0_1_n_n 4096 rfl rfl).symm K) = ix2 U K := funext fun a => Fin.ext (by
    match a with
    | ⟨0, _⟩ => exact lhsRef_ax0_top _ _
    | ⟨1, _⟩ => exact (lhsRef_ax1_top _ _).trans hK)
  have er : Cert.ReferenceIdeal.dot_S8192x4096_S4096x64_S8192x64_1_0_0_1_n_n.rhsIdx (ix2 U q) ((contrEquiv1 Cert.ReferenceIdeal.dot_S8192x4096_S4096x64_S8192x64_1_0_0_1_n_n 4096 rfl rfl).symm K) = ix2 K q := funext fun a => Fin.ext (by
    match a with
    | ⟨0, _⟩ => exact (rhsRef_ax0_top _ _).trans hK
    | ⟨1, _⟩ => exact rhsRef_ax1_top _ _)
  rw [el, er]

theorem transposeW_apply_top (W : FVec Ideal S4096x8192 .bf16) (h : Cert.ReferenceIdeal.S4096x8192.Transposes [1, 0] Cert.ReferenceIdeal.S8192x4096)
    (U : Fin 8192) (K : Fin 4096) :
    (transpose Cert.ReferenceIdeal.S8192x4096 [1, 0] W h : FVec Ideal Cert.ReferenceIdeal.S8192x4096 .bf16) (ix2 U K) = W (ix2 K U) :=
  transpose_apply [1, 0] W h (ix2 U K) (ix2 K U) (fun b => match b with
    | ⟨0, _⟩ => rfl
    | ⟨1, _⟩ => rfl)

def lo_top (k : Fin 2048) : Fin 4096 := ⟨k.val, by omega⟩
def hi_top (k : Fin 2048) : Fin 4096 := ⟨2048 + k.val, by omega⟩

/-- A sum over the whole contraction axis is the sum over its lower half plus the sum over its upper half. -/
theorem sum_blocks_top (f : Fin 4096 → EReal) :
    (0 + ∑ k : Fin 2048, f (lo_top k)) + ∑ k : Fin 2048, f (hi_top k) = ∑ K : Fin 4096, f K := by
  rw [zero_add]
  exact (Fin.sum_univ_add (a := 2048) (b := 2048) f).symm

theorem two_steps_top (x0 x1 : FVec Ideal S2048x64 .f32) (w0 w1 : FVec Ideal S2048x2048 .bf16) (u : Fin 2048) (q : Fin 64) :
    k3_pay2 (F := Ideal) x1 w1 (k3_pay2 (F := Ideal) x0 w0 (k3_pay1 (F := Ideal))) (ix2 u q)
      = (0 + ∑ k : Fin 2048, w0 (ix2 k u) * x0 (ix2 k q)) + ∑ k : Fin 2048, w1 (ix2 k u) * x1 (ix2 k q) := by
  rw [pay2_apply_top x1 w1 (k3_pay2 (F := Ideal) x0 w0 (k3_pay1 (F := Ideal))) u q, pay2_apply_top x0 w0 (k3_pay1 (F := Ideal)) u q,
    pay1_apply_top (ix2 u q)]

abbrev prodTop (W : FVec Ideal S4096x8192 .bf16) (X : FVec Ideal S4096x64 .f32) : FVec Ideal S8192x64 .f32 :=
  Host.dotGeneral (F := Ideal) (φ₁ := .bf16) (φ₂ := .f32) Cert.ReferenceIdeal.dot_S8192x4096_S4096x64_S8192x64_1_0_0_1_n_n none
    (transpose Cert.ReferenceIdeal.S8192x4096 [1, 0] W Cert.ReferenceIdeal.Facts₀.transposes_S4096x8192_S8192x4096_1_0 : FVec Ideal Cert.ReferenceIdeal.S8192x4096 .bf16) X

/-- Two reduction steps over the zero accumulator, on blocks that are the two halves of W's column and of X's column, give the entry of Wᵀ · X. -/
theorem acc_prod_top (W : FVec Ideal S4096x8192 .bf16) (X : FVec Ideal S4096x64 .f32)
    (w0 w1 : FVec Ideal S2048x2048 .bf16) (x0 x1 : FVec Ideal S2048x64 .f32) (U : Fin 8192) (u : Fin 2048) (q : Fin 64)
    (hw0 : ∀ k, w0 (ix2 k u) = W (ix2 (lo_top k) U)) (hw1 : ∀ k, w1 (ix2 k u) = W (ix2 (hi_top k) U))
    (hx0 : ∀ k, x0 (ix2 k q) = X (ix2 (lo_top k) q)) (hx1 : ∀ k, x1 (ix2 k q) = X (ix2 (hi_top k) q)) :
    k3_pay2 (F := Ideal) x1 w1 (k3_pay2 (F := Ideal) x0 w0 (k3_pay1 (F := Ideal))) (ix2 u q) = prodTop W X (ix2 U q) := by
  refine (two_steps_top x0 x1 w0 w1 u q).trans ?_
  simp only [hw0, hw1, hx0, hx1]
  refine (sum_blocks_top fun K => W (ix2 K U) * X (ix2 K q)).trans ?_
  exact ((hostDot_apply_top _ X U q).trans (Finset.sum_congr rfl fun K _ => by rw [transposeW_apply_top W _ U K])).symm

end Value

end Cert.KernelIdeal.Hand

end
-- ==== Proof.KI.Val3.lean ====
import proofs.«161291_j15487652069895_1_alg».proof.Proof.KI.Dat3
import proofs.«161291_j15487652069895_1_alg».proof.Proof.KI.ValTop
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (V : Vals Ideal)

namespace Value

abbrev warr_r3 (c : Dev nD) : FVec Ideal S4096x8192 .bf16 := V c (Pipeline.arrRef spec3 0)
abbrev xarr_r3 (c : Dev nD) : FVec Ideal S4096x64 .f32 := V c (Pipeline.arrRef spec3 1)

theorem wblk_apply_r3 (c : Dev nD) (t : Fin cfg3.N) (k : Fin 2048) (u : Fin 2048) (K : Fin 4096) (U : Fin 8192)
    (hK : K.val = win3_0.index t (0 : Fin 2) * 2048 + k.val) (hU : U.val = win3_0.index t (1 : Fin 2) * 2048 + u.val) :
    wblk3 V c t (ix2 k u) = warr_r3 V c (ix2 K U) := by
  unfold wblk3 iblk3 warr_r3
  rw [View.read_apply]
  show (V c (Pipeline.arrRef spec3 0) : FVec Ideal S4096x8192 .bf16) _ = (V c (Pipeline.arrRef spec3 0) : FVec Ideal S4096x8192 .bf16) _
  congr 1
  funext a
  apply Fin.ext
  match a with
  | ⟨0, _⟩ => show win3_0.index t (0 : Fin 2) * 2048 + 1 * k.val = K.val; omega
  | ⟨1, _⟩ => show win3_0.index t (1 : Fin 2) * 2048 + 1 * u.val = U.val; omega

theorem xblk_apply_r3 (c : Dev nD) (t : Fin cfg3.N) (k : Fin 2048) (q : Fin 64) (K : Fin 4096) (Q : Fin 64)
    (hK : K.val = win3_1.index t (0 : Fin 2) * 2048 + k.val) (hQ : Q.val = win3_1.index t (1 : Fin 2) * 64 + q.val) :
    xblk3 V c t (ix2 k q) = xarr_r3 V c (ix2 K Q) := by
  unfold xblk3 iblk3 xarr_r3
  rw [View.read_apply]
  show (V c (Pipeline.arrRef spec3 1) : FVec Ideal S4096x64 .f32) _ = (V c (Pipeline.arrRef spec3 1) : FVec Ideal S4096x64 .f32) _
  congr 1
  funext a
  apply Fin.ext
  match a with
  | ⟨0, _⟩ => show win3_1.index t (0 : Fin 2) * 2048 + 1 * k.val = K.val; omega
  | ⟨1, _⟩ => show win3_1.index t (1 : Fin 2) * 64 + 1 * q.val = Q.val; omega

theorem idx_facts_r3 : ∀ t s : Fin cfg3.N, t.val % 2 = 1 → s.val + 1 = t.val →
    win3_0.index t (0 : Fin 2) = 1 ∧ win3_0.index t (1 : Fin 2) = win3_2.index t (0 : Fin 2)
    ∧ win3_1.index t (0 : Fin 2) = 1 ∧ win3_1.index t (1 : Fin 2) = 0
    ∧ win3_0.index s (0 : Fin 2) = 0 ∧ win3_0.index s (1 : Fin 2) = win3_2.index t (0 : Fin 2)
    ∧ win3_1.index s (0 : Fin 2) = 0 ∧ win3_1.index s (1 : Fin 2) = 0
    ∧ win3_2.index t (1 : Fin 2) = 0 ∧ win3_2.index t (0 : Fin 2) ≤ 3 :=
  (by decide +kernel : ∀ t s : Fin grid3.N, _)

theorem idx_onto_r3 : ∀ r : Fin 4, ∃ t : Fin cfg3.N, t.val % 2 = 1 ∧ win3_2.index t = ![r.val, 0] :=
  (by decide +kernel : ∀ r : Fin 4, ∃ t : Fin grid3.N, t.val % 2 = 1 ∧ win3_2.index t = ![r.val, 0])

abbrev prod_r3 (c : Dev nD) : FVec Ideal S8192x64 .f32 := prodTop (warr_r3 V c) (xarr_r3 V c)

theorem acc_eq_prod_r3 (c : Dev nD) (t s : Fin cfg3.N) (ht : t.val % 2 = 1) (hs : s.val + 1 = t.val) (u : Fin 2048) (q : Fin 64)
    (U : Fin 8192) (hU : U.val = win3_2.index t (0 : Fin 2) * 2048 + u.val) :
    acc3 V c t.val t.isLt (ix2 u q) = prod_r3 V c (ix2 U q) := by
  obtain ⟨e0, e1, e2, e3, e4, e5, e6, e7, e8, e9⟩ := idx_facts_r3 t s ht hs
  rw [show acc3 V c t.val t.isLt = _ from accOf_flush _ _ t s ht hs]
  exact acc_prod_top (warr_r3 V c) (xarr_r3 V c) (wblk3 V c s) (wblk3 V c t) (xblk3 V c s) (xblk3 V c t) U u q
    (fun k => wblk_apply_r3 V c s k u (lo_top k) U (by rw [e4]; show k.val = 0 * 2048 + k.val; omega) (by rw [e5]; exact hU))
    (fun k => wblk_apply_r3 V c t k u (hi_top k) U (by rw [e0]; show 2048 + k.val = 1 * 2048 + k.val; omega) (by rw [e1]; exact hU))
    (fun k => xblk_apply_r3 V c s k q (lo_top k) q (by rw [e6]; show k.val = 0 * 2048 + k.val; omega) (by rw [e7]; omega))
    (fun k => xblk_apply_r3 V c t k q (hi_top k) q (by rw [e2]; show 2048 + k.val = 1 * 2048 + k.val; omega) (by rw [e3]; omega))

/-- What an odd point writes back is its block of Wᵀ · x. -/
theorem flushed_eq_r3 (c : Dev nD) (t : Fin cfg3.N) (hf : (cfg3.win 2).flush t = true) :
    (dat3 V c).flushed 2 t = ((cfg3.win 2).blk t).view.read (Elt Ideal) (prod_r3 V c) := by
  have ht : t.val % 2 = 1 := (flush3_2 t).mp hf
  have hN : cfg3.N = 8 := N_3
  obtain ⟨e0, e1, e2, e3, e4, e5, e6, e7, e8, e9⟩ := idx_facts_r3 t ⟨t.val - 1, by have := t.isLt; omega⟩ ht (by show t.val - 1 + 1 = t.val; omega)
  show (cfg3.win 2).cut (grid3.coords t) ((dat3 V c).after 2 t) = _
  rw [dat3_after2]
  funext y
  obtain ⟨u, q, rfl⟩ : ∃ (u : Fin 2048) (q : Fin 64), y = ix2 u q := ⟨y 0, y 1, eq_ix2 y⟩
  rw [View.read_apply]
  show acc3 V c t.val t.isLt (ix2 u q) = prod_r3 V c (((cfg3.win 2).blk t).view.emb (ix2 u q))
  have hemb : ((cfg3.win 2).blk t).view.emb (ix2 u q)
      = (ix2 (⟨win3_2.index t (0 : Fin 2) * 2048 + u.val, by have := u.isLt; omega⟩ : Fin 8192) q : S8192x64.Idx) := by
    funext a
    apply Fin.ext
    match a with
    | ⟨0, _⟩ => show win3_2.index t (0 : Fin 2) * 2048 + 1 * u.val = win3_2.index t (0 : Fin 2) * 2048 + u.val; omega
    | ⟨1, _⟩ => show win3_2.index t (1 : Fin 2) * 64 + 1 * q.val = q.val; omega
  rw [hemb]
  exact acc_eq_prod_r3 V c t ⟨t.val - 1, by have := t.isLt; omega⟩ ht (by show t.val - 1 + 1 = t.val; omega) u q _ rfl

theorem mem_blk_r3 (t : Fin cfg3.N) (i : S8192x64.Idx) :
    i ∈ ((cfg3.win 2).blk t).view.set ↔ ∀ a : Fin 2, win3_2.index t a * S2048x64.size a ≤ (i a).val ∧ (i a).val < win3_2.index t a * S2048x64.size a + S2048x64.size a := by
  show i ∈ ((View.whole (Pipeline.arrRef spec3 2)).slice (win3_2.rect t)).set ↔ _
  rw [View.set_slice_whole, Rect.mem_set_unit]
  exact Iff.rfl

/-- Every index of the output lies in the block of the odd point of its tile. -/
theorem cover_r3 (i : S8192x64.Idx) : ∃ t : Fin cfg3.N, (cfg3.win 2).flush t = true ∧ i ∈ ((cfg3.win 2).blk t).view.set := by
  have hi0 : (i 0).val < 8192 := (i 0).isLt
  have hi1 : (i 1).val < 64 := (i 1).isLt
  obtain ⟨t, ht, hq⟩ := idx_onto_r3 ⟨(i 0).val / 2048, by omega⟩
  have q0 : win3_2.index t (0 : Fin 2) = (i 0).val / 2048 := congrFun hq 0
  have q1 : win3_2.index t (1 : Fin 2) = 0 := congrFun hq 1
  refine ⟨t, (flush3_2 t).mpr ht, ?_⟩
  rw [mem_blk_r3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 64 ≤ (i 1).val ∧ (i 1).val < win3_2.index t (1 : Fin 2) * 64 + 64; omega

theorem top_arr3 (c : Dev nD) (j : S8192x64.Idx) :
    (dat3 V c).arrAt 2 cfg3.N j
      = Host.dotGeneral (F := Ideal) (φ₁ := .bf16) (φ₂ := .f32) Cert.ReferenceIdeal.dot_S8192x4096_S4096x64_S8192x64_1_0_0_1_n_n none
          (transpose Cert.ReferenceIdeal.S8192x4096 [1, 0] (V c (Pipeline.arrRef spec3 0)) Cert.ReferenceIdeal.Facts₀.transposes_S4096x8192_S8192x4096_1_0 : FVec Ideal Cert.ReferenceIdeal.S8192x4096 .bf16) (V c (Pipeline.arrRef spec3 1)) j :=
  congrFun ((dat3 V c).arrAt_eq_of_cover 2 (prod_r3 V c) (fun t hf => flushed_eq_r3 V c t hf) cover_r3) j

end Value

end Cert.KernelIdeal.Hand

end
-- ==== Proof.KI.Val4.lean ====
import proofs.«161291_j15487652069895_1_alg».proof.Proof.KI.Dat4
import proofs.«161291_j15487652069895_1_alg».proof.Proof.KI.ValBottom
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (V : Vals Ideal)

namespace Value

abbrev warr_r4 (c : Dev nD) : FVec Ideal S4096x8192 .bf16 := V c (Pipeline.arrRef spec4 0)
abbrev xarr_r4 (c : Dev nD) : FVec Ideal S8192x64 .f32 := V c (Pipeline.arrRef spec4 1)

theorem wblk_apply_r4 (c : Dev nD) (t : Fin cfg4.N) (p : Fin 1024) (k : Fin 4096) (P : Fin 4096) (K : Fin 8192)
    (hP : P.val = win4_0.index t (0 : Fin 2) * 1024 + p.val) (hK : K.val = win4_0.index t (1 : Fin 2) * 4096 + k.val) :
    wblk4 V c t (ix2 p k) = warr_r4 V c (ix2 P K) := by
  unfold wblk4 iblk4 warr_r4
  rw [View.read_apply]
  show (V c (Pipeline.arrRef spec4 0) : FVec Ideal S4096x8192 .bf16) _ = (V c (Pipeline.arrRef spec4 0) : FVec Ideal S4096x8192 .bf16) _
  congr 1
  funext a
  apply Fin.ext
  match a with
  | ⟨0, _⟩ => show win4_0.index t (0 : Fin 2) * 1024 + 1 * p.val = P.val; omega
  | ⟨1, _⟩ => show win4_0.index t (1 : Fin 2) * 4096 + 1 * k.val = K.val; omega

theorem xblk_apply_r4 (c : Dev nD) (t : Fin cfg4.N) (k : Fin 4096) (q : Fin 64) (K : Fin 8192) (Q : Fin 64)
    (hK : K.val = win4_1.index t (0 : Fin 2) * 4096 + k.val) (hQ : Q.val = win4_1.index t (1 : Fin 2) * 64 + q.val) :
    xblk4 V c t (ix2 k q) = xarr_r4 V c (ix2 K Q) := by
  unfold xblk4 iblk4 xarr_r4
  rw [View.read_apply]
  show (V c (Pipeline.arrRef spec4 1) : FVec Ideal S8192x64 .f32) _ = (V c (Pipeline.arrRef spec4 1) : FVec Ideal S8192x64 .f32) _
  congr 1
  funext a
  apply Fin.ext
  match a with
  | ⟨0, _⟩ => show win4_1.index t (0 : Fin 2) * 4096 + 1 * k.val = K.val; omega
  | ⟨1, _⟩ => show win4_1.index t (1 : Fin 2) * 64 + 1 * q.val = Q.val; omega

theorem idx_facts_r4 : ∀ t s : Fin cfg4.N, t.val % 2 = 1 → s.val + 1 = t.val →
    win4_0.index t (0 : Fin 2) = win4_2.index t (0 : Fin 2) ∧ win4_0.index t (1 : Fin 2) = 1
    ∧ win4_1.index t (0 : Fin 2) = 1 ∧ win4_1.index t (1 : Fin 2) = 0
    ∧ win4_0.index s (0 : Fin 2) = win4_2.index t (0 : Fin 2) ∧ win4_0.index s (1 : Fin 2) = 0
    ∧ win4_1.index s (0 : Fin 2) = 0 ∧ win4_1.index s (1 : Fin 2) = 0
    ∧ win4_2.index t (1 : Fin 2) = 0 ∧ win4_2.index t (0 : Fin 2) ≤ 3 :=
  (by decide +kernel : ∀ t s : Fin grid4.N, _)

theorem idx_onto_r4 : ∀ r : Fin 4, ∃ t : Fin cfg4.N, t.val % 2 = 1 ∧ win4_2.index t = ![r.val, 0] :=
  (by decide +kernel : ∀ r : Fin 4, ∃ t : Fin grid4.N, t.val % 2 = 1 ∧ win4_2.index t = ![r.val, 0])

abbrev prod_r4 (c : Dev nD) : FVec Ideal S4096x64 .f32 := prodBot (warr_r4 V c) (xarr_r4 V c)

theorem acc_eq_prod_r4 (c : Dev nD) (t s : Fin cfg4.N) (ht : t.val % 2 = 1) (hs : s.val + 1 = t.val) (p : Fin 1024) (q : Fin 64)
    (P : Fin 4096) (hP : P.val = win4_2.index t (0 : Fin 2) * 1024 + p.val) :
    acc4 V c t.val t.isLt (ix2 p q) = prod_r4 V c (ix2 P q) := by
  obtain ⟨e0, e1, e2, e3, e4, e5, e6, e7, e8, e9⟩ := idx_facts_r4 t s ht hs
  rw [show acc4 V c t.val t.isLt = _ from accOf_flush _ _ t s ht hs]
  exact acc_prod_bot (warr_r4 V c) (xarr_r4 V c) (wblk4 V c s) (wblk4 V c t) (xblk4 V c s) (xblk4 V c t) P p q
    (fun k => wblk_apply_r4 V c s p k P (lo_bot k) (by rw [e4]; exact hP) (by rw [e5]; show k.val = 0 * 4096 + k.val; omega))
    (fun k => wblk_apply_r4 V c t p k P (hi_bot k) (by rw [e0]; exact hP) (by rw [e1]; show 4096 + k.val = 1 * 4096 + k.val; omega))
    (fun k => xblk_apply_r4 V c s k q (lo_bot k) q (by rw [e6]; show k.val = 0 * 4096 + k.val; omega) (by rw [e7]; omega))
    (fun k => xblk_apply_r4 V c t k q (hi_bot k) q (by rw [e2]; show 4096 + k.val = 1 * 4096 + k.val; omega) (by rw [e3]; omega))

/-- What an odd point writes back is its block of W · x. -/
theorem flushed_eq_r4 (c : Dev nD) (t : Fin cfg4.N) (hf : (cfg4.win 2).flush t = true) :
    (dat4 V c).flushed 2 t = ((cfg4.win 2).blk t).view.read (Elt Ideal) (prod_r4 V c) := by
  have ht : t.val % 2 = 1 := (flush4_2 t).mp hf
  have hN : cfg4.N = 8 := N_4
  obtain ⟨e0, e1, e2, e3, e4, e5, e6, e7, e8, e9⟩ := idx_facts_r4 t ⟨t.val - 1, by have := t.isLt; omega⟩ ht (by show t.val - 1 + 1 = t.val; omega)
  show (cfg4.win 2).cut (grid4.coords t) ((dat4 V c).after 2 t) = _
  rw [dat4_after2]
  funext y
  obtain ⟨p, q, rfl⟩ : ∃ (p : Fin 1024) (q : Fin 64), y = ix2 p q := ⟨y 0, y 1, eq_ix2 y⟩
  rw [View.read_apply]
  show acc4 V c t.val t.isLt (ix2 p q) = prod_r4 V c (((cfg4.win 2).blk t).view.emb (ix2 p q))
  have hemb : ((cfg4.win 2).blk t).view.emb (ix2 p q)
      = (ix2 (⟨win4_2.index t (0 : Fin 2) * 1024 + p.val, by have := p.isLt; omega⟩ : Fin 4096) q : S4096x64.Idx) := by
    funext a
    apply Fin.ext
    match a with
    | ⟨0, _⟩ => show win4_2.index t (0 : Fin 2) * 1024 + 1 * p.val = win4_2.index t (0 : Fin 2) * 1024 + p.val; omega
    | ⟨1, _⟩ => show win4_2.index t (1 : Fin 2) * 64 + 1 * q.val = q.val; omega
  rw [hemb]
  exact acc_eq_prod_r4 V c t ⟨t.val - 1, by have := t.isLt; omega⟩ ht (by show t.val - 1 + 1 = t.val; omega) p q _ rfl

theorem mem_blk_r4 (t : Fin cfg4.N) (i : S4096x64.Idx) :
    i ∈ ((cfg4.win 2).blk t).view.set ↔ ∀ a : Fin 2, win4_2.index t a * S1024x64.size a ≤ (i a).val ∧ (i a).val < win4_2.index t a * S1024x64.size a + S1024x64.size a := by
  show i ∈ ((View.whole (Pipeline.arrRef spec4 2)).slice (win4_2.rect t)).set ↔ _
  rw [View.set_slice_whole, Rect.mem_set_unit]
  exact Iff.rfl

/-- Every index of the output lies in the block of the odd point of its row tile. -/
theorem cover_r4 (i : S4096x64.Idx) : ∃ t : Fin cfg4.N, (cfg4.win 2).flush t = true ∧ i ∈ ((cfg4.win 2).blk t).view.set := by
  have hi0 : (i 0).val < 4096 := (i 0).isLt
  have hi1 : (i 1).val < 64 := (i 1).isLt
  obtain ⟨t, ht, hq⟩ := idx_onto_r4 ⟨(i 0).val / 1024, by omega⟩
  have q0 : win4_2.index t (0 : Fin 2) = (i 0).val / 1024 := congrFun hq 0
  have q1 : win4_2.index t (1 : Fin 2) = 0 := congrFun hq 1
  refine ⟨t, (flush4_2 t).mpr ht, ?_⟩
  rw [mem_blk_r4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 64 ≤ (i 1).val ∧ (i 1).val < win4_2.index t (1 : Fin 2) * 64 + 64; omega

theorem bottom_arr4 (c : Dev nD) (j : S4096x64.Idx) :
    (dat4 V c).arrAt 2 cfg4.N j
      = Host.dotGeneral (F := Ideal) (φ₁ := .bf16) (φ₂ := .f32) Cert.ReferenceIdeal.dot_S4096x8192_S8192x64_S4096x64_1_0_0_1_n_n none
          (V c (Pipeline.arrRef spec4 0)) (V c (Pipeline.arrRef spec4 1)) j :=
  congrFun ((dat4 V c).arrAt_eq_of_cover 2 (prod_r4 V c) (fun t hf => flushed_eq_r4 V c t hf) cover_r4) j

end Value

end Cert.KernelIdeal.Hand

end
-- ==== Proof.KI.Val5.lean ====
import proofs.«161291_j15487652069895_1_alg».proof.Proof.KI.Dat5
import proofs.«161291_j15487652069895_1_alg».proof.Proof.KI.ValTop
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (V : Vals Ideal)

namespace Value

abbrev warr_r5 (c : Dev nD) : FVec Ideal S4096x8192 .bf16 := V c (Pipeline.arrRef spec5 0)
abbrev xarr_r5 (c : Dev nD) : FVec Ideal S4096x64 .f32 := V c (Pipeline.arrRef spec5 1)

theorem wblk_apply_r5 (c : Dev nD) (t : Fin cfg5.N) (k : Fin 2048) (u : Fin 2048) (K : Fin 4096) (U : Fin 8192)
    (hK : K.val = win5_0.index t (0 : Fin 2) * 2048 + k.val) (hU : U.val = win5_0.index t (1 : Fin 2) * 2048 + u.val) :
    wblk5 V c t (ix2 k u) = warr_r5 V c (ix2 K U) := by
  unfold wblk5 iblk5 warr_r5
  rw [View.read_apply]
  show (V c (Pipeline.arrRef spec5 0) : FVec Ideal S4096x8192 .bf16) _ = (V c (Pipeline.arrRef spec5 0) : FVec Ideal S4096x8192 .bf16) _
  congr 1
  funext a
  apply Fin.ext
  match a with
  | ⟨0, _⟩ => show win5_0.index t (0 : Fin 2) * 2048 + 1 * k.val = K.val; omega
  | ⟨1, _⟩ => show win5_0.index t (1 : Fin 2) * 2048 + 1 * u.val = U.val; omega

theorem xblk_apply_r5 (c : Dev nD) (t : Fin cfg5.N) (k : Fin 2048) (q : Fin 64) (K : Fin 4096) (Q : Fin 64)
    (hK : K.val = win5_1.index t (0 : Fin 2) * 2048 + k.val) (hQ : Q.val = win5_1.index t (1 : Fin 2) * 64 + q.val) :
    xblk5 V c t (ix2 k q) = xarr_r5 V c (ix2 K Q) := by
  unfold xblk5 iblk5 xarr_r5
  rw [View.read_apply]
  show (V c (Pipeline.arrRef spec5 1) : FVec Ideal S4096x64 .f32) _ = (V c (Pipeline.arrRef spec5 1) : FVec Ideal S4096x64 .f32) _
  congr 1
  funext a
  apply Fin.ext
  match a with
  | ⟨0, _⟩ => show win5_1.index t (0 : Fin 2) * 2048 + 1 * k.val = K.val; omega
  | ⟨1, _⟩ => show win5_1.index t (1 : Fin 2) * 64 + 1 * q.val = Q.val; omega

theorem idx_facts_r5 : ∀ t s : Fin cfg5.N, t.val % 2 = 1 → s.val + 1 = t.val →
    win5_0.index t (0 : Fin 2) = 1 ∧ win5_0.index t (1 : Fin 2) = win5_2.index t (0 : Fin 2)
    ∧ win5_1.index t (0 : Fin 2) = 1 ∧ win5_1.index t (1 : Fin 2) = 0
    ∧ win5_0.index s (0 : Fin 2) = 0 ∧ win5_0.index s (1 : Fin 2) = win5_2.index t (0 : Fin 2)
    ∧ win5_1.index s (0 : Fin 2) = 0 ∧ win5_1.index s (1 : Fin 2) = 0
    ∧ win5_2.index t (1 : Fin 2) = 0 ∧ win5_2.index t (0 : Fin 2) ≤ 3 :=
  (by decide +kernel : ∀ t s : Fin grid5.N, _)

theorem idx_onto_r5 : ∀ r : Fin 4, ∃ t : Fin cfg5.N, t.val % 2 = 1 ∧ win5_2.index t = ![r.val, 0] :=
  (by decide +kernel : ∀ r : Fin 4, ∃ t : Fin grid5.N, t.val % 2 = 1 ∧ win5_2.index t = ![r.val, 0])

abbrev prod_r5 (c : Dev nD) : FVec Ideal S8192x64 .f32 := prodTop (warr_r5 V c) (xarr_r5 V c)

theorem acc_eq_prod_r5 (c : Dev nD) (t s : Fin cfg5.N) (ht : t.val % 2 = 1) (hs : s.val + 1 = t.val) (u : Fin 2048) (q : Fin 64)
    (U : Fin 8192) (hU : U.val = win5_2.index t (0 : Fin 2) * 2048 + u.val) :
    acc5 V c t.val t.isLt (ix2 u q) = prod_r5 V c (ix2 U q) := by
  obtain ⟨e0, e1, e2, e3, e4, e5, e6, e7, e8, e9⟩ := idx_facts_r5 t s ht hs
  rw [show acc5 V c t.val t.isLt = _ from accOf_flush _ _ t s ht hs]
  exact acc_prod_top (warr_r5 V c) (xarr_r5 V c) (wblk5 V c s) (wblk5 V c t) (xblk5 V c s) (xblk5 V c t) U u q
    (fun k => wblk_apply_r5 V c s k u (lo_top k) U (by rw [e4]; show k.val = 0 * 2048 + k.val; omega) (by rw [e5]; exact hU))
    (fun k => wblk_apply_r5 V c t k u (hi_top k) U (by rw [e0]; show 2048 + k.val = 1 * 2048 + k.val; omega) (by rw [e1]; exact hU))
    (fun k => xblk_apply_r5 V c s k q (lo_top k) q (by rw [e6]; show k.val = 0 * 2048 + k.val; omega) (by rw [e7]; omega))
    (fun k => xblk_apply_r5 V c t k q (hi_top k) q (by rw [e2]; show 2048 + k.val = 1 * 2048 + k.val; omega) (by rw [e3]; omega))

/-- What an odd point writes back is its block of Wᵀ · x. -/
theorem flushed_eq_r5 (c : Dev nD) (t : Fin cfg5.N) (hf : (cfg5.win 2).flush t = true) :
    (dat5 V c).flushed 2 t = ((cfg5.win 2).blk t).view.read (Elt Ideal) (prod_r5 V c) := by
  have ht : t.val % 2 = 1 := (flush5_2 t).mp hf
  have hN : cfg5.N = 8 := N_5
  obtain ⟨e0, e1, e2, e3, e4, e5, e6, e7, e8, e9⟩ := idx_facts_r5 t ⟨t.val - 1, by have := t.isLt; omega⟩ ht (by show t.val - 1 + 1 = t.val; omega)
  show (cfg5.win 2).cut (grid5.coords t) ((dat5 V c).after 2 t) = _
  rw [dat5_after2]
  funext y
  obtain ⟨u, q, rfl⟩ : ∃ (u : Fin 2048) (q : Fin 64), y = ix2 u q := ⟨y 0, y 1, eq_ix2 y⟩
  rw [View.read_apply]
  show acc5 V c t.val t.isLt (ix2 u q) = prod_r5 V c (((cfg5.win 2).blk t).view.emb (ix2 u q))
  have hemb : ((cfg5.win 2).blk t).view.emb (ix2 u q)
      = (ix2 (⟨win5_2.index t (0 : Fin 2) * 2048 + u.val, by have := u.isLt; omega⟩ : Fin 8192) q : S8192x64.Idx) := by
    funext a
    apply Fin.ext
    match a with
    | ⟨0, _⟩ => show win5_2.index t (0 : Fin 2) * 2048 + 1 * u.val = win5_2.index t (0 : Fin 2) * 2048 + u.val; omega
    | ⟨1, _⟩ => show win5_2.index t (1 : Fin 2) * 64 + 1 * q.val = q.val; omega
  rw [hemb]
  exact acc_eq_prod_r5 V c t ⟨t.val - 1, by have := t.isLt; omega⟩ ht (by show t.val - 1 + 1 = t.val; omega) u q _ rfl

theorem mem_blk_r5 (t : Fin cfg5.N) (i : S8192x64.Idx) :
    i ∈ ((cfg5.win 2).blk t).view.set ↔ ∀ a : Fin 2, win5_2.index t a * S2048x64.size a ≤ (i a).val ∧ (i a).val < win5_2.index t a * S2048x64.size a + S2048x64.size a := by
  show i ∈ ((View.whole (Pipeline.arrRef spec5 2)).slice (win5_2.rect t)).set ↔ _
  rw [View.set_slice_whole, Rect.mem_set_unit]
  exact Iff.rfl

/-- Every index of the output lies in the block of the odd point of its tile. -/
theorem cover_r5 (i : S8192x64.Idx) : ∃ t : Fin cfg5.N, (cfg5.win 2).flush t = true ∧ i ∈ ((cfg5.win 2).blk t).view.set := by
  have hi0 : (i 0).val < 8192 := (i 0).isLt
  have hi1 : (i 1).val < 64 := (i 1).isLt
  obtain ⟨t, ht, hq⟩ := idx_onto_r5 ⟨(i 0).val / 2048, by omega⟩
  have q0 : win5_2.index t (0 : Fin 2) = (i 0).val / 2048 := congrFun hq 0
  have q1 : win5_2.index t (1 : Fin 2) = 0 := congrFun hq 1
  refine ⟨t, (flush5_2 t).mpr ht, ?_⟩
  rw [mem_blk_r5]
  intro a
  match a with
  | ⟨0, _⟩ => show win5_2.index t (0 : Fin 2) * 2048 ≤ (i 0).val ∧ (i 0).val < win5_2.index t (0 : Fin 2) * 2048 + 2048; omega
  | ⟨1, _⟩ => show win5_2.index t (1 : Fin 2) * 64 ≤ (i 1).val ∧ (i 1).val < win5_2.index t (1 : Fin 2) * 64 + 64; omega

theorem top_arr5 (c : Dev nD) (j : S8192x64.Idx) :
    (dat5 V c).arrAt 2 cfg5.N j
      = Host.dotGeneral (F := Ideal) (φ₁ := .bf16) (φ₂ := .f32) Cert.ReferenceIdeal.dot_S8192x4096_S4096x64_S8192x64_1_0_0_1_n_n none
          (transpose Cert.ReferenceIdeal.S8192x4096 [1, 0] (V c (Pipeline.arrRef spec5 0)) Cert.ReferenceIdeal.Facts₀.transposes_S4096x8192_S8192x4096_1_0 : FVec Ideal Cert.ReferenceIdeal.S8192x4096 .bf16) (V c (Pipeline.arrRef spec5 1)) j :=
  congrFun ((dat5 V c).arrAt_eq_of_cover 2 (prod_r5 V c) (fun t hf => flushed_eq_r5 V c t hf) cover_r5) j

end Value

end Cert.KernelIdeal.Hand

end
-- ==== Proof.KI.Val6.lean ====
import proofs.«161291_j15487652069895_1_alg».proof.Proof.KI.Dat6
import proofs.«161291_j15487652069895_1_alg».proof.Proof.KI.ValBottom
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (V : Vals Ideal)

namespace Value

abbrev warr_r6 (c : Dev nD) : FVec Ideal S4096x8192 .bf16 := V c (Pipeline.arrRef spec6 0)
abbrev xarr_r6 (c : Dev nD) : FVec Ideal S8192x64 .f32 := V c (Pipeline.arrRef spec6 1)

theorem wblk_apply_r6 (c : Dev nD) (t : Fin cfg6.N) (p : Fin 1024) (k : Fin 4096) (P : Fin 4096) (K : Fin 8192)
    (hP : P.val = win6_0.index t (0 : Fin 2) * 1024 + p.val) (hK : K.val = win6_0.index t (1 : Fin 2) * 4096 + k.val) :
    wblk6 V c t (ix2 p k) = warr_r6 V c (ix2 P K) := by
  unfold wblk6 iblk6 warr_r6
  rw [View.read_apply]
  show (V c (Pipeline.arrRef spec6 0) : FVec Ideal S4096x8192 .bf16) _ = (V c (Pipeline.arrRef spec6 0) : FVec Ideal S4096x8192 .bf16) _
  congr 1
  funext a
  apply Fin.ext
  match a with
  | ⟨0, _⟩ => show win6_0.index t (0 : Fin 2) * 1024 + 1 * p.val = P.val; omega
  | ⟨1, _⟩ => show win6_0.index t (1 : Fin 2) * 4096 + 1 * k.val = K.val; omega

theorem xblk_apply_r6 (c : Dev nD) (t : Fin cfg6.N) (k : Fin 4096) (q : Fin 64) (K : Fin 8192) (Q : Fin 64)
    (hK : K.val = win6_1.index t (0 : Fin 2) * 4096 + k.val) (hQ : Q.val = win6_1.index t (1 : Fin 2) * 64 + q.val) :
    xblk6 V c t (ix2 k q) = xarr_r6 V c (ix2 K Q) := by
  unfold xblk6 iblk6 xarr_r6
  rw [View.read_apply]
  show (V c (Pipeline.arrRef spec6 1) : FVec Ideal S8192x64 .f32) _ = (V c (Pipeline.arrRef spec6 1) : FVec Ideal S8192x64 .f32) _
  congr 1
  funext a
  apply Fin.ext
  match a with
  | ⟨0, _⟩ => show win6_1.index t (0 : Fin 2) * 4096 + 1 * k.val = K.val; omega
  | ⟨1, _⟩ => show win6_1.index t (1 : Fin 2) * 64 + 1 * q.val = Q.val; omega

theorem idx_facts_r6 : ∀ t s : Fin cfg6.N, t.val % 2 = 1 → s.val + 1 = t.val →
    win6_0.index t (0 : Fin 2) = win6_2.index t (0 : Fin 2) ∧ win6_0.index t (1 : Fin 2) = 1
    ∧ win6_1.index t (0 : Fin 2) = 1 ∧ win6_1.index t (1 : Fin 2) = 0
    ∧ win6_0.index s (0 : Fin 2) = win6_2.index t (0 : Fin 2) ∧ win6_0.index s (1 : Fin 2) = 0
    ∧ win6_1.index s (0 : Fin 2) = 0 ∧ win6_1.index s (1 : Fin 2) = 0
    ∧ win6_2.index t (1 : Fin 2) = 0 ∧ win6_2.index t (0 : Fin 2) ≤ 3 :=
  (by decide +kernel : ∀ t s : Fin grid6.N, _)

theorem idx_onto_r6 : ∀ r : Fin 4, ∃ t : Fin cfg6.N, t.val % 2 = 1 ∧ win6_2.index t = ![r.val, 0] :=
  (by decide +kernel : ∀ r : Fin 4, ∃ t : Fin grid6.N, t.val % 2 = 1 ∧ win6_2.index t = ![r.val, 0])

abbrev prod_r6 (c : Dev nD) : FVec Ideal S4096x64 .f32 := prodBot (warr_r6 V c) (xarr_r6 V c)

theorem acc_eq_prod_r6 (c : Dev nD) (t s : Fin cfg6.N) (ht : t.val % 2 = 1) (hs : s.val + 1 = t.val) (p : Fin 1024) (q : Fin 64)
    (P : Fin 4096) (hP : P.val = win6_2.index t (0 : Fin 2) * 1024 + p.val) :
    acc6 V c t.val t.isLt (ix2 p q) = prod_r6 V c (ix2 P q) := by
  obtain ⟨e0, e1, e2, e3, e4, e5, e6, e7, e8, e9⟩ := idx_facts_r6 t s ht hs
  rw [show acc6 V c t.val t.isLt = _ from accOf_flush _ _ t s ht hs]
  exact acc_prod_bot (warr_r6 V c) (xarr_r6 V c) (wblk6 V c s) (wblk6 V c t) (xblk6 V c s) (xblk6 V c t) P p q
    (fun k => wblk_apply_r6 V c s p k P (lo_bot k) (by rw [e4]; exact hP) (by rw [e5]; show k.val = 0 * 4096 + k.val; omega))
    (fun k => wblk_apply_r6 V c t p k P (hi_bot k) (by rw [e0]; exact hP) (by rw [e1]; show 4096 + k.val = 1 * 4096 + k.val; omega))
    (fun k => xblk_apply_r6 V c s k q (lo_bot k) q (by rw [e6]; show k.val = 0 * 4096 + k.val; omega) (by rw [e7]; omega))
    (fun k => xblk_apply_r6 V c t k q (hi_bot k) q (by rw [e2]; show 4096 + k.val = 1 * 4096 + k.val; omega) (by rw [e3]; omega))

/-- What an odd point writes back is its block of W · x. -/
theorem flushed_eq_r6 (c : Dev nD) (t : Fin cfg6.N) (hf : (cfg6.win 2).flush t = true) :
    (dat6 V c).flushed 2 t = ((cfg6.win 2).blk t).view.read (Elt Ideal) (prod_r6 V c) := by
  have ht : t.val % 2 = 1 := (flush6_2 t).mp hf
  have hN : cfg6.N = 8 := N_6
  obtain ⟨e0, e1, e2, e3, e4, e5, e6, e7, e8, e9⟩ := idx_facts_r6 t ⟨t.val - 1, by have := t.isLt; omega⟩ ht (by show t.val - 1 + 1 = t.val; omega)
  show (cfg6.win 2).cut (grid6.coords t) ((dat6 V c).after 2 t) = _
  rw [dat6_after2]
  funext y
  obtain ⟨p, q, rfl⟩ : ∃ (p : Fin 1024) (q : Fin 64), y = ix2 p q := ⟨y 0, y 1, eq_ix2 y⟩
  rw [View.read_apply]
  show acc6 V c t.val t.isLt (ix2 p q) = prod_r6 V c (((cfg6.win 2).blk t).view.emb (ix2 p q))
  have hemb : ((cfg6.win 2).blk t).view.emb (ix2 p q)
      = (ix2 (⟨win6_2.index t (0 : Fin 2) * 1024 + p.val, by have := p.isLt; omega⟩ : Fin 4096) q : S4096x64.Idx) := by
    funext a
    apply Fin.ext
    match a with
    | ⟨0, _⟩ => show win6_2.index t (0 : Fin 2) * 1024 + 1 * p.val = win6_2.index t (0 : Fin 2) * 1024 + p.val; omega
    | ⟨1, _⟩ => show win6_2.index t (1 : Fin 2) * 64 + 1 * q.val = q.val; omega
  rw [hemb]
  exact acc_eq_prod_r6 V c t ⟨t.val - 1, by have := t.isLt; omega⟩ ht (by show t.val - 1 + 1 = t.val; omega) p q _ rfl

theorem mem_blk_r6 (t : Fin cfg6.N) (i : S4096x64.Idx) :
    i ∈ ((cfg6.win 2).blk t).view.set ↔ ∀ a : Fin 2, win6_2.index t a * S1024x64.size a ≤ (i a).val ∧ (i a).val < win6_2.index t a * S1024x64.size a + S1024x64.size a := by
  show i ∈ ((View.whole (Pipeline.arrRef spec6 2)).slice (win6_2.rect t)).set ↔ _
  rw [View.set_slice_whole, Rect.mem_set_unit]
  exact Iff.rfl

/-- Every index of the output lies in the block of the odd point of its row tile. -/
theorem cover_r6 (i : S4096x64.Idx) : ∃ t : Fin cfg6.N, (cfg6.win 2).flush t = true ∧ i ∈ ((cfg6.win 2).blk t).view.set := by
  have hi0 : (i 0).val < 4096 := (i 0).isLt
  have hi1 : (i 1).val < 64 := (i 1).isLt
  obtain ⟨t, ht, hq⟩ := idx_onto_r6 ⟨(i 0).val / 1024, by omega⟩
  have q0 : win6_2.index t (0 : Fin 2) = (i 0).val / 1024 := congrFun hq 0
  have q1 : win6_2.index t (1 : Fin 2) = 0 := congrFun hq 1
  refine ⟨t, (flush6_2 t).mpr ht, ?_⟩
  rw [mem_blk_r6]
  intro a
  match a with
  | ⟨0, _⟩ => show win6_2.index t (0 : Fin 2) * 1024 ≤ (i 0).val ∧ (i 0).val < win6_2.index t (0 : Fin 2) * 1024 + 1024; omega
  | ⟨1, _⟩ => show win6_2.index t (1 : Fin 2) * 64 ≤ (i 1).val ∧ (i 1).val < win6_2.index t (1 : Fin 2) * 64 + 64; omega

theorem bottom_arr6 (c : Dev nD) (j : S4096x64.Idx) :
    (dat6 V c).arrAt 2 cfg6.N j
      = Host.dotGeneral (F := Ideal) (φ₁ := .bf16) (φ₂ := .f32) Cert.ReferenceIdeal.dot_S4096x8192_S8192x64_S4096x64_1_0_0_1_n_n none
          (V c (Pipeline.arrRef spec6 0)) (V c (Pipeline.arrRef spec6 1)) j :=
  congrFun ((dat6 V c).arrAt_eq_of_cover 2 (prod_r6 V c) (fun t hf => flushed_eq_r6 V c t hf) cover_r6) j

end Value

end Cert.KernelIdeal.Hand

end
-- ==== Proof.KI.Val7.lean ====
import proofs.«161291_j15487652069895_1_alg».proof.Proof.KI.Dat7
import proofs.«161291_j15487652069895_1_alg».proof.Proof.KI.ValTop
import proofs.«161291_j15487652069895_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable (V : Vals Ideal)

namespace Value

abbrev warr_r7 (c : Dev nD) : FVec Ideal S4096x8192 .bf16 := V c (Pipeline.arrRef spec7 0)
abbrev xarr_r7 (c : Dev nD) : FVec Ideal S4096x64 .f32 := V c (Pipeline.arrRef spec7 1)

theorem wblk_apply_r7 (c : Dev nD) (t : Fin cfg7.N) (k : Fin 2048) (u : Fin 2048) (K : Fin 4096) (U : Fin 8192)
    (hK : K.val = win7_0.index t (0 : Fin 2) * 2048 + k.val) (hU : U.val = win7_0.index t (1 : Fin 2) * 2048 + u.val) :
    wblk7 V c t (ix2 k u) = warr_r7 V c (ix2 K U) := by
  unfold wblk7 iblk7 warr_r7
  rw [View.read_apply]
  show (V c (Pipeline.arrRef spec7 0) : FVec Ideal S4096x8192 .bf16) _ = (V c (Pipeline.arrRef spec7 0) : FVec Ideal S4096x8192 .bf16) _
  congr 1
  funext a
  apply Fin.ext
  match a with
  | ⟨0, _⟩ => show win7_0.index t (0 : Fin 2) * 2048 + 1 * k.val = K.val; omega
  | ⟨1, _⟩ => show win7_0.index t (1 : Fin 2) * 2048 + 1 * u.val = U.val; omega

theorem xblk_apply_r7 (c : Dev nD) (t : Fin cfg7.N) (k : Fin 2048) (q : Fin 64) (K : Fin 4096) (Q : Fin 64)
    (hK : K.val = win7_1.index t (0 : Fin 2) * 2048 + k.val) (hQ : Q.val = win7_1.index t (1 : Fin 2) * 64 + q.val) :
    xblk7 V c t (ix2 k q) = xarr_r7 V c (ix2 K Q) := by
  unfold xblk7 iblk7 xarr_r7
  rw [View.read_apply]
  show (V c (Pipeline.arrRef spec7 1) : FVec Ideal S4096x64 .f32) _ = (V c (Pipeline.arrRef spec7 1) : FVec Ideal S4096x64 .f32) _
  congr 1
  funext a
  apply Fin.ext
  match a with
  | ⟨0, _⟩ => show win7_1.index t (0 : Fin 2) * 2048 + 1 * k.val = K.val; omega
  | ⟨1, _⟩ => show win7_1.index t (1 : Fin 2) * 64 + 1 * q.val = Q.val; omega

theorem idx_facts_r7 : ∀ t s : Fin cfg7.N, t.val % 2 = 1 → s.val + 1 = t.val →
    win7_0.index t (0 : Fin 2) = 1 ∧ win7_0.index t (1 : Fin 2) = win7_2.index t (0 : Fin 2)
    ∧ win7_1.index t (0 : Fin 2) = 1 ∧ win7_1.index t (1 : Fin 2) = 0
    ∧ win7_0.index s (0 : Fin 2) = 0 ∧ win7_0.index s (1 : Fin 2) = win7_2.index t (0 : Fin 2)
    ∧ win7_1.index s (0 : Fin 2) = 0 ∧ win7_1.index s (1 : Fin 2) = 0
    ∧ win7_2.index t (1 : Fin 2) = 0 ∧ win7_2.index t (0 : Fin 2) ≤ 3 :=
  (by decide +kernel : ∀ t s : Fin grid7.N, _)

theorem idx_onto_r7 : ∀ r : Fin 4, ∃ t : Fin cfg7.N, t.val % 2 = 1 ∧ win7_2.index t = ![r.val, 0] :=
  (by decide +kernel : ∀ r : Fin 4, ∃ t : Fin grid7.N, t.val % 2 = 1 ∧ win7_2.index t = ![r.val, 0])

abbrev prod_r7 (c : Dev nD) : FVec Ideal S8192x64 .f32 := prodTop (warr_r7 V c) (xarr_r7 V c)

theorem acc_eq_prod_r7 (c : Dev nD) (t s : Fin cfg7.N) (ht : t.val % 2 = 1) (hs : s.val + 1 = t.val) (u : Fin 2048) (q : Fin 64)
    (U : Fin 8192) (hU : U.val = win7_2.index t (0 : Fin 2) * 2048 + u.val) :
    acc7 V c t.val t.isLt (ix2 u q) = prod_r7 V c (ix2 U q) := by
  obtain ⟨e0, e1, e2, e3, e4, e5, e6, e7, e8, e9⟩ := idx_facts_r7 t s ht hs
  rw [show acc7 V c t.val t.isLt = _ from accOf_flush _ _ t s ht hs]
  exact acc_prod_top (warr_r7 V c) (xarr_r7 V c) (wblk7 V c s) (wblk7 V c t) (xblk7 V c s) (xblk7 V c t) U u q
    (fun k => wblk_apply_r7 V c s k u (lo_top k) U (by rw [e4]; show k.val = 0 * 2048 + k.val; omega) (by rw [e5]; exact hU))
    (fun k => wblk_apply_r7 V c t k u (hi_top k) U (by rw [e0]; show 2048 + k.val = 1 * 2048 + k.val; omega) (by rw [e1]; exact hU))
    (fun k => xblk_apply_r7 V c s k q (lo_top k) q (by rw [e6]; show k.val = 0 * 2048 + k.val; omega) (by rw [e7]; omega))
    (fun k => xblk_apply_r7 V c t k q (hi_top k) q (by rw [e2]; show 2048 + k.val = 1 * 2048 + k.val; omega) (by rw [e3]; omega))

/-- What an odd point writes back is its block of Wᵀ · x. -/
theorem flushed_eq_r7 (c : Dev nD) (t : Fin cfg7.N) (hf : (cfg7.win 2).flush t = true) :
    (dat7 V c).flushed 2 t = ((cfg7.win 2).blk t).view.read (Elt Ideal) (prod_r7 V c) := by
  have ht : t.val % 2 = 1 := (flush7_2 t).mp hf
  have hN : cfg7.N = 8 := N_7
  obtain ⟨e0, e1, e2, e3, e4, e5, e6, e7, e8, e9⟩ := idx_facts_r7 t ⟨t.val - 1, by have := t.isLt; omega⟩ ht (by show t.val - 1 + 1 = t.val; omega)
  show (cfg7.win 2).cut (grid7.coords t) ((dat7 V c).after 2 t) = _
  rw [dat7_after2]
  funext y
  obtain ⟨u, q, rfl⟩ : ∃ (u : Fin 2048) (q : Fin 64), y = ix2 u q := ⟨y 0, y 1, eq_ix2 y⟩
  rw [View.read_apply]
  show acc7 V c t.val t.isLt (ix2 u q) = prod_r7 V c (((cfg7.win 2).blk t).view.emb (ix2 u q))
  have hemb : ((cfg7.win 2).blk t).view.emb (ix2 u q)
      = (ix2 (⟨win7_2.index t (0 : Fin 2) * 2048 + u.val, by have := u.isLt; omega⟩ : Fin 8192) q : S8192x64.Idx) := by
    funext a
    apply Fin.ext
    match a with
    | ⟨0, _⟩ => show win7_2.index t (0 : Fin 2) * 2048 + 1 * u.val = win7_2.index t (0 : Fin 2) * 2048 + u.val; omega
    | ⟨1, _⟩ => show win7_2.index t (1 : Fin 2) * 64 + 1 * q.val = q.val; omega
  rw [hemb]
  exact acc_eq_prod_r7 V c t ⟨t.val - 1, by have := t.isLt; omega⟩ ht (by show t.val - 1 + 1 = t.val; omega) u q _ rfl

theorem mem_blk_r7 (t : Fin cfg7.N) (i : S8192x64.Idx) :
    i ∈ ((cfg7.win 2).blk t).view.set ↔ ∀ a : Fin 2, win7_2.index t a * S2048x64.size a ≤ (i a).val ∧ (i a).val < win7_2.index t a * S2048x64.size a + S2048x64.size a := by
  show i ∈ ((View.whole (Pipeline.arrRef spec7 2)).slice (win7_2.rect t)).set ↔ _
  rw [View.set_slice_whole, Rect.mem_set_unit]
  exact Iff.rfl

/-- Every index of the output lies in the block of the odd point of its tile. -/
theorem cover_r7 (i : S8192x64.Idx) : ∃ t : Fin cfg7.N, (cfg7.win 2).flush t = true ∧ i ∈ ((cfg7.win 2).blk t).view.set := by
  have hi0 : (i 0).val < 8192 := (i 0).isLt
  have hi1 : (i 1).val < 64 := (i 1).isLt
  obtain ⟨t, ht, hq⟩ := idx_onto_r7 ⟨(i 0).val / 2048, by omega⟩
  have q0 : win7_2.index t (0 : Fin 2) = (i 0).val / 2048 := congrFun hq 0
  have q1 : win7_2.index t (1 : Fin 2) = 0 := congrFun hq 1
  refine ⟨t, (flush7_2 t).mpr ht, ?_⟩
  rw [mem_blk_r7]
  intro a
  match a with
  | ⟨0, _⟩ => show win7_2.index t (0 : Fin 2) * 2048 ≤ (i 0).val ∧ (i 0).val < win7_2.index t (0 : Fin 2) * 2048 + 2048; omega
  | ⟨1, _⟩ => show win7_2.index t (1 : Fin 2) * 64 ≤ (i 1).val ∧ (i 1).val < win7_2.index t (1 : Fin 2) * 64 + 64; omega

theorem top_arr7 (c : Dev nD) (j : S8192x64.Idx) :
    (dat7 V c).arrAt 2 cfg7.N j
      = Host.dotGeneral (F := Ideal) (φ₁ := .bf16) (φ₂ := .f32) Cert.ReferenceIdeal.dot_S8192x4096_S4096x64_S8192x64_1_0_0_1_n_n none
          (transpose Cert.ReferenceIdeal.S8192x4096 [1, 0] (V c (Pipeline.arrRef spec7 0)) Cert.ReferenceIdeal.Facts₀.transposes_S4096x8192_S8192x4096_1_0 : FVec Ideal Cert.ReferenceIdeal.S8192x4096 .bf16) (V c (Pipeline.arrRef spec7 1)) j :=
  congrFun ((dat7 V c).arrAt_eq_of_cover 2 (prod_r7 V c) (fun t hf => flushed_eq_r7 V c t hf) cover_r7) j

end Value

end Cert.KernelIdeal.Hand

end
-- ==== Proof.KI.Bridge.lean ====
import proofs.«161291_j15487652069895_1_alg».proof.Proof.KI.Vals
import proofs.«161291_j15487652069895_1_alg».proof.Proof.KI.Val0
import proofs.«161291_j15487652069895_1_alg».proof.Proof.KI.Val1
import proofs.«161291_j15487652069895_1_alg».proof.Proof.KI.Val2
import proofs.«161291_j15487652069895_1_alg».proof.Proof.KI.Val3
import proofs.«161291_j15487652069895_1_alg».proof.Proof.KI.Val4
import proofs.«161291_j15487652069895_1_alg».proof.Proof.KI.Val5
import proofs.«161291_j15487652069895_1_alg».proof.Proof.KI.Val6
import proofs.«161291_j15487652069895_1_alg».proof.Proof.KI.Val7
import proofs.«161291_j15487652069895_1_alg».proof.Proof.RefRead
import proofs.«161291_j15487652069895_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo
open Cert.ReferenceIdeal.ReadP
open Value

variable (m : (ℓ : Loc nD τ sig) → Buf (Elt Ideal) ℓ) (c : Dev nD)

abbrev argX : (⟨S12288x64, .f32⟩ : BufTy).Contents (Elt Ideal) := m ((c : Thread nD τ).loc main_arg0)
abbrev argE : (⟨S4096x8192, .i32⟩ : BufTy).Contents (Elt Ideal) := m ((c : Thread nD τ).loc main_arg1)

theorem W1_arg0 : W1 m c (Proc.devRef .tc main_arg0) = argX m c := W1_of_ne m c main_arg0 (by decide)
theorem W1_arg1 : W1 m c (Proc.devRef .tc main_arg1) = argE m c :=
  (W1_arr m c 0).trans (((dat0 (V0 m) c).arrAt_in 0 rfl _).trans (dat0_A (V0 m) c 0))

theorem W1_rows : W1 m c (Proc.devRef .tc main_v0_0) = val_main_v3 (F := Ideal) (argE m c) :=
  funext fun j => (congrFun (W1_arr m c 1) j).trans (rows_arr (V0 m) c j)
theorem W1_cols : W1 m c (Proc.devRef .tc main_v0_1) = val_main_v4 (F := Ideal) (argE m c) :=
  funext fun j => (congrFun (W1_arr m c 2) j).trans (cols_arr (V0 m) c j)

theorem W2_arg0 : W2 m c (Proc.devRef .tc main_arg0) = argX m c :=
  (W2_of_ne m c main_arg0 (by decide)).trans (W1_arg0 m c)

/-- The second region leaves the normalised weights, the reference's stage 15 of the edge array. -/
theorem W2_weights : W2 m c (Proc.devRef .tc main_v1) = val_main_v15 (F := Ideal) (argE m c) := by
  funext j
  refine (congrFun (W2_arr m c 3) j).trans ?_
  have h := weights_arr (V1 m) c
    (fun j => by show W1 m c (Proc.devRef .tc main_v0_0) j = _; rw [W1_rows]; show _ = val_main_v3 (F := Ideal) (W1 m c (Proc.devRef .tc main_arg1)) j; rw [W1_arg1])
    (fun j => by show W1 m c (Proc.devRef .tc main_v0_1) j = _; rw [W1_cols]; show _ = val_main_v4 (F := Ideal) (W1 m c (Proc.devRef .tc main_arg1)) j; rw [W1_arg1]) j
  refine h.trans ?_
  show val_main_v15 (F := Ideal) (W1 m c (Proc.devRef .tc main_arg1)) j = _
  rw [W1_arg1]

theorem W3_weights : W3 m c (Proc.devRef .tc main_v1) = val_main_v15 (F := Ideal) (argE m c) :=
  (StableHlo.after_of_writes_sub hostOps2 _ hostOps2_writes (by decide)).trans (W2_weights m c)

theorem W3_acc : W3 m c (Proc.devRef .tc main_v2) = val_main_v16 (F := Ideal) := by
  show StableHlo.after hostOps2 (W2 m c) (Proc.devRef .tc main_v2) = _
  generalize W2 m c = X
  after_results
  rfl
theorem W3_top : W3 m c (Proc.devRef .tc main_v3) = val_main_v18 (F := Ideal) (argX m c) := by
  rw [← W2_arg0 m c]
  show StableHlo.after hostOps2 (W2 m c) (Proc.devRef .tc main_v3) = _
  generalize W2 m c = X
  after_results
  rfl
theorem W3_bot : W3 m c (Proc.devRef .tc main_v4) = val_main_v20 (F := Ideal) (argX m c) := by
  rw [← W2_arg0 m c]
  show StableHlo.after hostOps2 (W2 m c) (Proc.devRef .tc main_v4) = _
  generalize W2 m c = X
  after_results
  rfl

theorem W4_weights : W4 m c (Proc.devRef .tc main_v1) = val_main_v15 (F := Ideal) (argE m c) :=
  (W4_arr m c 0).trans (((dat2 (V3 m) c).arrAt_in 0 rfl _).trans ((dat2_A (V3 m) c 0).trans (W3_weights m c)))
theorem W4_top : W4 m c (Proc.devRef .tc main_v3) = val_main_v18 (F := Ideal) (argX m c) :=
  (W4_of_ne m c main_v3 (by decide)).trans (W3_top m c)
theorem W4_acc : W4 m c (Proc.devRef .tc main_v2) = val_main_v16 (F := Ideal) :=
  (W4_of_ne m c main_v2 (by decide)).trans (W3_acc m c)

theorem W4_prodB : W4 m c (Proc.devRef .tc main_v5) = val_main_v21 (F := Ideal) (argX m c) (argE m c) := by
  funext j
  refine (congrFun (W4_arr m c 2) j).trans ((bottom_arr2 (V3 m) c j).trans ?_)
  have e1 : V3 m c (Pipeline.arrRef spec2 0) = val_main_v15 (F := Ideal) (argE m c) := W3_weights m c
  have e2 : V3 m c (Pipeline.arrRef spec2 1) = val_main_v20 (F := Ideal) (argX m c) := W3_bot m c
  rw [e1, e2]; rfl

theorem W5_weights : W5 m c (Proc.devRef .tc main_v1) = val_main_v15 (F := Ideal) (argE m c) :=
  (W5_arr m c 0).trans (((dat3 (V4 m) c).arrAt_in 0 rfl _).trans ((dat3_A (V4 m) c 0).trans (W4_weights m c)))
theorem W5_prodB : W5 m c (Proc.devRef .tc main_v5) = val_main_v21 (F := Ideal) (argX m c) (argE m c) :=
  (W5_of_ne m c main_v5 (by decide)).trans (W4_prodB m c)
theorem W5_acc : W5 m c (Proc.devRef .tc main_v2) = val_main_v16 (F := Ideal) :=
  (W5_of_ne m c main_v2 (by decide)).trans (W4_acc m c)

theorem W5_prodT : W5 m c (Proc.devRef .tc main_v6) = val_main_v19 (F := Ideal) (argX m c) (argE m c) := by
  funext j
  refine (congrFun (W5_arr m c 2) j).trans ((top_arr3 (V4 m) c j).trans ?_)
  have e1 : V4 m c (Pipeline.arrRef spec3 0) = val_main_v15 (F := Ideal) (argE m c) := W4_weights m c
  have e2 : V4 m c (Pipeline.arrRef spec3 1) = val_main_v18 (F := Ideal) (argX m c) := W4_top m c
  rw [e1, e2]; rfl

theorem W6_weights : W6 m c (Proc.devRef .tc main_v1) = val_main_v15 (F := Ideal) (argE m c) :=
  (StableHlo.after_of_writes_sub hostOps4 _ hostOps4_writes (by decide)).trans (W5_weights m c)
theorem W6_cur : W6 m c (Proc.devRef .tc main_v7) = val_main_v22 (F := Ideal) (argX m c) (argE m c) := by
  have hT := W5_prodT m c; have hB := W5_prodB m c
  show StableHlo.after hostOps4 (W5 m c) (Proc.devRef .tc main_v7) = _
  generalize W5 m c = X at hT hB ⊢
  after_results
  rw [hT, hB]; rfl
theorem W6_acc : W6 m c (Proc.devRef .tc main_v8) = val_main_v23 (F := Ideal) (argX m c) (argE m c) := by
  have hT := W5_prodT m c; have hB := W5_prodB m c; have hA := W5_acc m c
  show StableHlo.after hostOps4 (W5 m c) (Proc.devRef .tc main_v8) = _
  generalize W5 m c = X at hT hB hA ⊢
  after_results
  rw [hT, hB, hA]; rfl
theorem W6_top : W6 m c (Proc.devRef .tc main_v9) = val_main_v25 (F := Ideal) (argX m c) (argE m c) := by
  have hT := W5_prodT m c; have hB := W5_prodB m c
  show StableHlo.after hostOps4 (W5 m c) (Proc.devRef .tc main_v9) = _
  generalize W5 m c = X at hT hB ⊢
  after_results
  rw [hT, hB]; rfl
theorem W6_bot : W6 m c (Proc.devRef .tc main_v10) = val_main_v27 (F := Ideal) (argX m c) (argE m c) := by
  have hT := W5_prodT m c; have hB := W5_prodB m c
  show StableHlo.after hostOps4 (W5 m c) (Proc.devRef .tc main_v10) = _
  generalize W5 m c = X at hT hB ⊢
  after_results
  rw [hT, hB]; rfl

theorem W7_weights : W7 m c (Proc.devRef .tc main_v1) = val_main_v15 (F := Ideal) (argE m c) :=
  (W7_arr m c 0).trans (((dat4 (V6 m) c).arrAt_in 0 rfl _).trans ((dat4_A (V6 m) c 0).trans (W6_weights m c)))
theorem W7_top : W7 m c (Proc.devRef .tc main_v9) = val_main_v25 (F := Ideal) (argX m c) (argE m c) :=
  (W7_of_ne m c main_v9 (by decide)).trans (W6_top m c)
theorem W7_acc : W7 m c (Proc.devRef .tc main_v8) = val_main_v23 (F := Ideal) (argX m c) (argE m c) :=
  (W7_of_ne m c main_v8 (by decide)).trans (W6_acc m c)

theorem W7_prodB : W7 m c (Proc.devRef .tc main_v11) = val_main_v28 (F := Ideal) (argX m c) (argE m c) := by
  funext j
  refine (congrFun (W7_arr m c 2) j).trans ((bottom_arr4 (V6 m) c j).trans ?_)
  have e1 : V6 m c (Pipeline.arrRef spec4 0) = val_main_v15 (F := Ideal) (argE m c) := W6_weights m c
  have e2 : V6 m c (Pipeline.arrRef spec4 1) = val_main_v27 (F := Ideal) (argX m c) (argE m c) := W6_bot m c
  rw [e1, e2]; rfl

theorem W8_weights : W8 m c (Proc.devRef .tc main_v1) = val_main_v15 (F := Ideal) (argE m c) :=
  (W8_arr m c 0).trans (((dat5 (V7 m) c).arrAt_in 0 rfl _).trans ((dat5_A (V7 m) c 0).trans (W7_weights m c)))
theorem W8_prodB : W8 m c (Proc.devRef .tc main_v11) = val_main_v28 (F := Ideal) (argX m c) (argE m c) :=
  (W8_of_ne m c main_v11 (by decide)).trans (W7_prodB m c)
theorem W8_acc : W8 m c (Proc.devRef .tc main_v8) = val_main_v23 (F := Ideal) (argX m c) (argE m c) :=
  (W8_of_ne m c main_v8 (by decide)).trans (W7_acc m c)

theorem W8_prodT : W8 m c (Proc.devRef .tc main_v12) = val_main_v26 (F := Ideal) (argX m c) (argE m c) := by
  funext j
  refine (congrFun (W8_arr m c 2) j).trans ((top_arr5 (V7 m) c j).trans ?_)
  have e1 : V7 m c (Pipeline.arrRef spec5 0) = val_main_v15 (F := Ideal) (argE m c) := W7_weights m c
  have e2 : V7 m c (Pipeline.arrRef spec5 1) = val_main_v25 (F := Ideal) (argX m c) (argE m c) := W7_top m c
  rw [e1, e2]; rfl

theorem W9_weights : W9 m c (Proc.devRef .tc main_v1) = val_main_v15 (F := Ideal) (argE m c) :=
  (StableHlo.after_of_writes_sub hostOps6 _ hostOps6_writes (by decide)).trans (W8_weights m c)
theorem W9_cur : W9 m c (Proc.devRef .tc main_v13) = val_main_v29 (F := Ideal) (argX m c) (argE m c) := by
  have hT := W8_prodT m c; have hB := W8_prodB m c
  show StableHlo.after hostOps6 (W8 m c) (Proc.devRef .tc main_v13) = _
  generalize W8 m c = X at hT hB ⊢
  after_results
  rw [hT, hB]; rfl
theorem W9_acc : W9 m c (Proc.devRef .tc main_v14) = val_main_v30 (F := Ideal) (argX m c) (argE m c) := by
  have hT := W8_prodT m c; have hB := W8_prodB m c; have hA := W8_acc m c
  show StableHlo.after hostOps6 (W8 m c) (Proc.devRef .tc main_v14) = _
  generalize W8 m c = X at hT hB hA ⊢
  after_results
  rw [hT, hB, hA]; rfl
theorem W9_top : W9 m c (Proc.devRef .tc main_v15) = val_main_v32 (F := Ideal) (argX m c) (argE m c) := by
  have hT := W8_prodT m c; have hB := W8_prodB m c
  show StableHlo.after hostOps6 (W8 m c) (Proc.devRef .tc main_v15) = _
  generalize W8 m c = X at hT hB ⊢
  after_results
  rw [hT, hB]; rfl
theorem W9_bot : W9 m c (Proc.devRef .tc main_v16) = val_main_v34 (F := Ideal) (argX m c) (argE m c) := by
  have hT := W8_prodT m c; have hB := W8_prodB m c
  show StableHlo.after hostOps6 (W8 m c) (Proc.devRef .tc main_v16) = _
  generalize W8 m c = X at hT hB ⊢
  after_results
  rw [hT, hB]; rfl

theorem W10_weights : W10 m c (Proc.devRef .tc main_v1) = val_main_v15 (F := Ideal) (argE m c) :=
  (W10_arr m c 0).trans (((dat6 (V9 m) c).arrAt_in 0 rfl _).trans ((dat6_A (V9 m) c 0).trans (W9_weights m c)))
theorem W10_top : W10 m c (Proc.devRef .tc main_v15) = val_main_v32 (F := Ideal) (argX m c) (argE m c) :=
  (W10_of_ne m c main_v15 (by decide)).trans (W9_top m c)
theorem W10_acc : W10 m c (Proc.devRef .tc main_v14) = val_main_v30 (F := Ideal) (argX m c) (argE m c) :=
  (W10_of_ne m c main_v14 (by decide)).trans (W9_acc m c)

theorem W10_prodB : W10 m c (Proc.devRef .tc main_v17) = val_main_v35 (F := Ideal) (argX m c) (argE m c) := by
  funext j
  refine (congrFun (W10_arr m c 2) j).trans ((bottom_arr6 (V9 m) c j).trans ?_)
  have e1 : V9 m c (Pipeline.arrRef spec6 0) = val_main_v15 (F := Ideal) (argE m c) := W9_weights m c
  have e2 : V9 m c (Pipeline.arrRef spec6 1) = val_main_v34 (F := Ideal) (argX m c) (argE m c) := W9_bot m c
  rw [e1, e2]; rfl

theorem W11_weights : W11 m c (Proc.devRef .tc main_v1) = val_main_v15 (F := Ideal) (argE m c) :=
  (W11_arr m c 0).trans (((dat7 (V10 m) c).arrAt_in 0 rfl _).trans ((dat7_A (V10 m) c 0).trans (W10_weights m c)))
theorem W11_prodB : W11 m c (Proc.devRef .tc main_v17) = val_main_v35 (F := Ideal) (argX m c) (argE m c) :=
  (W11_of_ne m c main_v17 (by decide)).trans (W10_prodB m c)
theorem W11_acc : W11 m c (Proc.devRef .tc main_v14) = val_main_v30 (F := Ideal) (argX m c) (argE m c) :=
  (W11_of_ne m c main_v14 (by decide)).trans (W10_acc m c)

theorem W11_prodT : W11 m c (Proc.devRef .tc main_v18) = val_main_v33 (F := Ideal) (argX m c) (argE m c) := by
  funext j
  refine (congrFun (W11_arr m c 2) j).trans ((top_arr7 (V10 m) c j).trans ?_)
  have e1 : V10 m c (Pipeline.arrRef spec7 0) = val_main_v15 (F := Ideal) (argE m c) := W10_weights m c
  have e2 : V10 m c (Pipeline.arrRef spec7 1) = val_main_v32 (F := Ideal) (argX m c) (argE m c) := W10_top m c
  rw [e1, e2]; rfl

theorem W12_result : W12 m c (Proc.devRef .tc main_v22) = val_main_v39 (F := Ideal) (argX m c) (argE m c) := by
  have hT := W11_prodT m c; have hB := W11_prodB m c; have hA := W11_acc m c
  show StableHlo.after hostOps8 (W11 m c) (Proc.devRef .tc main_v22) = _
  generalize W11 m c = X at hT hB hA ⊢
  after_results
  rw [hT, hB, hA]; rfl

end Cert.KernelIdeal.Hand

end
-- ==== Proof.RefRunStages.lean ====
import proofs.«161291_j15487652069895_1_alg».proof.Proof.RefRun
import proofs.«161291_j15487652069895_1_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

abbrev stretchA : List (HloOp τ sig (Elt F)) :=
  [ unary main_arg1 main_v0 (sitofp (F := F) .f32 : (⟨S4096x8192, .i32⟩ : BufTy).Contents (Elt F) → (⟨S4096x8192, .f32⟩ : BufTy).Contents (Elt F)),
    nullary main_cst (constant S_ .f32 0x00000000#32),
    binary main_v0 main_cst main_v1 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_0 (constant S_ .f32 0x00000000#32),
    binary main_v0 main_cst_0 main_v2 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)),
    unary main_v1 main_v3 (broadcastInDim S4096x1 ![0] bcast_S4096_S4096x1_0 : (⟨S4096, .f32⟩ : BufTy).Contents (Elt F) → (⟨S4096x1, .f32⟩ : BufTy).Contents (Elt F)),
    unary main_v2 main_v4 (broadcastInDim S1x8192 ![1] bcast_S8192_S1x8192_1 : (⟨S8192, .f32⟩ : BufTy).Contents (Elt F) → (⟨S1x8192, .f32⟩ : BufTy).Contents (Elt F)),
    unary main_v3 main_v5 (broadcastInDim S4096x8192 ![0, 1] bcast_S4096x1_S4096x8192_0_1 : (⟨S4096x1, .f32⟩ : BufTy).Contents (Elt F) → (⟨S4096x8192, .f32⟩ : BufTy).Contents (Elt F)),
    unary main_v4 main_v6 (broadcastInDim S4096x8192 ![0, 1] bcast_S1x8192_S4096x8192_0_1 : (⟨S1x8192, .f32⟩ : BufTy).Contents (Elt F) → (⟨S4096x8192, .f32⟩ : BufTy).Contents (Elt F)),
    binary main_v5 main_v6 main_v7 (mulf : (⟨S4096x8192, .f32⟩ : BufTy).Contents (Elt F) → (⟨S4096x8192, .f32⟩ : BufTy).Contents (Elt F) → (⟨S4096x8192, .f32⟩ : BufTy).Contents (Elt F)),
    unary main_v7 main_v8 (Host.sqrt : (⟨S4096x8192, .f32⟩ : BufTy).Contents (Elt F) → (⟨S4096x8192, .f32⟩ : BufTy).Contents (Elt F)) ]

abbrev stretchB : List (HloOp τ sig (Elt F)) :=
  [ nullary main_cst_1 (constant S_ .f32 0x00000000#32),
    unary main_cst_1 main_v9 (broadcastInDim S4096x8192 ![] bcast_S_S4096x8192 : (⟨S_, .f32⟩ : BufTy).Contents (Elt F) → (⟨S4096x8192, .f32⟩ : BufTy).Contents (Elt F)),
    binary main_v8 main_v9 main_v10 (cmpf (F := F) .ogt : (⟨S4096x8192, .f32⟩ : BufTy).Contents (Elt F) → (⟨S4096x8192, .f32⟩ : BufTy).Contents (Elt F) → (⟨S4096x8192, .i1⟩ : BufTy).Contents (Elt F)),
    nullary main_cst_2 (constant S_ .f32 0x00000000#32),
    unary main_cst_2 main_v11 (broadcastInDim S4096x8192 ![] bcast_S_S4096x8192 : (⟨S_, .f32⟩ : BufTy).Contents (Elt F) → (⟨S4096x8192, .f32⟩ : BufTy).Contents (Elt F)),
    binary main_v8 main_v11 main_v12 (cmpf (F := F) .ogt : (⟨S4096x8192, .f32⟩ : BufTy).Contents (Elt F) → (⟨S4096x8192, .f32⟩ : BufTy).Contents (Elt F) → (⟨S4096x8192, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4096x8192, .f32⟩) main_call0_v1) (broadcastInDim S4096x8192 ![] bcast_S_S4096x8192),
    TRef.ternary (TRef.of (T := ⟨S4096x8192, .i1⟩) main_v12) (TRef.of (T := ⟨S4096x8192, .f32⟩) main_v8) (TRef.of (T := ⟨S4096x8192, .f32⟩) main_call0_v1) (TRef.of (T := ⟨S4096x8192, .f32⟩) main_v13) select,
    binary main_v0 main_v13 main_v14 (Host.divf : (⟨S4096x8192, .f32⟩ : BufTy).Contents (Elt F) → (⟨S4096x8192, .f32⟩ : BufTy).Contents (Elt F) → (⟨S4096x8192, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S4096x8192, .f32⟩) main_call1_v1) (broadcastInDim S4096x8192 ![] bcast_S_S4096x8192),
    TRef.ternary (TRef.of (T := ⟨S4096x8192, .i1⟩) main_v10) (TRef.of (T := ⟨S4096x8192, .f32⟩) main_v14) (TRef.of (T := ⟨S4096x8192, .f32⟩) main_call1_v1) (TRef.of (T := ⟨S4096x8192, .f32⟩) main_v15) select ]

abbrev stretchC : List (HloOp τ sig (Elt F)) :=
  [ nullary main_cst_5 (constant S_ .f32 0x00000000#32),
    unary main_cst_5 main_v16 (broadcastInDim S12288x64 ![] bcast_S_S12288x64 : (⟨S_, .f32⟩ : BufTy).Contents (Elt F) → (⟨S12288x64, .f32⟩ : BufTy).Contents (Elt F)),
    unary main_v15 main_v17 ((transpose S8192x4096 [1, 0] · transposes_S4096x8192_S8192x4096_1_0) : (⟨S4096x8192, .f32⟩ : BufTy).Contents (Elt F) → (⟨S8192x4096, .f32⟩ : BufTy).Contents (Elt F)),
    unary main_arg0 main_v18 ((extractStridedSlice S4096x64 ![0, 0] · slices_S12288x64_S4096x64_0_0) : (⟨S12288x64, .f32⟩ : BufTy).Contents (Elt F) → (⟨S4096x64, .f32⟩ : BufTy).Contents (Elt F)),
    binary main_v17 main_v18 main_v19 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    unary main_arg0 main_v20 ((extractStridedSlice S8192x64 ![4096, 0] · slices_S12288x64_S8192x64_4096_0) : (⟨S12288x64, .f32⟩ : BufTy).Contents (Elt F) → (⟨S8192x64, .f32⟩ : BufTy).Contents (Elt F)),
    binary main_v15 main_v20 main_v21 ((fun l r => Host.dotGeneral dot_S4096x8192_S8192x64_S4096x64_1_0_0_1_n_n none l r) : (⟨S4096x8192, .f32⟩ : BufTy).Contents (Elt F) → (⟨S8192x64, .f32⟩ : BufTy).Contents (Elt F) → (⟨S4096x64, .f32⟩ : BufTy).Contents (Elt F)),
    binary main_v19 main_v21 main_v22 ((fun a b => concatenate S12288x64 0 [⟨S8192x64, a⟩, ⟨S4096x64, b⟩] concatenates_S8192x64_S4096x64_S12288x64_d0) : (⟨S8192x64, .f32⟩ : BufTy).Contents (Elt F) → (⟨S4096x64, .f32⟩ : BufTy).Contents (Elt F) → (⟨S12288x64, .f32⟩ : BufTy).Contents (Elt F)),
    binary main_v16 main_v22 main_v23 (addf : (⟨S12288x64, .f32⟩ : BufTy).Contents (Elt F) → (⟨S12288x64, .f32⟩ : BufTy).Contents (Elt F) → (⟨S12288x64, .f32⟩ : BufTy).Contents (Elt F)) ]

abbrev stretchD : List (HloOp τ sig (Elt F)) :=
  [ unary main_v15 main_v24 ((transpose S8192x4096 [1, 0] · transposes_S4096x8192_S8192x4096_1_0) : (⟨S4096x8192, .f32⟩ : BufTy).Contents (Elt F) → (⟨S8192x4096, .f32⟩ : BufTy).Contents (Elt F)),
    unary main_v22 main_v25 ((extractStridedSlice S4096x64 ![0, 0] · slices_S12288x64_S4096x64_0_0) : (⟨S12288x64, .f32⟩ : BufTy).Contents (Elt F) → (⟨S4096x64, .f32⟩ : BufTy).Contents (Elt F)),
    binary main_v24 main_v25 main_v26 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    unary main_v22 main_v27 ((extractStridedSlice S8192x64 ![4096, 0] · slices_S12288x64_S8192x64_4096_0) : (⟨S12288x64, .f32⟩ : BufTy).Contents (Elt F) → (⟨S8192x64, .f32⟩ : BufTy).Contents (Elt F)),
    binary main_v15 main_v27 main_v28 ((fun l r => Host.dotGeneral dot_S4096x8192_S8192x64_S4096x64_1_0_0_1_n_n none l r) : (⟨S4096x8192, .f32⟩ : BufTy).Contents (Elt F) → (⟨S8192x64, .f32⟩ : BufTy).Contents (Elt F) → (⟨S4096x64, .f32⟩ : BufTy).Contents (Elt F)),
    binary main_v26 main_v28 main_v29 ((fun a b => concatenate S12288x64 0 [⟨S8192x64, a⟩, ⟨S4096x64, b⟩] concatenates_S8192x64_S4096x64_S12288x64_d0) : (⟨S8192x64, .f32⟩ : BufTy).Contents (Elt F) → (⟨S4096x64, .f32⟩ : BufTy).Contents (Elt F) → (⟨S12288x64, .f32⟩ : BufTy).Contents (Elt F)),
    binary main_v23 main_v29 main_v30 (addf : (⟨S12288x64, .f32⟩ : BufTy).Contents (Elt F) → (⟨S12288x64, .f32⟩ : BufTy).Contents (Elt F) → (⟨S12288x64, .f32⟩ : BufTy).Contents (Elt F)) ]

abbrev stretchE : List (HloOp τ sig (Elt F)) :=
  [ unary main_v15 main_v31 ((transpose S8192x4096 [1, 0] · transposes_S4096x8192_S8192x4096_1_0) : (⟨S4096x8192, .f32⟩ : BufTy).Contents (Elt F) → (⟨S8192x4096, .f32⟩ : BufTy).Contents (Elt F)),
    unary main_v29 main_v32 ((extractStridedSlice S4096x64 ![0, 0] · slices_S12288x64_S4096x64_0_0) : (⟨S12288x64, .f32⟩ : BufTy).Contents (Elt F) → (⟨S4096x64, .f32⟩ : BufTy).Contents (Elt F)),
    binary main_v31 main_v32 main_v33 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    unary main_v29 main_v34 ((extractStridedSlice S8192x64 ![4096, 0] · slices_S12288x64_S8192x64_4096_0) : (⟨S12288x64, .f32⟩ : BufTy).Contents (Elt F) → (⟨S8192x64, .f32⟩ : BufTy).Contents (Elt F)),
    binary main_v15 main_v34 main_v35 ((fun l r => Host.dotGeneral dot_S4096x8192_S8192x64_S4096x64_1_0_0_1_n_n none l r) : (⟨S4096x8192, .f32⟩ : BufTy).Contents (Elt F) → (⟨S8192x64, .f32⟩ : BufTy).Contents (Elt F) → (⟨S4096x64, .f32⟩ : BufTy).Contents (Elt F)),
    binary main_v33 main_v35 main_v36 ((fun a b => concatenate S12288x64 0 [⟨S8192x64, a⟩, ⟨S4096x64, b⟩] concatenates_S8192x64_S4096x64_S12288x64_d0) : (⟨S8192x64, .f32⟩ : BufTy).Contents (Elt F) → (⟨S4096x64, .f32⟩ : BufTy).Contents (Elt F) → (⟨S12288x64, .f32⟩ : BufTy).Contents (Elt F)),
    binary main_v30 main_v36 main_v37 (addf : (⟨S12288x64, .f32⟩ : BufTy).Contents (Elt F) → (⟨S12288x64, .f32⟩ : BufTy).Contents (Elt F) → (⟨S12288x64, .f32⟩ : BufTy).Contents (Elt F)),
    nullary main_cst_6 (constant S_ .f32 0x40800000#32),
    unary main_cst_6 main_v38 (broadcastInDim S12288x64 ![] bcast_S_S12288x64 : (⟨S_, .f32⟩ : BufTy).Contents (Elt F) → (⟨S12288x64, .f32⟩ : BufTy).Contents (Elt F)),
    binary main_v37 main_v38 main_v39 (Host.divf : (⟨S12288x64, .f32⟩ : BufTy).Contents (Elt F) → (⟨S12288x64, .f32⟩ : BufTy).Contents (Elt F) → (⟨S12288x64, .f32⟩ : BufTy).Contents (Elt F)) ]

theorem ops_split : (ops : List (HloOp τ sig (Elt F))) = stretchA ++ (stretchB ++ (stretchC ++ (stretchD ++ stretchE))) := rfl

theorem A_arg0 (W : Valuation τ sig (Elt F)) : after stretchA W (Proc.devRef .tc main_arg0) = W (Proc.devRef .tc main_arg0) := by after_results
theorem A_arg1 (W : Valuation τ sig (Elt F)) : after stretchA W (Proc.devRef .tc main_arg1) = W (Proc.devRef .tc main_arg1) := by after_results
theorem B_arg0 (W : Valuation τ sig (Elt F)) : after stretchB W (Proc.devRef .tc main_arg0) = W (Proc.devRef .tc main_arg0) := by after_results
theorem B_arg1 (W : Valuation τ sig (Elt F)) : after stretchB W (Proc.devRef .tc main_arg1) = W (Proc.devRef .tc main_arg1) := by after_results
theorem C_arg0 (W : Valuation τ sig (Elt F)) : after stretchC W (Proc.devRef .tc main_arg0) = W (Proc.devRef .tc main_arg0) := by after_results
theorem C_arg1 (W : Valuation τ sig (Elt F)) : after stretchC W (Proc.devRef .tc main_arg1) = W (Proc.devRef .tc main_arg1) := by after_results
theorem D_arg0 (W : Valuation τ sig (Elt F)) : after stretchD W (Proc.devRef .tc main_arg0) = W (Proc.devRef .tc main_arg0) := by after_results
theorem D_arg1 (W : Valuation τ sig (Elt F)) : after stretchD W (Proc.devRef .tc main_arg1) = W (Proc.devRef .tc main_arg1) := by after_results
theorem E_arg0 (W : Valuation τ sig (Elt F)) : after stretchE W (Proc.devRef .tc main_arg0) = W (Proc.devRef .tc main_arg0) := by after_results
theorem E_arg1 (W : Valuation τ sig (Elt F)) : after stretchE W (Proc.devRef .tc main_arg1) = W (Proc.devRef .tc main_arg1) := by after_results
theorem C_v15 (W : Valuation τ sig (Elt F)) : after stretchC W (Proc.devRef .tc main_v15) = W (Proc.devRef .tc main_v15) := by after_results
theorem D_v15 (W : Valuation τ sig (Elt F)) : after stretchD W (Proc.devRef .tc main_v15) = W (Proc.devRef .tc main_v15) := by after_results

theorem A_v0 (W : Valuation τ sig (Elt F)) (x1 : (⟨S4096x8192, .i32⟩ : BufTy).Contents (Elt F))
    (h1 : W (Proc.devRef .tc main_arg1) = x1) :
    after stretchA W (Proc.devRef .tc main_v0) = val_main_v0 (F := F) x1 := by
  subst h1
  after_results
  rfl

theorem A_v8 (W : Valuation τ sig (Elt F)) (x1 : (⟨S4096x8192, .i32⟩ : BufTy).Contents (Elt F))
    (h1 : W (Proc.devRef .tc main_arg1) = x1) :
    after stretchA W (Proc.devRef .tc main_v8) = val_main_v8 (F := F) x1 := by
  subst h1
  after_results
  rfl

theorem B_v15 (W : Valuation τ sig (Elt F)) (x1 : (⟨S4096x8192, .i32⟩ : BufTy).Contents (Elt F))
    (h0 : W (Proc.devRef .tc main_v0) = val_main_v0 (F := F) x1) (h8 : W (Proc.devRef .tc main_v8) = val_main_v8 (F := F) x1) :
    after stretchB W (Proc.devRef .tc main_v15) = val_main_v15 (F := F) x1 := by
  after_results
  rw [h0, h8]
  rfl

theorem C_v22 (W : Valuation τ sig (Elt F)) (x0 : (⟨S12288x64, .f32⟩ : BufTy).Contents (Elt F)) (x1 : (⟨S4096x8192, .i32⟩ : BufTy).Contents (Elt F))
    (h15 : W (Proc.devRef .tc main_v15) = val_main_v15 (F := F) x1) (h0 : W (Proc.devRef .tc main_arg0) = x0) :
    after stretchC W (Proc.devRef .tc main_v22) = val_main_v22 (F := F) x0 x1 := by
  subst h0
  after_results
  rw [h15]
  rfl

theorem C_v23 (W : Valuation τ sig (Elt F)) (x0 : (⟨S12288x64, .f32⟩ : BufTy).Contents (Elt F)) (x1 : (⟨S4096x8192, .i32⟩ : BufTy).Contents (Elt F))
    (h15 : W (Proc.devRef .tc main_v15) = val_main_v15 (F := F) x1) (h0 : W (Proc.devRef .tc main_arg0) = x0) :
    after stretchC W (Proc.devRef .tc main_v23) = val_main_v23 (F := F) x0 x1 := by
  subst h0
  after_results
  rw [h15]
  rfl

theorem D_v29 (W : Valuation τ sig (Elt F)) (x0 : (⟨S12288x64, .f32⟩ : BufTy).Contents (Elt F)) (x1 : (⟨S4096x8192, .i32⟩ : BufTy).Contents (Elt F))
    (h15 : W (Proc.devRef .tc main_v15) = val_main_v15 (F := F) x1) (h22 : W (Proc.devRef .tc main_v22) = val_main_v22 (F := F) x0 x1) :
    after stretchD W (Proc.devRef .tc main_v29) = val_main_v29 (F := F) x0 x1 := by
  after_results
  rw [h15, h22]
  rfl

theorem D_v30 (W : Valuation τ sig (Elt F)) (x0 : (⟨S12288x64, .f32⟩ : BufTy).Contents (Elt F)) (x1 : (⟨S4096x8192, .i32⟩ : BufTy).Contents (Elt F))
    (h15 : W (Proc.devRef .tc main_v15) = val_main_v15 (F := F) x1) (h22 : W (Proc.devRef .tc main_v22) = val_main_v22 (F := F) x0 x1)
    (h23 : W (Proc.devRef .tc main_v23) = val_main_v23 (F := F) x0 x1) :
    after stretchD W (Proc.devRef .tc main_v30) = val_main_v30 (F := F) x0 x1 := by
  after_results
  rw [h15, h22, h23]
  rfl

theorem E_v39 (W : Valuation τ sig (Elt F)) (x0 : (⟨S12288x64, .f32⟩ : BufTy).Contents (Elt F)) (x1 : (⟨S4096x8192, .i32⟩ : BufTy).Contents (Elt F))
    (h15 : W (Proc.devRef .tc main_v15) = val_main_v15 (F := F) x1) (h29 : W (Proc.devRef .tc main_v29) = val_main_v29 (F := F) x0 x1)
    (h30 : W (Proc.devRef .tc main_v30) = val_main_v30 (F := F) x0 x1) :
    after stretchE W (Proc.devRef .tc main_v39) = val_main_v39 (F := F) x0 x1 := by
  after_results
  rw [h15, h29, h30]
  rfl

theorem after_arg0 (V : Valuation τ sig (Elt F)) : after ops V (Proc.devRef .tc main_arg0) = V (Proc.devRef .tc main_arg0) := by
  rw [ops_split, StableHlo.after_append, StableHlo.after_append, StableHlo.after_append, StableHlo.after_append,
    E_arg0, D_arg0, C_arg0, B_arg0, A_arg0]

theorem after_arg1 (V : Valuation τ sig (Elt F)) : after ops V (Proc.devRef .tc main_arg1) = V (Proc.devRef .tc main_arg1) := by
  rw [ops_split, StableHlo.after_append, StableHlo.after_append, StableHlo.after_append, StableHlo.after_append,
    E_arg1, D_arg1, C_arg1, B_arg1, A_arg1]

theorem after_v39 (V : Valuation τ sig (Elt F)) :
    after ops V (Proc.devRef .tc main_v39)
      = val_main_v39 (F := F) (V (Proc.devRef .tc main_arg0)) (V (Proc.devRef .tc main_arg1)) := by
  rw [ops_split, StableHlo.after_append, StableHlo.after_append, StableHlo.after_append, StableHlo.after_append]
  have a0 := A_v0 V _ rfl
  have a8 := A_v8 V _ rfl
  have b15 := B_v15 (after stretchA V) _ a0 a8
  have bx0 : after stretchB (after stretchA V) (Proc.devRef .tc main_arg0) = V (Proc.devRef .tc main_arg0) := (B_arg0 _).trans (A_arg0 V)
  have c22 := C_v22 (after stretchB (after stretchA V)) _ _ b15 bx0
  have c23 := C_v23 (after stretchB (after stretchA V)) _ _ b15 bx0
  have c15 := (C_v15 (after stretchB (after stretchA V))).trans b15
  have d29 := D_v29 (after stretchC (after stretchB (after stretchA V))) _ _ c15 c22
  have d30 := D_v30 (after stretchC (after stretchB (after stretchA V))) _ _ c15 c22 c23
  have d15 := (D_v15 (after stretchC (after stretchB (after stretchA V)))).trans c15
  exact E_v39 _ _ _ d15 d29 d30

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = val_main_v39 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v39).trans (after_v39 _),
      (h c main_arg0).trans (after_arg0 _),
      (h c main_arg1).trans (after_arg1 _)⟩)
    (run_seq scopedRefs_eq scopedSems_eq defs main (fun _ => ops) main_eq (fun _ => ops_sub) m ρ)

end Cert.ReferenceIdeal.Stages

end
-- ==== Proof.lean ====
import proofs.«161291_j15487652069895_1_alg».proof.Defs
import proofs.«161291_j15487652069895_1_alg».proof.Proof.Gen.Kernel
import proofs.«161291_j15487652069895_1_alg».proof.Proof.Gen.KernelIdeal
import proofs.«161291_j15487652069895_1_alg».proof.Proof.Gen.ReferenceIdeal
import proofs.«161291_j15487652069895_1_alg».proof.Proof.Gen.Pre_finite_inputs
import proofs.«161291_j15487652069895_1_alg».proof.Proof.KB.Run
import proofs.«161291_j15487652069895_1_alg».proof.Proof.KI.Run
import proofs.«161291_j15487652069895_1_alg».proof.Proof.KI.Bridge
import proofs.«161291_j15487652069895_1_alg».proof.Proof.RefRunStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Stages.run (F := Ideal) m ρ)

/-- Both programs end with the reference's last stage of the (agreeing) arguments in their result buffers: each blocked product is the whole product with its sum regrouped, nothing else. -/
theorem algebraic : Cert.algebraic_KernelIdeal_ReferenceIdeal := by
  intro m ρ m' ρ' _ hagree
  refine ⟨fun c => Cert.ReferenceIdeal.ReadP.val_main_v39 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v22 (by decide))).trans (Cert.KernelIdeal.Hand.W12_result m c)
    · exact (h c _ (Cert.KernelIdeal.Hand.mem_uc Cert.KernelIdeal.main_arg0 (by decide))).trans (Cert.KernelIdeal.Hand.W12_main_arg0 m c)
    · exact (h c _ (Cert.KernelIdeal.Hand.mem_uc Cert.KernelIdeal.main_arg1 (by decide))).trans (Cert.KernelIdeal.Hand.W12_main_arg1 m c)
  · refine (θ_run Cert.ReferenceIdeal.defs _ _).mono (fun r h c => ⟨(h c).1.trans ?_, (h c).2.1, (h c).2.2⟩)
      (Cert.ReferenceIdeal.Stages.run (F := Ideal) m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
